-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S512x8192 : Shape := ⟨2, ![512, 8192]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel

variable [Facts]

def fn {F : FTy → Type} [FloatOps F] (main_arg0 : FVec F S512x8192 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  main_v3
-- ==== Kernel.lean ====
abbrev S512x256 : Shape := ⟨2, ![512, 256]⟩
abbrev S8x2x512 : Shape := ⟨3, ![8, 2, 512]⟩
abbrev S4x2x512 : Shape := ⟨3, ![4, 2, 512]⟩
abbrev S8 : Shape := ⟨1, ![8]⟩
abbrev S4 : Shape := ⟨1, ![4]⟩
abbrev S_ : Shape := ⟨0, ![]⟩
abbrev S512 : Shape := ⟨1, ![512]⟩
abbrev S512x1 : Shape := ⟨2, ![512, 1]⟩
abbrev S1x512 : Shape := ⟨2, ![1, 512]⟩
abbrev S2x512 : Shape := ⟨2, ![2, 512]⟩
abbrev S1x2x512 : Shape := ⟨3, ![1, 2, 512]⟩
abbrev S1 : Shape := ⟨1, ![1]⟩
abbrev S8x1x512 : Shape := ⟨3, ![8, 1, 512]⟩
abbrev S8x512 : Shape := ⟨2, ![8, 512]⟩
abbrev S4x1x512 : Shape := ⟨3, ![4, 1, 512]⟩
abbrev S4x512 : Shape := ⟨2, ![4, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S8x2x512, .f32⟩
  | .local _ .vmem, ⟨3, _⟩ => ⟨S4x2x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_1 : BitVec 32 := 8#32
  let v6 : BitVec 32 := Scalar.muli v3 c8_i32_1
  let c8_i32_0 : BitVec 32 := 8#32
  let v4 : BitVec 32 := Scalar.remsi v2 c8_i32_0
  let c1_i32_2 : BitVec 32 := 1#32
  let v7 : BitVec 32 := Scalar.addi v4 c1_i32_2
  let c8_i32_3 : BitVec 32 := 8#32
  let v8 : BitVec 32 := Scalar.remsi v7 c8_i32_3
  let v9 : BitVec 32 := Scalar.addi v6 v8
  let c1_i32_5 : BitVec 32 := 1#32
  let v10 : BitVec 32 := Scalar.muli v9 c1_i32_5
  let v11 : BitVec 32 := Scalar.addi c0_i32 v10
  v11.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v12 : BitVec 32 := Scalar.muli v3 c8_i32_6
  let c8_i32_0 : BitVec 32 := 8#32
  let v4 : BitVec 32 := Scalar.remsi v2 c8_i32_0
  let c2_i32 : BitVec 32 := 2#32
  let v13 : BitVec 32 := Scalar.addi v4 c2_i32
  let c8_i32_7 : BitVec 32 := 8#32
  let v14 : BitVec 32 := Scalar.remsi v13 c8_i32_7
  let v15 : BitVec 32 := Scalar.addi v12 v14
  let c1_i32_9 : BitVec 32 := 1#32
  let v16 : BitVec 32 := Scalar.muli v15 c1_i32_9
  let v17 : BitVec 32 := Scalar.addi c0_i32_10 v16
  v17.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_11 : BitVec 32 := 8#32
  let v18 : BitVec 32 := Scalar.muli v3 c8_i32_11
  let c8_i32_0 : BitVec 32 := 8#32
  let v4 : BitVec 32 := Scalar.remsi v2 c8_i32_0
  let c3_i32 : BitVec 32 := 3#32
  let v19 : BitVec 32 := Scalar.addi v4 c3_i32
  let c8_i32_12 : BitVec 32 := 8#32
  let v20 : BitVec 32 := Scalar.remsi v19 c8_i32_12
  let v21 : BitVec 32 := Scalar.addi v18 v20
  let c1_i32_14 : BitVec 32 := 1#32
  let v22 : BitVec 32 := Scalar.muli v21 c1_i32_14
  let v23 : BitVec 32 := Scalar.addi c0_i32_15 v22
  v23.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_16 : BitVec 32 := 8#32
  let v24 : BitVec 32 := Scalar.muli v3 c8_i32_16
  let c8_i32_0 : BitVec 32 := 8#32
  let v4 : BitVec 32 := Scalar.remsi v2 c8_i32_0
  let c4_i32 : BitVec 32 := 4#32
  let v25 : BitVec 32 := Scalar.addi v4 c4_i32
  let c8_i32_17 : BitVec 32 := 8#32
  let v26 : BitVec 32 := Scalar.remsi v25 c8_i32_17
  let v27 : BitVec 32 := Scalar.addi v24 v26
  let c1_i32_19 : BitVec 32 := 1#32
  let v28 : BitVec 32 := Scalar.muli v27 c1_i32_19
  let v29 : BitVec 32 := Scalar.addi c0_i32_20 v28
  v29.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_21 : BitVec 32 := 8#32
  let v30 : BitVec 32 := Scalar.muli v3 c8_i32_21
  let c8_i32_0 : BitVec 32 := 8#32
  let v4 : BitVec 32 := Scalar.remsi v2 c8_i32_0
  let c5_i32 : BitVec 32 := 5#32
  let v31 : BitVec 32 := Scalar.addi v4 c5_i32
  let c8_i32_22 : BitVec 32 := 8#32
  let v32 : BitVec 32 := Scalar.remsi v31 c8_i32_22
  let v33 : BitVec 32 := Scalar.addi v30 v32
  let c1_i32_24 : BitVec 32 := 1#32
  let v34 : BitVec 32 := Scalar.muli v33 c1_i32_24
  let v35 : BitVec 32 := Scalar.addi c0_i32_25 v34
  v35.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_26 : BitVec 32 := 8#32
  let v36 : BitVec 32 := Scalar.muli v3 c8_i32_26
  let c8_i32_0 : BitVec 32 := 8#32
  let v4 : BitVec 32 := Scalar.remsi v2 c8_i32_0
  let c6_i32 : BitVec 32 := 6#32
  let v37 : BitVec 32 := Scalar.addi v4 c6_i32
  let c8_i32_27 : BitVec 32 := 8#32
  let v38 : BitVec 32 := Scalar.remsi v37 c8_i32_27
  let v39 : BitVec 32 := Scalar.addi v36 v38
  let c1_i32_29 : BitVec 32 := 1#32
  let v40 : BitVec 32 := Scalar.muli v39 c1_i32_29
  let v41 : BitVec 32 := Scalar.addi c0_i32_30 v40
  v41.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_31 : BitVec 32 := 8#32
  let v42 : BitVec 32 := Scalar.muli v3 c8_i32_31
  let c8_i32_0 : BitVec 32 := 8#32
  let v4 : BitVec 32 := Scalar.remsi v2 c8_i32_0
  let c7_i32 : BitVec 32 := 7#32
  let v43 : BitVec 32 := Scalar.addi v4 c7_i32
  let c8_i32_32 : BitVec 32 := 8#32
  let v44 : BitVec 32 := Scalar.remsi v43 c8_i32_32
  let v45 : BitVec 32 := Scalar.addi v42 v44
  let c1_i32_34 : BitVec 32 := 1#32
  let v46 : BitVec 32 := Scalar.muli v45 c1_i32_34
  let v47 : BitVec 32 := Scalar.addi c0_i32_35 v46
  v47.toNat
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_36 : BitVec 32 := 1#32
  let v48 : BitVec 32 := Scalar.addi v3 c1_i32_36
  let c4_i32_37 : BitVec 32 := 4#32
  let v49 : BitVec 32 := Scalar.remsi v48 c4_i32_37
  let c8_i32_38 : BitVec 32 := 8#32
  let v50 : BitVec 32 := Scalar.muli v49 c8_i32_38
  let c8_i32_0 : BitVec 32 := 8#32
  let v4 : BitVec 32 := Scalar.remsi v2 c8_i32_0
  let v51 : BitVec 32 := Scalar.addi v50 v4
  let c1_i32_40 : BitVec 32 := 1#32
  let v52 : BitVec 32 := Scalar.muli v51 c1_i32_40
  let v53 : BitVec 32 := Scalar.addi c0_i32_41 v52
  v53.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_42 : BitVec 32 := 2#32
  let v54 : BitVec 32 := Scalar.addi v3 c2_i32_42
  let c4_i32_43 : BitVec 32 := 4#32
  let v55 : BitVec 32 := Scalar.remsi v54 c4_i32_43
  let c8_i32_44 : BitVec 32 := 8#32
  let v56 : BitVec 32 := Scalar.muli v55 c8_i32_44
  let c8_i32_0 : BitVec 32 := 8#32
  let v4 : BitVec 32 := Scalar.remsi v2 c8_i32_0
  let v57 : BitVec 32 := Scalar.addi v56 v4
  let c1_i32_46 : BitVec 32 := 1#32
  let v58 : BitVec 32 := Scalar.muli v57 c1_i32_46
  let v59 : BitVec 32 := Scalar.addi c0_i32_47 v58
  v59.toNat
def k0_dev10 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_48 : BitVec 32 := 3#32
  let v60 : BitVec 32 := Scalar.addi v3 c3_i32_48
  let c4_i32_49 : BitVec 32 := 4#32
  let v61 : BitVec 32 := Scalar.remsi v60 c4_i32_49
  let c8_i32_50 : BitVec 32 := 8#32
  let v62 : BitVec 32 := Scalar.muli v61 c8_i32_50
  let c8_i32_0 : BitVec 32 := 8#32
  let v4 : BitVec 32 := Scalar.remsi v2 c8_i32_0
  let v63 : BitVec 32 := Scalar.addi v62 v4
  let c1_i32_52 : BitVec 32 := 1#32
  let v64 : BitVec 32 := Scalar.muli v63 c1_i32_52
  let v65 : BitVec 32 := Scalar.addi c0_i32_53 v64
  v65.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let v78 : Index := Scalar.indexCast v4
  let c0_56 : Index := 0#32
  let c0_57 : Index := 0#32
  ![v78.toNat, 0, 0]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  ![v4.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32_66 : BitVec 32 := 0#32
  let c0_i32_67 : BitVec 32 := 0#32
  ![v4.toNat, 0, 0]
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_62 : BitVec 32 := 8#32
  let v85 : BitVec 32 := Scalar.muli v3 c8_i32_62
  let c8_i32_0 : BitVec 32 := 8#32
  let v4 : BitVec 32 := Scalar.remsi v2 c8_i32_0
  let c1_i32_60 : BitVec 32 := 1#32
  let v83 : BitVec 32 := Scalar.addi v4 c1_i32_60
  let c8_i32_61 : BitVec 32 := 8#32
  let v84 : BitVec 32 := Scalar.remsi v83 c8_i32_61
  let v86 : BitVec 32 := Scalar.addi v85 v84
  let c1_i32_64 : BitVec 32 := 1#32
  let v87 : BitVec 32 := Scalar.muli v86 c1_i32_64
  let v88 : BitVec 32 := Scalar.addi c0_i32_65 v87
  v88.toNat
def k0_dev12 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_72 : BitVec 32 := 8#32
  let v99 : BitVec 32 := Scalar.muli v3 c8_i32_72
  let c8_i32_0 : BitVec 32 := 8#32
  let v4 : BitVec 32 := Scalar.remsi v2 c8_i32_0
  let c2_i32_70 : BitVec 32 := 2#32
  let v97 : BitVec 32 := Scalar.addi v4 c2_i32_70
  let c8_i32_71 : BitVec 32 := 8#32
  let v98 : BitVec 32 := Scalar.remsi v97 c8_i32_71
  let v100 : BitVec 32 := Scalar.addi v99 v98
  let c1_i32_74 : BitVec 32 := 1#32
  let v101 : BitVec 32 := Scalar.muli v100 c1_i32_74
  let v102 : BitVec 32 := Scalar.addi c0_i32_75 v101
  v102.toNat
def k0_dev13 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_82 : BitVec 32 := 8#32
  let v113 : BitVec 32 := Scalar.muli v3 c8_i32_82
  let c8_i32_0 : BitVec 32 := 8#32
  let v4 : BitVec 32 := Scalar.remsi v2 c8_i32_0
  let c3_i32_80 : BitVec 32 := 3#32
  let v111 : BitVec 32 := Scalar.addi v4 c3_i32_80
  let c8_i32_81 : BitVec 32 := 8#32
  let v112 : BitVec 32 := Scalar.remsi v111 c8_i32_81
  let v114 : BitVec 32 := Scalar.addi v113 v112
  let c1_i32_84 : BitVec 32 := 1#32
  let v115 : BitVec 32 := Scalar.muli v114 c1_i32_84
  let v116 : BitVec 32 := Scalar.addi c0_i32_85 v115
  v116.toNat
def k0_dev14 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_92 : BitVec 32 := 8#32
  let v127 : BitVec 32 := Scalar.muli v3 c8_i32_92
  let c8_i32_0 : BitVec 32 := 8#32
  let v4 : BitVec 32 := Scalar.remsi v2 c8_i32_0
  let c4_i32_90 : BitVec 32 := 4#32
  let v125 : BitVec 32 := Scalar.addi v4 c4_i32_90
  let c8_i32_91 : BitVec 32 := 8#32
  let v126 : BitVec 32 := Scalar.remsi v125 c8_i32_91
  let v128 : BitVec 32 := Scalar.addi v127 v126
  let c1_i32_94 : BitVec 32 := 1#32
  let v129 : BitVec 32 := Scalar.muli v128 c1_i32_94
  let v130 : BitVec 32 := Scalar.addi c0_i32_95 v129
  v130.toNat
def k0_dev15 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_102 : BitVec 32 := 8#32
  let v141 : BitVec 32 := Scalar.muli v3 c8_i32_102
  let c8_i32_0 : BitVec 32 := 8#32
  let v4 : BitVec 32 := Scalar.remsi v2 c8_i32_0
  let c5_i32_100 : BitVec 32 := 5#32
  let v139 : BitVec 32 := Scalar.addi v4 c5_i32_100
  let c8_i32_101 : BitVec 32 := 8#32
  let v140 : BitVec 32 := Scalar.remsi v139 c8_i32_101
  let v142 : BitVec 32 := Scalar.addi v141 v140
  let c1_i32_104 : BitVec 32 := 1#32
  let v143 : BitVec 32 := Scalar.muli v142 c1_i32_104
  let v144 : BitVec 32 := Scalar.addi c0_i32_105 v143
  v144.toNat
def k0_dev16 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_112 : BitVec 32 := 8#32
  let v155 : BitVec 32 := Scalar.muli v3 c8_i32_112
  let c8_i32_0 : BitVec 32 := 8#32
  let v4 : BitVec 32 := Scalar.remsi v2 c8_i32_0
  let c6_i32_110 : BitVec 32 := 6#32
  let v153 : BitVec 32 := Scalar.addi v4 c6_i32_110
  let c8_i32_111 : BitVec 32 := 8#32
  let v154 : BitVec 32 := Scalar.remsi v153 c8_i32_111
  let v156 : BitVec 32 := Scalar.addi v155 v154
  let c1_i32_114 : BitVec 32 := 1#32
  let v157 : BitVec 32 := Scalar.muli v156 c1_i32_114
  let v158 : BitVec 32 := Scalar.addi c0_i32_115 v157
  v158.toNat
def k0_dev17 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_122 : BitVec 32 := 8#32
  let v169 : BitVec 32 := Scalar.muli v3 c8_i32_122
  let c8_i32_0 : BitVec 32 := 8#32
  let v4 : BitVec 32 := Scalar.remsi v2 c8_i32_0
  let c7_i32_120 : BitVec 32 := 7#32
  let v167 : BitVec 32 := Scalar.addi v4 c7_i32_120
  let c8_i32_121 : BitVec 32 := 8#32
  let v168 : BitVec 32 := Scalar.remsi v167 c8_i32_121
  let v170 : BitVec 32 := Scalar.addi v169 v168
  let c1_i32_124 : BitVec 32 := 1#32
  let v171 : BitVec 32 := Scalar.muli v170 c1_i32_124
  let v172 : BitVec 32 := Scalar.addi c0_i32_125 v171
  v172.toNat
def k0_off4 (d0 : Dev nD) (c1_i32_131 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c8_i32_130 : BitVec 32 := 8#32
  let v181 : BitVec 32 := Scalar.addi v4 c8_i32_130
  let v182 : BitVec 32 := Scalar.subi v181 c1_i32_131
  let c8_i32_132 : BitVec 32 := 8#32
  let v183 : BitVec 32 := Scalar.remsi v182 c8_i32_132
  ![v183.toNat]
def k0_off5 (d0 : Dev nD) (c1_i32_131 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c8_i32_130 : BitVec 32 := 8#32
  let v181 : BitVec 32 := Scalar.addi v4 c8_i32_130
  let v182 : BitVec 32 := Scalar.subi v181 c1_i32_131
  let c8_i32_132 : BitVec 32 := 8#32
  let v183 : BitVec 32 := Scalar.remsi v182 c8_i32_132
  let c0_i32_136 : BitVec 32 := 0#32
  let c0_i32_137 : BitVec 32 := 0#32
  ![v183.toNat, 0, 0]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v276 : Index := Scalar.indexCast v3
  let c0_205 : Index := 0#32
  let c0_206 : Index := 0#32
  ![v276.toNat, 0, 0]
def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  ![v3.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_213 : BitVec 32 := 0#32
  let c0_i32_214 : BitVec 32 := 0#32
  ![v3.toNat, 0, 0]
def k0_dev18 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_207 : BitVec 32 := 1#32
  let v280 : BitVec 32 := Scalar.addi v3 c1_i32_207
  let c4_i32_208 : BitVec 32 := 4#32
  let v281 : BitVec 32 := Scalar.remsi v280 c4_i32_208
  let c8_i32_209 : BitVec 32 := 8#32
  let v282 : BitVec 32 := Scalar.muli v281 c8_i32_209
  let c8_i32_0 : BitVec 32 := 8#32
  let v4 : BitVec 32 := Scalar.remsi v2 c8_i32_0
  let v283 : BitVec 32 := Scalar.addi v282 v4
  let c1_i32_211 : BitVec 32 := 1#32
  let v284 : BitVec 32 := Scalar.muli v283 c1_i32_211
  let v285 : BitVec 32 := Scalar.addi c0_i32_212 v284
  v285.toNat
def k0_dev19 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_217 : BitVec 32 := 2#32
  let v294 : BitVec 32 := Scalar.addi v3 c2_i32_217
  let c4_i32_218 : BitVec 32 := 4#32
  let v295 : BitVec 32 := Scalar.remsi v294 c4_i32_218
  let c8_i32_219 : BitVec 32 := 8#32
  let v296 : BitVec 32 := Scalar.muli v295 c8_i32_219
  let c8_i32_0 : BitVec 32 := 8#32
  let v4 : BitVec 32 := Scalar.remsi v2 c8_i32_0
  let v297 : BitVec 32 := Scalar.addi v296 v4
  let c1_i32_221 : BitVec 32 := 1#32
  let v298 : BitVec 32 := Scalar.muli v297 c1_i32_221
  let v299 : BitVec 32 := Scalar.addi c0_i32_222 v298
  v299.toNat
def k0_dev20 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_227 : BitVec 32 := 3#32
  let v308 : BitVec 32 := Scalar.addi v3 c3_i32_227
  let c4_i32_228 : BitVec 32 := 4#32
  let v309 : BitVec 32 := Scalar.remsi v308 c4_i32_228
  let c8_i32_229 : BitVec 32 := 8#32
  let v310 : BitVec 32 := Scalar.muli v309 c8_i32_229
  let c8_i32_0 : BitVec 32 := 8#32
  let v4 : BitVec 32 := Scalar.remsi v2 c8_i32_0
  let v311 : BitVec 32 := Scalar.addi v310 v4
  let c1_i32_231 : BitVec 32 := 1#32
  let v312 : BitVec 32 := Scalar.muli v311 c1_i32_231
  let v313 : BitVec 32 := Scalar.addi c0_i32_232 v312
  v313.toNat
def k0_off9 (d0 : Dev nD) (c1_i32_238 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_237 : BitVec 32 := 4#32
  let v322 : BitVec 32 := Scalar.addi v3 c4_i32_237
  let v323 : BitVec 32 := Scalar.subi v322 c1_i32_238
  let c4_i32_239 : BitVec 32 := 4#32
  let v324 : BitVec 32 := Scalar.remsi v323 c4_i32_239
  ![v324.toNat]
def k0_off10 (d0 : Dev nD) (c1_i32_238 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_237 : BitVec 32 := 4#32
  let v322 : BitVec 32 := Scalar.addi v3 c4_i32_237
  let v323 : BitVec 32 := Scalar.subi v322 c1_i32_238
  let c4_i32_239 : BitVec 32 := 4#32
  let v324 : BitVec 32 := Scalar.remsi v323 c4_i32_239
  let c0_i32_243 : BitVec 32 := 0#32
  let c0_i32_244 : BitVec 32 := 0#32
  ![v324.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  shapeCasts_S512_S512x1 : S512.ShapeCasts S512x1
  broadcasts_S512x1_S512x256 : S512x1.Broadcasts S512x256
  shapeCasts_S512_S1x512 : S512.ShapeCasts S1x512
  concatenates_S1x512_S1x512_S2x512_d0 : Shape.Concatenates [S1x512, S1x512] S2x512 0
  shapeCasts_S2x512_S1x2x512 : S2x512.ShapeCasts S1x2x512
  h_S1x2x512 : 0 < S1x2x512.numel
  shapeCasts_S1x2x512_S1x2x512 : S1x2x512.ShapeCasts S1x2x512
  hamt_10 : (10#32 : BitVec 32).msb = false
  inb_S8_S1_1 : ∀ a, (![1] : Fin 1 → Nat) a + S1.size a ≤ S8.size a
  squeezes_S1_S_ : S1.Squeezes S_
  squeezes_S1x2x512_S2x512 : S1x2x512.Squeezes S2x512
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S8x2x512_S8x2x512_0_0_0 : ∀ a, (![0, 0, 0] : Fin 3 → Nat) a + S8x2x512.size a ≤ S8x2x512.size a
  h_S8x2x512 : 0 < S8x2x512.numel
  slices_S8x2x512_o0_0_0_S8x1x512 : S8x2x512.Slices ![0, 0, 0] S8x1x512
  shapeCasts_S8x1x512_S8x512 : S8x1x512.ShapeCasts S8x512
  reduces_S8x512_S512 : S8x512.Reduces [0] S512
  slices_S8x2x512_o0_1_0_S8x1x512 : S8x2x512.Slices ![0, 1, 0] S8x1x512
  broadcasts_S1x512_S8x512 : S1x512.Broadcasts S8x512
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  inb_S4x2x512_S4x2x512_0_0_0 : ∀ a, (![0, 0, 0] : Fin 3 → Nat) a + S4x2x512.size a ≤ S4x2x512.size a
  h_S4x2x512 : 0 < S4x2x512.numel
  slices_S4x2x512_o0_0_0_S4x1x512 : S4x2x512.Slices ![0, 0, 0] S4x1x512
  shapeCasts_S4x1x512_S4x512 : S4x1x512.ShapeCasts S4x512
  reduces_S4x512_S512 : S4x512.Reduces [0] S512
  slices_S4x2x512_o0_1_0_S4x1x512 : S4x2x512.Slices ![0, 1, 0] S4x1x512
  broadcasts_S1x512_S4x512 : S1x512.Broadcasts S4x512
  hcc0_scratch2 : 2 + S8.numel ≤ 26
  hcc0_scratch3 : 10 + S8.numel ≤ 26
  hcc0_scratch4 : 18 + S4.numel ≤ 26
  hcc0_scratch5 : 22 + S4.numel ≤ 26
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off1_inb : ∀ d0 : Dev nD, ∀ a, (k0_off1 d0) a + S1x2x512.size a ≤ S8x2x512.size a
  k0_off2_inb : ∀ d0 : Dev nD, ∀ a, (k0_off2 d0) a + S1.size a ≤ S8.size a
  k0_off3_inb : ∀ d0 : Dev nD, ∀ a, (k0_off3 d0) a + S1x2x512.size a ≤ S8x2x512.size a
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_off4_inb : ∀ d0 : Dev nD, ∀ (r : Fin 7), ∀ a, (k0_off4 d0 (BitVec.ofNat 32 (1 + r.val))) a + S1.size a ≤ S8.size a
  k0_off5_inb : ∀ d0 : Dev nD, ∀ (r : Fin 7), ∀ a, (k0_off5 d0 (BitVec.ofNat 32 (1 + r.val))) a + S1x2x512.size a ≤ S8x2x512.size a
  k0_off6_inb : ∀ d0 : Dev nD, ∀ a, (k0_off6 d0) a + S1x2x512.size a ≤ S4x2x512.size a
  k0_off7_inb : ∀ d0 : Dev nD, ∀ a, (k0_off7 d0) a + S1.size a ≤ S4.size a
  k0_off8_inb : ∀ d0 : Dev nD, ∀ a, (k0_off8 d0) a + S1x2x512.size a ≤ S4x2x512.size a
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_off9_inb : ∀ d0 : Dev nD, ∀ (r : Fin 3), ∀ a, (k0_off9 d0 (BitVec.ofNat 32 (1 + r.val))) a + S1.size a ≤ S4.size a
  k0_off10_inb : ∀ d0 : Dev nD, ∀ (r : Fin 3), ∀ a, (k0_off10 d0 (BitVec.ofNat 32 (1 + r.val))) a + S1x2x512.size a ≤ S4x2x512.size a
  hstage0_0 : ∀ j, (stage0_0 j).IsWhole
  hstage0_1 : ∀ j, (stage0_1 j).IsWhole

variable [Facts₀]

abbrev cc0_scratch2 : DmaSems sig S8 := SemArray.consecutive 2 S8 hcc0_scratch2
abbrev cc0_scratch3 : DmaSems sig S8 := SemArray.consecutive 10 S8 hcc0_scratch3
abbrev cc0_scratch4 : DmaSems sig S4 := SemArray.consecutive 18 S4 hcc0_scratch4
abbrev cc0_scratch5 : DmaSems sig S4 := SemArray.consecutive 22 S4 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x8192 : Shape := ⟨2, ![512, 8192]⟩
abbrev S_ : Shape := ⟨0, ![]⟩
abbrev S512 : Shape := ⟨1, ![512]⟩
abbrev S512x1 : Shape := ⟨2, ![512, 1]⟩

abbrev nBuf : Space → Nat
  | .hbm => 12
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S_, .f32⟩
  | .hbm, ⟨2, _⟩ => ⟨S512, .f32⟩
  | .hbm, ⟨3, _⟩ => ⟨S512x1, .f32⟩
  | .hbm, ⟨4, _⟩ => ⟨S512x8192, .f32⟩
  | .hbm, ⟨5, _⟩ => ⟨S512x8192, .f32⟩
  | .hbm, ⟨6, _⟩ => ⟨S512x8192, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x8192, .f32⟩
  | .hbm, ⟨11, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S512x8192_S512_d1 : S512x8192.ReducesTo [1] S512
  h_S_ : 0 < S_.numel
  bcast_S512_S512x1_0 : S512.BroadcastsInDim S512x1 (![0] : Fin 1 → Fin S512x1.rank)
  bcast_S512x1_S512x8192_0_1 : S512x1.BroadcastsInDim S512x8192 (![0, 1] : Fin 2 → Fin S512x8192.rank)

variable [Facts₀]

class Facts : Prop extends Facts₀ where

variable [Facts]
-- ==== Proof.LaunchAux.lean ====
/- Reindexing of iterated separating conjunctions, and the launch credit when payments go along a bijection of the devices. -/
import Idealize.ShloMosaic.Lib.Pipeline.Launch
import Idealize.ShloMosaic.Lib.Pipeline.Kit
import Idealize.ShloMosaic.Lib.Tactic
import Idealize.ShloMosaic.Lib.Pipeline.Value
import Mathlib.Algebra.Group.Fin.Basic

noncomputable section

namespace Cert

open Idealize.ShloMosaic
open Idealize.SL Idealize.SL.RA Idealize.SL.BI
open Idealize.SL.BI.BIBase Idealize.SL.BI.Laws

section General

variable {M : Type} [URA M]

theorem bigSep_swap {α β : Type} [Fintype α] [Fintype β] (Φ : α → β → sProp M) :
    bigSep Finset.univ (fun a => bigSep Finset.univ fun b => Φ a b) = bigSep Finset.univ (fun b => bigSep Finset.univ fun a => Φ a b) :=
  ((bigSep_univ_prod (fun p : α × β => Φ p.1 p.2)).symm.trans (bigSep_univ_equiv (Equiv.prodComm β α) (fun p : α × β => Φ p.1 p.2))).trans
    (bigSep_univ_prod (fun p : β × α => Φ p.2 p.1))

theorem bigSep_with_persistent {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

def negE (H : Type) [AddCommGroup H] : H ≃ H := ⟨fun b => -b, fun b => -b, neg_neg, neg_neg⟩
def addE {H : Type} [AddCommGroup H] (a : H) : H ≃ H := ⟨fun b => a + b, fun b => -a + b, neg_add_cancel_left a, add_neg_cancel_left a⟩

theorem deal_recv {D H : Type} [Fintype D] [DecidableEq D] [Fintype H] [DecidableEq H] [AddCommGroup H] (E : H → D ≃ D) (pos : D → H)
    (hpos : ∀ j c, pos (E j c) = pos c + j) (Φ : D → H → sProp M) :
    (bigSep Finset.univ fun c' : D => bigSep Finset.univ fun j' : H => Φ c' (pos c' + j'))
      ⊢ bigSep Finset.univ fun c : D => bigSep Finset.univ fun j : H => Φ (E j c) (pos c) := by
  have s1 : (bigSep Finset.univ fun c' : D => bigSep Finset.univ fun j' : H => Φ c' (pos c' + j'))
      = bigSep Finset.univ fun c' : D => bigSep Finset.univ fun j : H => Φ c' (pos c' + -j) :=
    bigSep_congr fun c' _ => bigSep_univ_equiv (negE H) (fun j' : H => Φ c' (pos c' + j'))
  have s3 : (bigSep Finset.univ fun j : H => bigSep Finset.univ fun c' : D => Φ c' (pos c' + -j))
      = bigSep Finset.univ fun j : H => bigSep Finset.univ fun c : D => Φ (E j c) (pos c) :=
    bigSep_congr fun j _ => (bigSep_univ_equiv (E j) (fun c' : D => Φ c' (pos c' + -j))).trans
      (bigSep_congr fun c _ => by show Φ (E j c) (pos (E j c) + -j) = Φ (E j c) (pos c); rw [hpos, add_neg_cancel_right])
  exact Entails.of_eq ((s1.trans (bigSep_swap (fun (c' : D) (j : H) => Φ c' (pos c' + -j)))).trans
    (s3.trans (bigSep_swap (fun (j : H) (c : D) => Φ (E j c) (pos c)))))
theorem pair_up {D H : Type} [Fintype D] [DecidableEq D] [Fintype H] [DecidableEq H] (z : H) (A B : D → H → sProp M) :
    iprop((bigSep Finset.univ fun c : D => bigSep Finset.univ fun j : H => A c j) ∗ (bigSep Finset.univ fun c : D => bigSep Finset.univ fun j : H => B c j))
      ⊢ bigSep Finset.univ fun c : D => bigSep (Finset.univ.erase z) fun j : H => iprop(A c j ∗ B c j) := by
  rw [← bigSep_sep']
  refine bigSep_mono fun c _ => ?_
  show iprop((bigSep Finset.univ fun j : H => A c j) ∗ (bigSep Finset.univ fun j : H => B c j)) ⊢ bigSep (Finset.univ.erase z) fun j : H => iprop(A c j ∗ B c j)
  rw [← bigSep_sep']
  exact bigSep_subset (Finset.erase_subset _ _)

end General

/-- The 32 devices as 4 groups of 8: a device's group and position, and its peers round its group and across the groups. -/
def dv (z : Fin 4) (r : Fin 8) : Dev 32 := ⟨8 * z.val + r.val, by have := z.isLt; have := r.isLt; show 8 * z.val + r.val < 32; omega⟩
def zOf (c : Dev 32) : Fin 4 := ⟨c.val / 8, by have h : c.val < 32 := c.isLt; omega⟩
def rOf (c : Dev 32) : Fin 8 := ⟨c.val % 8, by omega⟩

theorem dv_zOf_rOf (c : Dev 32) : dv (zOf c) (rOf c) = c := by
  apply Fin.ext; show 8 * (c.val / 8) + c.val % 8 = c.val; omega
theorem zOf_dv (z : Fin 4) (r : Fin 8) : zOf (dv z r) = z := by
  apply Fin.ext; show (8 * z.val + r.val) / 8 = z.val; have := r.isLt; omega
theorem rOf_dv (z : Fin 4) (r : Fin 8) : rOf (dv z r) = r := by
  apply Fin.ext; show (8 * z.val + r.val) % 8 = r.val; have := r.isLt; omega

def rowPeer (i : Fin 8) (c : Dev 32) : Dev 32 := dv (zOf c) (rOf c + i)
def colPeer (i : Fin 4) (c : Dev 32) : Dev 32 := dv (zOf c + i) (rOf c)

theorem zOf_rowPeer (i : Fin 8) (c : Dev 32) : zOf (rowPeer i c) = zOf c := zOf_dv _ _
theorem rOf_rowPeer (i : Fin 8) (c : Dev 32) : rOf (rowPeer i c) = rOf c + i := rOf_dv _ _
theorem zOf_colPeer (i : Fin 4) (c : Dev 32) : zOf (colPeer i c) = zOf c + i := zOf_dv _ _
theorem rOf_colPeer (i : Fin 4) (c : Dev 32) : rOf (colPeer i c) = rOf c := rOf_dv _ _

theorem rowPeer_neg (i : Fin 8) (c : Dev 32) : rowPeer (-i) (rowPeer i c) = c := by
  unfold rowPeer; rw [zOf_dv, rOf_dv, add_neg_cancel_right]; exact dv_zOf_rOf c
theorem colPeer_neg (i : Fin 4) (c : Dev 32) : colPeer (-i) (colPeer i c) = c := by
  unfold colPeer; rw [zOf_dv, rOf_dv, add_neg_cancel_right]; exact dv_zOf_rOf c

def rowE (i : Fin 8) : Dev 32 ≃ Dev 32 where
  toFun := rowPeer i
  invFun := rowPeer (-i)
  left_inv := rowPeer_neg i
  right_inv c := by have h := rowPeer_neg (-i) c; rwa [neg_neg] at h
def colE (i : Fin 4) : Dev 32 ≃ Dev 32 where
  toFun := colPeer i
  invFun := colPeer (-i)
  left_inv := colPeer_neg i
  right_inv c := by have h := colPeer_neg (-i) c; rwa [neg_neg] at h

theorem rOf_rowPeer_ne {i : Fin 8} (hi : i ≠ 0) (c : Dev 32) : rOf (rowPeer i c) ≠ rOf c := by
  rw [rOf_rowPeer]; intro h; exact hi (by simpa using h)
theorem zOf_colPeer_ne {i : Fin 4} (hi : i ≠ 0) (c : Dev 32) : zOf (colPeer i c) ≠ zOf c := by
  rw [zOf_colPeer]; intro h; exact hi (by simpa using h)

/-- A printed device chain, given its closed form, is the peer with that number. -/
theorem dev_eq {n : ℕ} {h : n < 32} {p : Dev 32} (e : n = p.val) : (⟨n, h⟩ : Dev 32) = p := Fin.ext e

section Lists

variable {M : Type} [URA M]

theorem bigSep_fin10 (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem bigSep_fin8 (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4 (Φ : Fin 4 → sProp M) : bigSep Finset.univ Φ = iprop(Φ 0 ∗ Φ 1 ∗ Φ 2 ∗ Φ 3) :=
  bigSep_univ_eq_bigSepL [0, 1, 2, 3] (by decide) (by decide) Φ
theorem bigSep_erase8 (Φ : Fin 8 → sProp M) : bigSep (Finset.univ.erase (0 : Fin 8)) Φ = iprop(Φ 1 ∗ Φ 2 ∗ Φ 3 ∗ Φ 4 ∗ Φ 5 ∗ Φ 6 ∗ Φ 7) := by
  rw [bigSep_eq_bigSepL_of_eq [1, 2, 3, 4, 5, 6, 7] (by decide) (by decide)]; rfl
theorem bigSep_erase4 (Φ : Fin 4 → sProp M) : bigSep (Finset.univ.erase (0 : Fin 4)) Φ = iprop(Φ 1 ∗ Φ 2 ∗ Φ 3) := by
  rw [bigSep_eq_bigSepL_of_eq [1, 2, 3] (by decide) (by decide)]; rfl
/-- Eight things listed round from any one of them; four likewise. -/
theorem bigSep_fin8_from (a : Fin 8) (Φ : Fin 8 → sProp M) :
    bigSep Finset.univ Φ = iprop(Φ a ∗ Φ (a + 1) ∗ Φ (a + 2) ∗ Φ (a + 3) ∗ Φ (a + 4) ∗ Φ (a + 5) ∗ Φ (a + 6) ∗ Φ (a + 7)) := by
  rw [bigSep_univ_equiv (Equiv.addLeft a) Φ]
  refine Eq.trans (bigSep_fin8 fun x => Φ (a + x)) ?_
  show iprop(Φ (a + 0) ∗ Φ (a + 1) ∗ Φ (a + 2) ∗ Φ (a + 3) ∗ Φ (a + 4) ∗ Φ (a + 5) ∗ Φ (a + 6) ∗ Φ (a + 7)) = _
  rw [add_zero]
theorem bigSep_fin4_from (a : Fin 4) (Φ : Fin 4 → sProp M) :
    bigSep Finset.univ Φ = iprop(Φ a ∗ Φ (a + 1) ∗ Φ (a + 2) ∗ Φ (a + 3)) := by
  rw [bigSep_univ_equiv (Equiv.addLeft a) Φ]
  refine Eq.trans (bigSep_fin4 fun x => Φ (a + x)) ?_
  show iprop(Φ (a + 0) ∗ Φ (a + 1) ∗ Φ (a + 2) ∗ Φ (a + 3)) = _
  rw [add_zero]

/-- A device's 25 cells: the barrier's, then 8 + 8 + 4 + 4 by kind. -/
def iS1 (j : Fin 8) : Fin 25 := ⟨j.val + 1, by have := j.isLt; omega⟩
def iR1 (k : Fin 8) : Fin 25 := ⟨k.val + 9, by have := k.isLt; omega⟩
def iS2 (j : Fin 4) : Fin 25 := ⟨j.val + 17, by have := j.isLt; omega⟩
def iR2 (k : Fin 4) : Fin 25 := ⟨k.val + 21, by have := k.isLt; omega⟩
def eS1 : Fin 8 ↪ Fin 25 := ⟨iS1, by decide⟩
def eR1 : Fin 8 ↪ Fin 25 := ⟨iR1, by decide⟩
def eS2 : Fin 4 ↪ Fin 25 := ⟨iS2, by decide⟩
def eR2 : Fin 4 ↪ Fin 25 := ⟨iR2, by decide⟩

set_option maxRecDepth 4000 in
theorem rest25 : (Finset.univ.erase (0 : Fin 25)) = Finset.univ.map eS1 ∪ (Finset.univ.map eR1 ∪ (Finset.univ.map eS2 ∪ Finset.univ.map eR2)) := by decide

theorem bigSep_rest25 (Φ : Fin 25 → sProp M) : bigSep (Finset.univ.erase (0 : Fin 25)) Φ
    = iprop((bigSep Finset.univ fun j : Fin 8 => Φ (iS1 j)) ∗ (bigSep Finset.univ fun k : Fin 8 => Φ (iR1 k))
        ∗ (bigSep Finset.univ fun j : Fin 4 => Φ (iS2 j)) ∗ (bigSep Finset.univ fun k : Fin 4 => Φ (iR2 k))) := by
  rw [rest25, bigSep_union (by decide), bigSep_union (by decide), bigSep_union (by decide), bigSep_map, bigSep_map, bigSep_map, bigSep_map]
  rfl

end Lists

/-- Row-block `k` of an `n × 2 × 512` array lies inside it, and holds exactly the indices whose first coordinate is `k`. -/
theorem inb_row {n : ℕ} (k : Fin n) : ∀ a, (![k.val, 0, 0] : Fin 3 → Nat) a + (⟨3, ![1, 2, 512]⟩ : Shape).size a ≤ (⟨3, ![n, 2, 512]⟩ : Shape).size a := by
  intro a; have := k.isLt; fin_cases a <;> simp <;> omega
theorem mem_rowBlock {n : ℕ} {k : Fin n} {i : (⟨3, ![n, 2, 512]⟩ : Shape).Idx} :
    i ∈ (Rect.unit (s := ⟨3, ![n, 2, 512]⟩) ![k.val, 0, 0] (⟨3, ![1, 2, 512]⟩ : Shape).size (inb_row k)).set ↔ i 0 = k := by
  rw [Rect.mem_set_unit]
  constructor
  · intro h; have h0 := h 0; apply Fin.ext
    have e0 : (![k.val, 0, 0] : Fin 3 → Nat) 0 = k.val := rfl
    have s0 : (⟨3, ![1, 2, 512]⟩ : Shape).size 0 = 1 := rfl
    rw [e0, s0] at h0; omega
  · intro h a; subst h
    fin_cases a
    · exact ⟨le_refl _, Nat.lt_succ_self _⟩
    · exact ⟨Nat.zero_le _, by have := (i 1).isLt; simpa using this⟩
    · exact ⟨Nat.zero_le _, by have := (i 2).isLt; simpa using this⟩

/-- A slot's shares: one half kept for the local read, the other carved up among the copies that read it (7 or 3 of them). -/
def keepQ : PosShare TreeShare := fullShare.right
def tailQ (n : ℕ) : PosShare TreeShare := PosShare.right^[n] fullShare.left
theorem tailQ_succ (n : ℕ) : tailQ (n + 1) = (tailQ n).right := Function.iterate_succ_apply' _ _ _
def sendQ1 (j : Fin 8) : PosShare TreeShare := if j.val = 7 then tailQ 6 else (tailQ (j.val - 1)).left
def sendQ2 (j : Fin 4) : PosShare TreeShare := if j.val = 3 then tailQ 2 else (tailQ (j.val - 1)).left

section Credit

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

theorem launchCred_at (sm : Dev nD → SemLoc sig) (f finv : Dev nD → Dev nD) (h1 : ∀ c, f (finv c) = c) (h2 : ∀ d, finv (f d) = d)
    (ι : Ix) (n : ℕ) (c : Dev nD) :
    (Pipeline.launchCred (fun d => tallyAt (((f d).tc : Thread nD τ), sm d) ι n) c : sProp 𝕄)
      ⊢ cred (tallyAt ((c.tc : Thread nD τ), sm (finv c)) ι n) := by
  refine (Pipeline.launchCred_elim _ c (sm (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d).tc : Thread nD τ), sm d) (Finsupp.single ι n) ((c.tc : Thread nD τ), sm (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

variable {ℓ : Loc nD τ sig}

/-- Elements held at a share are those held at its two halves; so the left half is the seven (three) shares of the copies. -/
theorem pointsTo_halfSplit (I : Finset (Idx ℓ)) (q : PosShare TreeShare) (f : Buf Val ℓ) :
    (ℓ ↦[I]{q} f : sProp 𝕄) = iprop((ℓ ↦[I]{q.left} f) ∗ ℓ ↦[I]{q.right} f) :=
  have hu : (ℓ ↦[I]{q} f : sProp 𝕄) ⊣⊢ iprop((ℓ ↦[I]{q.left} f) ∗ ℓ ↦[I]{q.right} f) := pointsTo_share (PosShare.mem_left_op_right q)
  Entails.antisymm hu.1 hu.2
theorem pointsTo_tailSplit (I : Finset (Idx ℓ)) (f : Buf Val ℓ) (n : ℕ) :
    (ℓ ↦[I]{tailQ n} f : sProp 𝕄) = iprop((ℓ ↦[I]{(tailQ n).left} f) ∗ ℓ ↦[I]{tailQ (n + 1)} f) := by
  rw [tailQ_succ]; exact pointsTo_halfSplit I (tailQ n) f
theorem pointsTo_sevenths (I : Finset (Idx ℓ)) (f : Buf Val ℓ) :
    (ℓ ↦[I]{fullShare.left} f : sProp 𝕄)
      = iprop((ℓ ↦[I]{sendQ1 1} f) ∗ (ℓ ↦[I]{sendQ1 2} f) ∗ (ℓ ↦[I]{sendQ1 3} f) ∗ (ℓ ↦[I]{sendQ1 4} f)
          ∗ (ℓ ↦[I]{sendQ1 5} f) ∗ (ℓ ↦[I]{sendQ1 6} f) ∗ ℓ ↦[I]{sendQ1 7} f) := by
  have t (n : ℕ) := pointsTo_tailSplit (Ix := Ix) (Name := Name) (U := U) (Lvl := Lvl) I f n
  show (ℓ ↦[I]{tailQ 0} f : sProp 𝕄)
      = iprop((ℓ ↦[I]{(tailQ 0).left} f) ∗ (ℓ ↦[I]{(tailQ 1).left} f) ∗ (ℓ ↦[I]{(tailQ 2).left} f) ∗ (ℓ ↦[I]{(tailQ 3).left} f)
          ∗ (ℓ ↦[I]{(tailQ 4).left} f) ∗ (ℓ ↦[I]{(tailQ 5).left} f) ∗ ℓ ↦[I]{tailQ 6} f)
  rw [t 0, t 1, t 2, t 3, t 4, t 5]
theorem pointsTo_thirds (I : Finset (Idx ℓ)) (f : Buf Val ℓ) :
    (ℓ ↦[I]{fullShare.left} f : sProp 𝕄) = iprop((ℓ ↦[I]{sendQ2 1} f) ∗ (ℓ ↦[I]{sendQ2 2} f) ∗ ℓ ↦[I]{sendQ2 3} f) := by
  have t (n : ℕ) := pointsTo_tailSplit (Ix := Ix) (Name := Name) (U := U) (Lvl := Lvl) I f n
  show (ℓ ↦[I]{tailQ 0} f : sProp 𝕄) = iprop((ℓ ↦[I]{(tailQ 0).left} f) ∗ (ℓ ↦[I]{(tailQ 1).left} f) ∗ ℓ ↦[I]{tailQ 2} f)
  rw [t 0, t 1]
/-- A buffer held whole is its pieces, for pairwise disjoint element sets that cover it. -/
theorem pointsTo_bySlots {n : ℕ} (S : Fin n → Finset (Idx ℓ)) (hcov : ∀ i, ∃ k, i ∈ S k)
    (hdis : ∀ k k', k ≠ k' → Disjoint (S k) (S k')) (q : PosShare TreeShare) (f : Buf Val ℓ) :
    (ℓ ↦{q} f : sProp 𝕄) = bigSep Finset.univ fun k => ℓ ↦[S k]{q} f := by
  rw [← pointsTo_biUnion Finset.univ S (fun k _ k' _ h => hdis k k' h)]
  congr 1
  ext i
  simp only [Finset.mem_univ, Finset.mem_biUnion, true_and, true_iff]
  exact hcov i

section Owed

local notation "𝕌" => MT nD τ sig Unit Val Name U Lvl

/-- A list of (cell, amount) as one tally, the head the last summand, so that paying the head peels it off. -/
def owedOf (l : List (GSem nD τ sig × ℕ)) : CellTallies nD τ sig Unit := l.foldr (fun p acc => acc + tallyAt p.1 () p.2) 0
theorem owedOf_cons (p : GSem nD τ sig × ℕ) (l : List (GSem nD τ sig × ℕ)) : owedOf (p :: l) = owedOf l + tallyAt p.1 () p.2 := rfl

theorem owedOf_pos {l : List (GSem nD τ sig × ℕ)} {g : GSem nD τ sig} {u : Unit} (h : 0 < owedOf l g u) : ∃ p ∈ l, g = p.1 := by
  induction l with
  | nil => exact absurd h (Nat.lt_irrefl 0)
  | cons p l ih =>
    rw [owedOf_cons, Pi.add_apply, Finsupp.add_apply] at h
    by_cases hg : g = p.1
    · exact ⟨p, List.mem_cons_self, hg⟩
    · rw [tallyAt_ne_cell hg, Finsupp.zero_apply, Nat.add_zero] at h
      obtain ⟨q, hq, e⟩ := ih h
      exact ⟨q, List.mem_cons_of_mem _ hq, e⟩
theorem owedOf_nil : owedOf ([] : List (GSem nD τ sig × ℕ)) = 0 := rfl

theorem launchCred_owedOf (l : List (Dev nD → GSem nD τ sig × ℕ)) (c : Dev nD) :
    (Pipeline.launchCred (fun d => owedOf (l.map fun p => p d)) c : sProp 𝕌)
      ⊢ bigSepL l fun p => Pipeline.launchCred (fun d => tallyAt (p d).1 () (p d).2) c := by
  induction l with
  | nil =>
    rw [bigSepL_nil]
    simp only [List.map_nil, owedOf_nil]
    exact Entails.of_eq (Pipeline.launchCred_zero c)
  | cons p l ih =>
    rw [bigSepL_cons]
    simp only [List.map_cons, owedOf_cons]
    rw [Pipeline.launchCred_add (fun d => owedOf (l.map fun q => q d)) (fun d => tallyAt (p d).1 () (p d).2) c]
    show _ ⊢ iprop(Pipeline.launchCred (fun d => tallyAt (p d).1 () (p d).2) c ∗ bigSepL l fun p => Pipeline.launchCred (fun d => tallyAt (p d).1 () (p d).2) c)
    iintro ⟨H1, H2⟩
    isplitl [H2]; · iexact H2
    iapply ih; iexact H1

end Owed

theorem write_read_self {κ : Kind} {sp : Space} {s : Shape} {e : EltTy} (v : View sig κ sp s e) (fd fs : v.ty.Contents Val)
    {i : v.ty.Idx} (hi : i ∈ v.set) : v.write Val fd (v.read Val fs) Finset.univ i = fs i := by
  obtain ⟨y, rfl⟩ := View.exists_emb_of_mem_set v hi
  rw [View.write_emb_of_mem _ _ (Finset.mem_univ y), View.read_apply, cast_cast, cast_eq]

end Credit

end Cert

end
-- ==== Proof.Spec.lean ====
/- Each buffer's contents as a function of the devices' input blocks, the 32 devices read as 4 groups of 8. -/
import proofs.«900604_g7700000000000605_dist_softmax_colshard_i_m512_n256_v7x_i32_f32_1_alg».proof.Proof.Gen.KernelIdeal.Skeleton
import proofs.«900604_g7700000000000605_dist_softmax_colshard_i_m512_n256_v7x_i32_f32_1_alg».proof.Proof.LaunchAux
import Idealize.ShloMosaic.Lib.ValueIdx

noncomputable section

namespace Cert.KernelIdeal.Spec

open Cert.KernelIdeal.Gen
open Idealize.ShloMosaic Idealize.ShloMosaic.ValueIdx

variable {F : FTy → Type} [FloatOps F]

variable (X : Dev nD → Vec F S512x256 .f32)

def st1 (c : Dev nD) : FVec F S1x2x512 .f32 := k0_pay4 (X c)

def G1 (c : Dev nD) : Vec F S8x2x512 .f32 := fun i => st1 X (dv (zOf c) (i 0)) (ix3 0 (i 1) (i 2))

def st2 (c : Dev nD) : FVec F S1x2x512 .f32 := k0_pay5 (G1 X c)

def G2 (c : Dev nD) : Vec F S4x2x512 .f32 := fun i => st2 X (dv (i 0) (rOf c)) (ix3 0 (i 1) (i 2))

def eAt (c : Dev nD) : FVec F S512x256 .f32 := k0_pay3 (X c)

def outAt (c : Dev nD) : FVec F S512x256 .f32 := k0_pay6 (k0_pay2 (X c)) (G2 X c) (eAt X c)

end Cert.KernelIdeal.Spec

end
-- ==== Proof.SoftmaxSpec.lean ====
/- Row softmax of a 512 × 8192 array of extended reals, index by index. -/
import Idealize.ShloMosaic.PureOps.Ideal
import Idealize.ShloMosaic.Lib.ValueIdx
import Mathlib.Data.Finset.Lattice.Fold

noncomputable section

namespace Cert.KernelIdeal.SoftmaxSpec

open Idealize.ShloMosaic Idealize.ShloMosaic.ValueIdx

def rowMax (xw : (⟨2, ![512, 8192]⟩ : Shape).Idx → EReal) (a : Fin 512) : EReal :=
  (Finset.univ : Finset (Fin 8192)).sup fun k => xw (ix2 a k)

def rowSum (xw : (⟨2, ![512, 8192]⟩ : Shape).Idx → EReal) (a : Fin 512) : EReal :=
  0 + ∑ k : Fin 8192, Ideal.exp (xw (ix2 a k) - rowMax xw a)

def softmax (xw : (⟨2, ![512, 8192]⟩ : Shape).Idx → EReal) : (⟨2, ![512, 8192]⟩ : Shape).Idx → EReal :=
  fun i => Ideal.div (Ideal.exp (xw i - rowMax xw (i 0))) (rowSum xw (i 0))

theorem rowMax_eq_fold (xw : (⟨2, ![512, 8192]⟩ : Shape).Idx → EReal) (a : Fin 512) :
    rowMax xw a = (Finset.univ : Finset (Fin 8192)).fold max ⊥ fun k => xw (ix2 a k) := rfl

end Cert.KernelIdeal.SoftmaxSpec

end
-- ==== Proof.MergeAlgebra.lean ====
/- Merging (maximum, sum of exponentials about it) pairs is associative over finite entries, so the two-level merge is the row's pair. -/
import Idealize.ShloMosaic.PureOps.Ideal
import Mathlib.Data.EReal.Inv
import Mathlib.Analysis.Complex.Exponential
import Mathlib.Algebra.BigOperators.Ring.Finset
import Mathlib.Algebra.Order.BigOperators.Group.Finset
import Mathlib.Data.Fintype.BigOperators
import Mathlib.Data.Finset.Lattice.Fold

noncomputable section

namespace Cert.KernelIdeal.MergeAlgebra

open Idealize.ShloMosaic

def dev (z : Fin 4) (r : Fin 8) : Fin 32 := ⟨8 * z.val + r.val, by have := z.isLt; have := r.isLt; omega⟩
def col (c : Fin 32) (l : Fin 256) : Fin 8192 := ⟨c.val * 256 + l.val, by have := c.isLt; have := l.isLt; omega⟩

theorem ne4 : (Finset.univ : Finset (Fin 4)).Nonempty := ⟨⟨0, by omega⟩, Finset.mem_univ _⟩
theorem ne8 : (Finset.univ : Finset (Fin 8)).Nonempty := ⟨⟨0, by omega⟩, Finset.mem_univ _⟩
theorem ne256 : (Finset.univ : Finset (Fin 256)).Nonempty := ⟨⟨0, by omega⟩, Finset.mem_univ _⟩
theorem ne8192 : (Finset.univ : Finset (Fin 8192)).Nonempty := ⟨⟨0, by omega⟩, Finset.mem_univ _⟩

def colEquiv : Fin 32 × Fin 256 ≃ Fin 8192 where
  toFun p := col p.1 p.2
  invFun k := (⟨k.val / 256, by have := k.isLt; omega⟩, ⟨k.val % 256, by omega⟩)
  left_inv := by
    rintro ⟨c, l⟩
    have := c.isLt; have := l.isLt
    refine Prod.ext (Fin.ext ?_) (Fin.ext ?_)
    · show (c.val * 256 + l.val) / 256 = c.val; omega
    · show (c.val * 256 + l.val) % 256 = l.val; omega
  right_inv := by
    intro k
    refine Fin.ext ?_
    show k.val / 256 * 256 + k.val % 256 = k.val; omega

def devEquiv : Fin 4 × Fin 8 ≃ Fin 32 where
  toFun p := dev p.1 p.2
  invFun c := (⟨c.val / 8, by have := c.isLt; omega⟩, ⟨c.val % 8, by omega⟩)
  left_inv := by
    rintro ⟨z, r⟩
    have := z.isLt; have := r.isLt
    refine Prod.ext (Fin.ext ?_) (Fin.ext ?_)
    · show (8 * z.val + r.val) / 8 = z.val; omega
    · show (8 * z.val + r.val) % 8 = r.val; omega
  right_inv := by
    intro c
    refine Fin.ext ?_
    show 8 * (c.val / 8) + c.val % 8 = c.val; omega

theorem sum_col {M : Type*} [AddCommMonoid M] (f : Fin 8192 → M) :
    ∑ k, f k = ∑ c : Fin 32, ∑ l : Fin 256, f (col c l) := by
  rw [← Equiv.sum_comp colEquiv f, Fintype.sum_prod_type]
  rfl

theorem sum_dev {M : Type*} [AddCommMonoid M] (f : Fin 32 → M) :
    ∑ c, f c = ∑ z : Fin 4, ∑ r : Fin 8, f (dev z r) := by
  rw [← Equiv.sum_comp devEquiv f, Fintype.sum_prod_type]
  rfl

theorem exists_col (k : Fin 8192) : ∃ (z : Fin 4) (r : Fin 8) (l : Fin 256), col (dev z r) l = k := by
  have hk := k.isLt
  exact ⟨⟨k.val / 2048, by omega⟩, ⟨k.val / 256 % 8, by omega⟩, ⟨k.val % 256, by omega⟩,
    Fin.ext (by show (8 * (k.val / 2048) + k.val / 256 % 8) * 256 + k.val % 256 = k.val; omega)⟩

theorem sup_col (y : Fin 8192 → EReal) :
    (Finset.univ.sup fun z : Fin 4 => Finset.univ.sup fun r : Fin 8 => Finset.univ.sup fun l : Fin 256 => y (col (dev z r) l))
      = Finset.univ.sup y := by
  apply le_antisymm
  · exact Finset.sup_le fun z _ => Finset.sup_le fun r _ => Finset.sup_le fun l _ =>
      Finset.le_sup (f := y) (Finset.mem_univ _)
  · refine Finset.sup_le fun k _ => ?_
    obtain ⟨z, r, l, e⟩ := exists_col k
    subst e
    exact le_trans (Finset.le_sup (f := fun l : Fin 256 => y (col (dev z r) l)) (Finset.mem_univ l))
      (le_trans (Finset.le_sup (f := fun r : Fin 8 => Finset.univ.sup fun l : Fin 256 => y (col (dev z r) l)) (Finset.mem_univ r))
        (Finset.le_sup (f := fun z : Fin 4 => Finset.univ.sup fun r : Fin 8 => Finset.univ.sup fun l : Fin 256 => y (col (dev z r) l))
          (Finset.mem_univ z)))

theorem exists_real_sup {ι : Type*} [Fintype ι] (hne : (Finset.univ : Finset ι).Nonempty) (f : ι → EReal)
    (hf : ∀ i, ∃ t : ℝ, f i = (t : EReal)) : ∃ m : ℝ, Finset.univ.sup f = (m : EReal) := by
  obtain ⟨i, _, hi⟩ := Finset.exists_mem_eq_sup Finset.univ hne f
  obtain ⟨t, ht⟩ := hf i
  exact ⟨t, hi.trans ht⟩

theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

section Reals
variable (t : Fin 8192 → ℝ) (a : Fin 32 → ℝ) (p : Fin 4 → ℝ) (g : ℝ)

def lsR (c : Fin 32) : ℝ := ∑ l : Fin 256, Real.exp (t (col c l) - a c)
def psR (z : Fin 4) : ℝ := ∑ r : Fin 8, lsR t a (dev z r) * Real.exp (a (dev z r) - p z)
def gsR : ℝ := ∑ z : Fin 4, psR t a p z * Real.exp (p z - g)

theorem gsR_eq : gsR t a p g = ∑ k : Fin 8192, Real.exp (t k - g) := by
  have h1 : ∀ (z : Fin 4) (r : Fin 8) (l : Fin 256),
      Real.exp (t (col (dev z r) l) - a (dev z r)) * Real.exp (a (dev z r) - p z) * Real.exp (p z - g)
        = Real.exp (t (col (dev z r) l) - g) := fun z r l => by
    rw [← Real.exp_add, ← Real.exp_add]; congr 1; ring
  calc gsR t a p g
      = ∑ z : Fin 4, ∑ r : Fin 8, ∑ l : Fin 256, Real.exp (t (col (dev z r) l) - g) := by
        unfold gsR psR lsR
        refine Finset.sum_congr rfl fun z _ => ?_
        rw [Finset.sum_mul]
        refine Finset.sum_congr rfl fun r _ => ?_
        rw [Finset.sum_mul, Finset.sum_mul]
        exact Finset.sum_congr rfl fun l _ => h1 z r l
    _ = ∑ c : Fin 32, ∑ l : Fin 256, Real.exp (t (col c l) - g) :=
        (sum_dev fun c => ∑ l : Fin 256, Real.exp (t (col c l) - g)).symm
    _ = ∑ k : Fin 8192, Real.exp (t k - g) := (sum_col fun k => Real.exp (t k - g)).symm

end Reals

section Merge
variable (y : Fin 8192 → EReal)

def lm (c : Fin 32) : EReal := Finset.univ.sup fun l : Fin 256 => y (col c l)
def ex (c : Fin 32) (l : Fin 256) : EReal := Ideal.exp (y (col c l) - lm y c)
def ls (c : Fin 32) : EReal := ∑ l : Fin 256, ex y c l
def pm (z : Fin 4) : EReal := Finset.univ.sup fun r : Fin 8 => lm y (dev z r)
def ps (z : Fin 4) : EReal := ∑ r : Fin 8, ls y (dev z r) * Ideal.exp (lm y (dev z r) - pm y z)
def gm : EReal := Finset.univ.sup fun z : Fin 4 => pm y z
def gs : EReal := ∑ z : Fin 4, ps y z * Ideal.exp (pm y z - gm y)
def out (c : Fin 32) (l : Fin 256) : EReal := ex y c l * Ideal.div (Ideal.exp (lm y c - gm y)) (gs y)

theorem gm_eq : gm y = Finset.univ.sup y := sup_col y

theorem out_eq (hy : ∀ k, ∃ t : ℝ, y k = (t : EReal)) (c : Fin 32) (l : Fin 256) :
    out y c l = Ideal.div (Ideal.exp (y (col c l) - Finset.univ.sup y))
      (0 + ∑ k : Fin 8192, Ideal.exp (y k - Finset.univ.sup y)) := by
  choose t ht using hy
  have hlm : ∀ c, ∃ m : ℝ, lm y c = (m : EReal) := fun c =>
    exists_real_sup ne256 (fun l : Fin 256 => y (col c l)) fun l => ⟨t _, ht _⟩
  choose a ha using hlm
  have hpm : ∀ z, ∃ m : ℝ, pm y z = (m : EReal) := fun z =>
    exists_real_sup ne8 (fun r : Fin 8 => lm y (dev z r)) fun r => ⟨a _, ha _⟩
  choose p hp using hpm
  obtain ⟨g, hg⟩ : ∃ m : ℝ, gm y = (m : EReal) := exists_real_sup ne4 (fun z : Fin 4 => pm y z) fun z => ⟨p z, hp z⟩
  have hG : Finset.univ.sup y = (g : EReal) := (gm_eq y).symm.trans hg
  have hex : ∀ c l, ex y c l = ((Real.exp (t (col c l) - a c) : ℝ) : EReal) := fun c l => by
    unfold ex; rw [ht, ha, ← EReal.coe_sub, Ideal.exp_coe]
  have hls : ∀ c, ls y c = ((lsR t a c : ℝ) : EReal) := fun c => by
    unfold ls lsR; rw [coe_sum]; exact Finset.sum_congr rfl fun l _ => hex c l
  have hps : ∀ z, ps y z = ((psR t a p z : ℝ) : EReal) := fun z => by
    unfold ps psR; rw [coe_sum]
    refine Finset.sum_congr rfl fun r _ => ?_
    rw [hls, ha, hp, ← EReal.coe_sub, Ideal.exp_coe, ← EReal.coe_mul]
  have hgs : gs y = ((gsR t a p g : ℝ) : EReal) := by
    unfold gs gsR; rw [coe_sum]
    refine Finset.sum_congr rfl fun z _ => ?_
    rw [hps, hp, hg, ← EReal.coe_sub, Ideal.exp_coe, ← EReal.coe_mul]
  have hS : gsR t a p g = ∑ k : Fin 8192, Real.exp (t k - g) := gsR_eq t a p g
  have hpos : (0 : ℝ) < ∑ k : Fin 8192, Real.exp (t k - g) :=
    Finset.sum_pos (fun k _ => Real.exp_pos _) ne8192
  have hne : (∑ k : Fin 8192, Real.exp (t k - g)) ≠ 0 := ne_of_gt hpos
  have hR : (0 + ∑ k : Fin 8192, Ideal.exp (y k - Finset.univ.sup y))
      = ((∑ k : Fin 8192, Real.exp (t k - g) : ℝ) : EReal) := by
    rw [zero_add, coe_sum]
    refine Finset.sum_congr rfl fun k _ => ?_
    rw [ht, hG, ← EReal.coe_sub, Ideal.exp_coe]
  rw [hR, Ideal.div_coe hne, ht, hG, ← EReal.coe_sub, Ideal.exp_coe, ← EReal.coe_mul]
  unfold out
  rw [hex, ha, hg, ← EReal.coe_sub, Ideal.exp_coe, hgs, hS, Ideal.div_coe hne, ← EReal.coe_mul, ← EReal.coe_mul]
  congr 1
  rw [← mul_assoc, ← Real.exp_add]
  congr 2; ring

end Merge

/-- info: 'Cert.KernelIdeal.MergeAlgebra.out_eq' depends on axioms: [propext, Classical.choice, Quot.sound] -/
#guard_msgs in #print axioms out_eq

end Cert.KernelIdeal.MergeAlgebra

end
-- ==== Proof.LayoutRead.lean ====
/- Column forms of a kept dimension and one-axis reductions of rank-2 vectors, read at coordinates. -/
import Idealize.ShloMosaic.Lib.ValueLayout
import Idealize.ShloMosaic.Lib.ValueIdx
import Idealize.ShloMosaic.PureOps.Ideal.Laws
import Mathlib.Data.Finset.Lattice.Fold

noncomputable section

namespace Cert.KernelIdeal.LayoutRead

open Idealize.ShloMosaic Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

theorem concat_rows_apply0 {n : ℕ} (x₁ x₂ : (⟨2, ![1, n]⟩ : Shape).Idx → α)
    (h : Shape.Concatenates [(⟨2, ![1, n]⟩ : Shape), ⟨2, ![1, n]⟩] ⟨2, ![2, n]⟩ 0) (j : Fin n) :
    concatenate ⟨2, ![2, n]⟩ 0 [⟨⟨2, ![1, n]⟩, x₁⟩, ⟨⟨2, ![1, n]⟩, x₂⟩] h (ix2 (0 : Fin 2) j) = x₁ (ix2 (0 : Fin 1) j) :=
  concatenate_pair_apply_left 0 x₁ x₂ h (ix2 (0 : Fin 2) j) rfl (ix2 (0 : Fin 1) j) (fun b => by
    match b with
    | ⟨0, _⟩ => rfl
    | ⟨1, _⟩ => rfl)

theorem concat_rows_apply1 {n : ℕ} (x₁ x₂ : (⟨2, ![1, n]⟩ : Shape).Idx → α)
    (h : Shape.Concatenates [(⟨2, ![1, n]⟩ : Shape), ⟨2, ![1, n]⟩] ⟨2, ![2, n]⟩ 0) (j : Fin n) :
    concatenate ⟨2, ![2, n]⟩ 0 [⟨⟨2, ![1, n]⟩, x₁⟩, ⟨⟨2, ![1, n]⟩, x₂⟩] h (ix2 (1 : Fin 2) j) = x₂ (ix2 (0 : Fin 1) j) :=
  concatenate_pair_apply_right 0 x₁ x₂ h (ix2 (1 : Fin 2) j) rfl rfl (ix2 (0 : Fin 1) j) (fun b => by
    match b with
    | ⟨0, _⟩ => intro hb; exact (hb (Fin.ext rfl)).elim
    | ⟨1, _⟩ => intro _; rfl) rfl

end Layout

theorem ofBits_neg_inf : Ideal.ofBits .f32 0xFF800000#32 = (⊥ : EReal) := by simp [Ideal.ofBits, Ideal.ieee]

section Reduce
variable {n0 n1 : ℕ}

theorem lift_axis1 (h : (⟨2, ![n0, n1]⟩ : Shape).Reduces [1] ⟨1, ![n0]⟩) (a : Fin n0) (l : Fin n1) :
    h.lift (ix1 a) l = ix2 a l := by
  funext d
  match d with
  | ⟨0, _⟩ => exact Fin.ext rfl
  | ⟨1, _⟩ => exact Fin.ext rfl

theorem lift_axis0 (h : (⟨2, ![n0, n1]⟩ : Shape).Reduces [0] ⟨1, ![n1]⟩) (a : Fin n1) (k : Fin n0) :
    h.lift (ix1 a) k = ix2 k a := by
  funext d
  match d with
  | ⟨0, _⟩ => exact Fin.ext rfl
  | ⟨1, _⟩ => exact Fin.ext rfl

theorem maxf_axis1 (x : FVec Ideal ⟨2, ![n0, n1]⟩ .f32) (h : (⟨2, ![n0, n1]⟩ : Shape).Reduces [1] ⟨1, ![n0]⟩)
    (hφ : FKind.Formats .f32) (hacc : (0xFF800000#32 : BitVec 32) = FKind.maximumf.neutral .f32 hφ) (a : Fin n0) :
    multiReduction (F := Ideal) .maximumf [1] ⟨1, ![n0]⟩ x 0xFF800000#32 h hφ hacc (ix1 a)
      = Finset.univ.sup fun l : Fin n1 => x (ix2 a l) := by
  refine (Ideal.multiReduction_maximumf_single x _ h hφ hacc (ix1 a)).trans ?_
  show (Finset.univ : Finset (Fin n1)).fold max (Ideal.ofBits .f32 0xFF800000#32) (fun l => x (h.lift (ix1 a) l)) = _
  rw [ofBits_neg_inf]
  exact congrArg (fun f : Fin n1 → EReal => Finset.univ.sup f) (funext fun l => congrArg x (lift_axis1 h a l))

theorem maxf_axis0 (x : FVec Ideal ⟨2, ![n0, n1]⟩ .f32) (h : (⟨2, ![n0, n1]⟩ : Shape).Reduces [0] ⟨1, ![n1]⟩)
    (hφ : FKind.Formats .f32) (hacc : (0xFF800000#32 : BitVec 32) = FKind.maximumf.neutral .f32 hφ) (a : Fin n1) :
    multiReduction (F := Ideal) .maximumf [0] ⟨1, ![n1]⟩ x 0xFF800000#32 h hφ hacc (ix1 a)
      = Finset.univ.sup fun k : Fin n0 => x (ix2 k a) := by
  refine (Ideal.multiReduction_maximumf_single x _ h hφ hacc (ix1 a)).trans ?_
  show (Finset.univ : Finset (Fin n0)).fold max (Ideal.ofBits .f32 0xFF800000#32) (fun k => x (h.lift (ix1 a) k)) = _
  rw [ofBits_neg_inf]
  exact congrArg (fun f : Fin n0 → EReal => Finset.univ.sup f) (funext fun k => congrArg x (lift_axis0 h a k))

theorem addf_axis1 (x : FVec Ideal ⟨2, ![n0, n1]⟩ .f32) (h : (⟨2, ![n0, n1]⟩ : Shape).Reduces [1] ⟨1, ![n0]⟩)
    (hφ : FKind.Formats .f32) (hacc : (0x00000000#32 : BitVec 32) = FKind.add.neutral .f32 hφ) (a : Fin n0) :
    multiReduction (F := Ideal) .add [1] ⟨1, ![n0]⟩ x 0x00000000#32 h hφ hacc (ix1 a)
      = ∑ l : Fin n1, x (ix2 a l) := by
  refine (Ideal.multiReduction_add_single x _ h hφ hacc (ix1 a)).trans ?_
  show (∑ l : Fin n1, x (h.lift (ix1 a) l)) = _
  exact Finset.sum_congr rfl fun l _ => congrArg x (lift_axis1 h a l)

theorem addf_axis0 (x : FVec Ideal ⟨2, ![n0, n1]⟩ .f32) (h : (⟨2, ![n0, n1]⟩ : Shape).Reduces [0] ⟨1, ![n1]⟩)
    (hφ : FKind.Formats .f32) (hacc : (0x00000000#32 : BitVec 32) = FKind.add.neutral .f32 hφ) (a : Fin n1) :
    multiReduction (F := Ideal) .add [0] ⟨1, ![n1]⟩ x 0x00000000#32 h hφ hacc (ix1 a)
      = ∑ k : Fin n0, x (ix2 k a) := by
  refine (Ideal.multiReduction_add_single x _ h hφ hacc (ix1 a)).trans ?_
  show (∑ k : Fin n0, x (h.lift (ix1 a) k)) = _
  exact Finset.sum_congr rfl fun k _ => congrArg x (lift_axis0 h a k)

end Reduce

/-- info: 'Cert.KernelIdeal.LayoutRead.maxf_axis1' depends on axioms: [propext, Classical.choice, Quot.sound] -/
#guard_msgs in #print axioms maxf_axis1

end Cert.KernelIdeal.LayoutRead

end
-- ==== Proof.KernelValue.lean ====
/- The kernel's payloads read at an index over the extended reals. -/
import proofs.«900604_g7700000000000605_dist_softmax_colshard_i_m512_n256_v7x_i32_f32_1_alg».proof.Proof.Gen.KernelIdeal.Skeleton
import proofs.«900604_g7700000000000605_dist_softmax_colshard_i_m512_n256_v7x_i32_f32_1_alg».proof.Proof.LayoutRead

noncomputable section

namespace Cert.KernelIdeal.KernelValue

open Cert.KernelIdeal.Gen Cert.KernelIdeal.LayoutRead
open Idealize.ShloMosaic Idealize.ShloMosaic.ValueIdx

theorem exp_apply {s : Shape} (v : FVec Ideal s .f32) (i : s.Idx) : exp v i = Ideal.exp (v i) := rfl

def mergeMax {n : ℕ} (G : (⟨3, ![n, 2, 512]⟩ : Shape).Idx → EReal) (a : Fin 512) : EReal :=
  Finset.univ.sup fun k : Fin n => G (ix3 k (0 : Fin 2) a)

def mergeSum {n : ℕ} (G : (⟨3, ![n, 2, 512]⟩ : Shape).Idx → EReal) (a : Fin 512) : EReal :=
  ∑ k : Fin n, G (ix3 k (1 : Fin 2) a) * Ideal.exp (G (ix3 k (0 : Fin 2) a) - mergeMax G a)

theorem slot_read {n : ℕ} (G : (⟨3, ![n, 2, 512]⟩ : Shape).Idx → EReal) (o : ℕ) (q : Fin 2) (hq : q.val = o)
    (hs : (⟨3, ![n, 2, 512]⟩ : Shape).Slices ![0, o, 0] ⟨3, ![n, 1, 512]⟩)
    (hc : (⟨3, ![n, 1, 512]⟩ : Shape).ShapeCasts ⟨2, ![n, 512]⟩) (k : Fin n) (a : Fin 512) :
    shapeCast ⟨2, ![n, 512]⟩ (extractStridedSlice ⟨3, ![n, 1, 512]⟩ ![0, o, 0] G hs) hc (ix2 k a) = G (ix3 k q a) :=
  (shapeCast_a1b_ab_apply _ hc k a).trans
    (slice3_axis1_apply o G hs k (0 : Fin 1) a q (hq.trans (Nat.add_zero o).symm))

theorem mergeMax_read {n : ℕ} (G : (⟨3, ![n, 2, 512]⟩ : Shape).Idx → EReal)
    (hs : (⟨3, ![n, 2, 512]⟩ : Shape).Slices ![0, 0, 0] ⟨3, ![n, 1, 512]⟩)
    (hc : (⟨3, ![n, 1, 512]⟩ : Shape).ShapeCasts ⟨2, ![n, 512]⟩)
    (hr : (⟨2, ![n, 512]⟩ : Shape).Reduces [0] ⟨1, ![512]⟩) (hφ : FKind.Formats .f32)
    (hacc : (0xFF800000#32 : BitVec 32) = FKind.maximumf.neutral .f32 hφ) (a : Fin 512) :
    multiReduction (F := Ideal) .maximumf [0] ⟨1, ![512]⟩
        (shapeCast ⟨2, ![n, 512]⟩ (extractStridedSlice ⟨3, ![n, 1, 512]⟩ ![0, 0, 0] G hs) hc) 0xFF800000#32 hr hφ hacc (ix1 a)
      = mergeMax G a :=
  (maxf_axis0 _ hr hφ hacc a).trans
    (congrArg (fun f : Fin n → EReal => Finset.univ.sup f) (funext fun k => slot_read G 0 (0 : Fin 2) rfl hs hc k a))

theorem pay1_eq (x : FVec Ideal S512x256 .f32) : k0_pay1 (F := Ideal) x = x := shapeCast_self x _

theorem pay2_apply (x : FVec Ideal S512x256 .f32) (a : Fin 512) :
    k0_pay2 (F := Ideal) x (ix1 a) = Finset.univ.sup fun l : Fin 256 => x (ix2 a l) := by
  unfold k0_pay2
  refine (maxf_axis1 _ _ _ _ a).trans ?_
  rw [pay1_eq]

theorem pay3_apply (x : FVec Ideal S512x256 .f32) (a : Fin 512) (l : Fin 256) :
    k0_pay3 (F := Ideal) x (ix2 a l) = Ideal.exp (x (ix2 a l) - k0_pay2 (F := Ideal) x (ix1 a)) := by
  unfold k0_pay3
  refine (exp_apply _ _).trans (congrArg Ideal.exp ?_)
  refine (subf_apply _ _ _).trans ?_
  refine congr (congrArg HSub.hSub (congrFun (pay1_eq x) _)) ?_
  refine (broadcastTo_a1_ab_apply _ _ a l).trans ?_
  exact shapeCast_a_a1_apply _ _ a (0 : Fin 1)

theorem pay4_apply0 (x : FVec Ideal S512x256 .f32) (u : Fin 1) (a : Fin 512) :
    k0_pay4 (F := Ideal) x (ix3 u (0 : Fin 2) a) = k0_pay2 (F := Ideal) x (ix1 a) := by
  unfold k0_pay4
  refine (congrFun (shapeCast_self _ _) _).trans ?_
  refine (shapeCast_ab_1ab_apply _ _ u (0 : Fin 2) a).trans ?_
  refine (concat_rows_apply0 _ _ _ a).trans ?_
  exact shapeCast_a_1a_apply _ _ (0 : Fin 1) a

theorem pay4_apply1 (x : FVec Ideal S512x256 .f32) (u : Fin 1) (a : Fin 512) :
    k0_pay4 (F := Ideal) x (ix3 u (1 : Fin 2) a) = ∑ l : Fin 256, k0_pay3 (F := Ideal) x (ix2 a l) := by
  unfold k0_pay4
  refine (congrFun (shapeCast_self _ _) _).trans ?_
  refine (shapeCast_ab_1ab_apply _ _ u (1 : Fin 2) a).trans ?_
  refine (concat_rows_apply1 _ _ _ a).trans ?_
  refine (shapeCast_a_1a_apply _ _ (0 : Fin 1) a).trans ?_
  exact addf_axis1 _ _ _ _ a

theorem pay5_apply0 (G : FVec Ideal S8x2x512 .f32) (u : Fin 1) (a : Fin 512) :
    k0_pay5 (F := Ideal) G (ix3 u (0 : Fin 2) a) = mergeMax G a := by
  unfold k0_pay5
  refine (congrFun (shapeCast_self _ _) _).trans ?_
  refine (shapeCast_ab_1ab_apply _ _ u (0 : Fin 2) a).trans ?_
  refine (concat_rows_apply0 _ _ _ a).trans ?_
  refine (shapeCast_a_1a_apply _ _ (0 : Fin 1) a).trans ?_
  exact mergeMax_read G _ _ _ _ _ a

theorem pay5_apply1 (G : FVec Ideal S8x2x512 .f32) (u : Fin 1) (a : Fin 512) :
    k0_pay5 (F := Ideal) G (ix3 u (1 : Fin 2) a) = mergeSum G a := by
  unfold k0_pay5
  refine (congrFun (shapeCast_self _ _) _).trans ?_
  refine (shapeCast_ab_1ab_apply _ _ u (1 : Fin 2) a).trans ?_
  refine (concat_rows_apply1 _ _ _ a).trans ?_
  refine (shapeCast_a_1a_apply _ _ (0 : Fin 1) a).trans ?_
  refine (addf_axis0 _ _ _ _ a).trans ?_
  refine Finset.sum_congr rfl fun k _ => ?_
  refine (mulf_apply _ _ _).trans ?_
  refine congr (congrArg HMul.hMul (slot_read G 1 (1 : Fin 2) rfl _ _ k a)) ?_
  refine (exp_apply _ _).trans (congrArg Ideal.exp ?_)
  refine (subf_apply _ _ _).trans ?_
  refine congr (congrArg HSub.hSub (slot_read G 0 (0 : Fin 2) rfl _ _ k a)) ?_
  refine (broadcastTo_1b_ab_apply _ _ k a).trans ?_
  refine (shapeCast_a_1a_apply _ _ (0 : Fin 1) a).trans ?_
  exact mergeMax_read G _ _ _ _ _ a

theorem pay6_apply (m : FVec Ideal S512 .f32) (G : FVec Ideal S4x2x512 .f32) (e : FVec Ideal S512x256 .f32)
    (a : Fin 512) (l : Fin 256) :
    k0_pay6 (F := Ideal) m G e (ix2 a l)
      = e (ix2 a l) * Ideal.div (Ideal.exp (m (ix1 a) - mergeMax G a)) (mergeSum G a) := by
  unfold k0_pay6
  refine (mulf_apply _ _ _).trans ?_
  refine congr (congrArg HMul.hMul (congrFun (shapeCast_self _ _) _)) ?_
  refine (broadcastTo_a1_ab_apply _ _ a l).trans ?_
  refine (shapeCast_a_a1_apply _ _ a (0 : Fin 1)).trans ?_
  refine (divf_apply _ _ _).trans ?_
  refine congr (congrArg Ideal.div ?_) ?_
  · refine (exp_apply _ _).trans (congrArg Ideal.exp ?_)
    refine (subf_apply _ _ _).trans ?_
    exact congrArg (HSub.hSub (m (ix1 a))) (mergeMax_read G _ _ _ _ _ a)
  · refine (addf_axis0 _ _ _ _ a).trans ?_
    refine Finset.sum_congr rfl fun k _ => ?_
    refine (mulf_apply _ _ _).trans ?_
    refine congr (congrArg HMul.hMul (slot_read G 1 (1 : Fin 2) rfl _ _ k a)) ?_
    refine (exp_apply _ _).trans (congrArg Ideal.exp ?_)
    refine (subf_apply _ _ _).trans ?_
    refine congr (congrArg HSub.hSub (slot_read G 0 (0 : Fin 2) rfl _ _ k a)) ?_
    refine (broadcastTo_1b_ab_apply _ _ k a).trans ?_
    refine (shapeCast_a_1a_apply _ _ (0 : Fin 1) a).trans ?_
    exact mergeMax_read G _ _ _ _ _ a

/-- info: 'Cert.KernelIdeal.KernelValue.pay6_apply' depends on axioms: [propext, Classical.choice, Quot.sound] -/
#guard_msgs in #print axioms pay6_apply

end Cert.KernelIdeal.KernelValue

end
-- ==== Proof.ValueBridge.lean ====
/- Each device's result is its block of the row softmax of the whole array. -/
import proofs.«900604_g7700000000000605_dist_softmax_colshard_i_m512_n256_v7x_i32_f32_1_alg».proof.Proof.Spec
import proofs.«900604_g7700000000000605_dist_softmax_colshard_i_m512_n256_v7x_i32_f32_1_alg».proof.Proof.SoftmaxSpec
import proofs.«900604_g7700000000000605_dist_softmax_colshard_i_m512_n256_v7x_i32_f32_1_alg».proof.Proof.MergeAlgebra
import proofs.«900604_g7700000000000605_dist_softmax_colshard_i_m512_n256_v7x_i32_f32_1_alg».proof.Proof.KernelValue
import Idealize.ShloMosaic.Lib.Layout

noncomputable section

namespace Cert.KernelIdeal.ValueBridge

open Cert.KernelIdeal.Gen Cert.KernelIdeal.Spec Cert.KernelIdeal.KernelValue
open Idealize.ShloMosaic Idealize.ShloMosaic.ValueIdx

def rowOf (xw : (⟨2, ![512, 8192]⟩ : Shape).Idx → EReal) (a : Fin 512) : Fin 8192 → EReal := fun k => xw (ix2 a k)

theorem block_read {α : Type} (v : (⟨2, ![512, 8192]⟩ : Shape).Idx → α) (c : Fin 32) (a : Fin 512) (l : Fin 256)
    (hT : Layout.Tiles ⟨2, ![512, 256]⟩ ⟨2, ![512, 8192]⟩ 1 32) :
    Layout.block ⟨2, ![512, 256]⟩ ⟨2, ![512, 8192]⟩ 1 32 c v hT (ix2 a l) = v (ix2 a (MergeAlgebra.col c l)) := by
  rw [Layout.block_apply]
  refine congrArg v (funext fun d => ?_)
  match d with
  | ⟨0, _⟩ => exact Fin.ext rfl
  | ⟨1, _⟩ => exact Fin.ext rfl

section Buffers
variable (X : Dev nD → Vec Ideal S512x256 .f32)

theorem G1_read (c : Dev nD) (k : Fin 8) (q : Fin 2) (a : Fin 512) :
    G1 X c (ix3 k q a) = st1 X (dv (zOf c) k) (ix3 (0 : Fin 1) q a) := rfl

theorem G2_read (c : Dev nD) (k : Fin 4) (q : Fin 2) (a : Fin 512) :
    G2 X c (ix3 k q a) = st2 X (dv k (rOf c)) (ix3 (0 : Fin 1) q a) := rfl

variable (xw : (⟨2, ![512, 8192]⟩ : Shape).Idx → EReal)
  (hblk : ∀ c, X c = Layout.block ⟨2, ![512, 256]⟩ ⟨2, ![512, 8192]⟩ 1 32 c xw)
include hblk

theorem X_read (c : Dev nD) (a : Fin 512) (l : Fin 256) : X c (ix2 a l) = rowOf xw a (MergeAlgebra.col c l) := by
  rw [hblk c]
  exact block_read xw c a l _

theorem lm_read (c : Dev nD) (a : Fin 512) :
    k0_pay2 (F := Ideal) (X c) (ix1 a) = MergeAlgebra.lm (rowOf xw a) c :=
  (pay2_apply (X c) a).trans
    (congrArg (fun f : Fin 256 → EReal => Finset.univ.sup f) (funext fun l => X_read X xw hblk c a l))

theorem ex_read (c : Dev nD) (a : Fin 512) (l : Fin 256) :
    eAt X c (ix2 a l) = MergeAlgebra.ex (rowOf xw a) c l := by
  refine (pay3_apply (X c) a l).trans ?_
  unfold MergeAlgebra.ex
  rw [X_read X xw hblk, lm_read X xw hblk]

theorem st1_read0 (c : Dev nD) (a : Fin 512) :
    st1 X c (ix3 (0 : Fin 1) (0 : Fin 2) a) = MergeAlgebra.lm (rowOf xw a) c :=
  (pay4_apply0 (X c) 0 a).trans (lm_read X xw hblk c a)

theorem st1_read1 (c : Dev nD) (a : Fin 512) :
    st1 X c (ix3 (0 : Fin 1) (1 : Fin 2) a) = MergeAlgebra.ls (rowOf xw a) c :=
  (pay4_apply1 (X c) 0 a).trans (Finset.sum_congr rfl fun l _ => ex_read X xw hblk c a l)

theorem st2_read0 (c : Dev nD) (a : Fin 512) :
    st2 X c (ix3 (0 : Fin 1) (0 : Fin 2) a) = MergeAlgebra.pm (rowOf xw a) (zOf c) := by
  refine (pay5_apply0 (G1 X c) 0 a).trans ?_
  unfold mergeMax MergeAlgebra.pm
  refine congrArg (fun f : Fin 8 → EReal => Finset.univ.sup f) (funext fun k => ?_)
  exact (G1_read X c k 0 a).trans (st1_read0 X xw hblk (dv (zOf c) k) a)

theorem st2_read1 (c : Dev nD) (a : Fin 512) :
    st2 X c (ix3 (0 : Fin 1) (1 : Fin 2) a) = MergeAlgebra.ps (rowOf xw a) (zOf c) := by
  refine (pay5_apply1 (G1 X c) 0 a).trans ?_
  have hm : mergeMax (G1 X c) a = MergeAlgebra.pm (rowOf xw a) (zOf c) :=
    (pay5_apply0 (G1 X c) 0 a).symm.trans (st2_read0 X xw hblk c a)
  unfold mergeSum MergeAlgebra.ps
  refine Finset.sum_congr rfl fun k _ => ?_
  have h0 : G1 X c (ix3 k (0 : Fin 2) a) = MergeAlgebra.lm (rowOf xw a) (MergeAlgebra.dev (zOf c) k) :=
    (G1_read X c k 0 a).trans (st1_read0 X xw hblk (dv (zOf c) k) a)
  have h1 : G1 X c (ix3 k (1 : Fin 2) a) = MergeAlgebra.ls (rowOf xw a) (MergeAlgebra.dev (zOf c) k) :=
    (G1_read X c k 1 a).trans (st1_read1 X xw hblk (dv (zOf c) k) a)
  rw [h0, h1, hm]

theorem outAt_read (c : Dev nD) (a : Fin 512) (l : Fin 256) :
    outAt X c (ix2 a l) = MergeAlgebra.out (rowOf xw a) c l := by
  refine (pay6_apply (k0_pay2 (F := Ideal) (X c)) (G2 X c) (eAt X c) a l).trans ?_
  have hz : ∀ k : Fin 4, zOf (dv k (rOf c)) = k := fun k => zOf_dv k (rOf c)
  have h0 : ∀ k : Fin 4, G2 X c (ix3 k (0 : Fin 2) a) = MergeAlgebra.pm (rowOf xw a) k := fun k => by
    rw [G2_read, st2_read0 X xw hblk, hz]
  have h1 : ∀ k : Fin 4, G2 X c (ix3 k (1 : Fin 2) a) = MergeAlgebra.ps (rowOf xw a) k := fun k => by
    rw [G2_read, st2_read1 X xw hblk, hz]
  have hm : mergeMax (G2 X c) a = MergeAlgebra.gm (rowOf xw a) := by
    unfold mergeMax MergeAlgebra.gm
    exact congrArg (fun f : Fin 4 → EReal => Finset.univ.sup f) (funext h0)
  have hs : mergeSum (G2 X c) a = MergeAlgebra.gs (rowOf xw a) := by
    unfold mergeSum MergeAlgebra.gs
    refine Finset.sum_congr rfl fun k _ => ?_
    rw [h0, h1, hm]
  rw [hm, hs, ex_read X xw hblk, lm_read X xw hblk]
  rfl

end Buffers

theorem out_eq_block
    (X : Dev Cert.KernelIdeal.nD → Vec Ideal Cert.KernelIdeal.S512x256 .f32)
    (xw : (⟨2, ![512, 8192]⟩ : Shape).Idx → EReal)
    (hblk : ∀ c, X c = Layout.block ⟨2, ![512, 256]⟩ ⟨2, ![512, 8192]⟩ 1 32 c xw)
    (hfin : ∀ i, ∃ r : ℝ, xw i = (r : EReal)) :
    ∀ c, Cert.KernelIdeal.Spec.outAt (F := Ideal) X c
      = Layout.block ⟨2, ![512, 256]⟩ ⟨2, ![512, 8192]⟩ 1 32 c (SoftmaxSpec.softmax xw) := by
  intro c
  funext i
  obtain ⟨a, l, rfl⟩ : ∃ (a : Fin 512) (l : Fin 256), i = ix2 a l := ⟨i 0, i 1, eq_ix2 i⟩
  rw [outAt_read X xw hblk c a l, MergeAlgebra.out_eq (rowOf xw a) (fun k => hfin _) c l, block_read]
  rfl

/-- info: 'Cert.KernelIdeal.ValueBridge.out_eq_block' depends on axioms: [propext, Classical.choice, Quot.sound] -/
#guard_msgs in #print axioms out_eq_block

end Cert.KernelIdeal.ValueBridge

end
-- ==== Proof.RefValue.lean ====
/- The reference's eleven operations compose to the row softmax, index by index. -/
import proofs.«900604_g7700000000000605_dist_softmax_colshard_i_m512_n256_v7x_i32_f32_1_alg».proof.Proof.Gen.ReferenceIdeal.Read
import proofs.«900604_g7700000000000605_dist_softmax_colshard_i_m512_n256_v7x_i32_f32_1_alg».proof.Proof.SoftmaxSpec
import Idealize.ShloMosaic.PureOps.Reduce
import Idealize.ShloMosaic.PureOps.Ideal.Laws
import Idealize.ShloMosaic.Lib.ValueIdx

noncomputable section

namespace Cert.ReferenceIdeal.RefValue

open Cert.ReferenceIdeal.Gen Cert.ReferenceIdeal.Read
open Cert.KernelIdeal
open Idealize.ShloMosaic Idealize.ShloMosaic.ValueIdx

theorem init_max : Ideal.ofBits .f32 0xFF800000#32 = (⊥ : EReal) := by simp [Ideal.ofBits, Ideal.ieee]

theorem max_stage (xw : (⟨2, ![512, 8192]⟩ : Shape).Idx → EReal) (a : Fin 512) :
    val_main_v0 (F := Ideal) xw (ix1 a) = SoftmaxSpec.rowMax xw a := by
  unfold val_main_v0
  rw [Host.reduce_eq_fold_single (FloatOps.maximumf (F := Ideal) (φ := .f32)) xw
    (val_main_cst (F := Ideal)) reducesTo_S512x8192_S512_d1 (by decide) h_S_ (ix1 a)]
  rw [val_main_cst_apply, Ideal.ofBits_def, init_max, SoftmaxSpec.rowMax_eq_fold]
  refine Finset.fold_congr ?_
  intro k _
  exact congrArg xw (funext fun d => Fin.ext (by match d with | ⟨0, _⟩ => rfl | ⟨1, _⟩ => rfl))

theorem idx_max (a : Fin 512) (b : Fin 8192) : idx_main_v1 (idx_main_v2 (ix2 a b)) = ix1 a :=
  funext fun d => Fin.ext (by match d with | ⟨0, _⟩ => rfl)
theorem idx_sum (a : Fin 512) (b : Fin 8192) : idx_main_v6 (idx_main_v7 (ix2 a b)) = ix1 a :=
  funext fun d => Fin.ext (by match d with | ⟨0, _⟩ => rfl)
theorem idx_term (a : Fin 512) (k : Fin 8192) : idx_main_v5 (ix1 a) k = ix2 a k :=
  funext fun d => Fin.ext (by match d with | ⟨0, _⟩ => rfl | ⟨1, _⟩ => rfl)

theorem exp_stage (xw : (⟨2, ![512, 8192]⟩ : Shape).Idx → EReal) (a : Fin 512) (b : Fin 8192) :
    val_main_v4 (F := Ideal) xw (ix2 a b) = Ideal.exp (xw (ix2 a b) - SoftmaxSpec.rowMax xw a) := by
  show Ideal.exp (xw (ix2 a b) - val_main_v2 (F := Ideal) xw (ix2 a b)) = _
  rw [val_main_v2_apply, val_main_v1_apply, idx_max, max_stage]

theorem sum_stage (xw : (⟨2, ![512, 8192]⟩ : Shape).Idx → EReal) (a : Fin 512) :
    val_main_v5 (F := Ideal) xw (ix1 a) = SoftmaxSpec.rowSum xw a := by
  rw [val_main_v5_apply, val_main_cst_0_apply, Ideal.ofBits_def, Ideal.ofBits_zero_f32]
  unfold SoftmaxSpec.rowSum
  refine congrArg (0 + ·) (Finset.sum_congr rfl fun k _ => ?_)
  rw [idx_term, exp_stage]

theorem result_eq (xw : (⟨2, ![512, 8192]⟩ : Shape).Idx → EReal) :
    val_main_v8 (F := Ideal) xw = SoftmaxSpec.softmax xw := by
  funext i
  obtain ⟨a, b, rfl⟩ : ∃ (a : Fin 512) (b : Fin 8192), i = ix2 a b := ⟨i 0, i 1, eq_ix2 i⟩
  show Ideal.div (val_main_v4 (F := Ideal) xw (ix2 a b)) (val_main_v7 (F := Ideal) xw (ix2 a b))
    = Ideal.div (Ideal.exp (xw (ix2 a b) - SoftmaxSpec.rowMax xw a)) (SoftmaxSpec.rowSum xw a)
  rw [val_main_v7_apply, val_main_v6_apply, idx_sum, sum_stage, exp_stage]

theorem run_term_eq (xw : (⟨S512x8192, .f32⟩ : BufTy).Contents (Elt Ideal)) :
    Host.divf (Host.exp (subf (xw) (broadcastInDim S512x8192 ![0, 1] bcast_S512x1_S512x8192_0_1 (broadcastInDim S512x1 ![0] bcast_S512_S512x1_0 (Host.reduce (FloatOps.maximumf (F := Ideal) (φ := .f32)) (xw) (constant (F := Ideal) S_ .f32 0xFF800000#32) reducesTo_S512x8192_S512_d1 h_S_))))) (broadcastInDim S512x8192 ![0, 1] bcast_S512x1_S512x8192_0_1 (broadcastInDim S512x1 ![0] bcast_S512_S512x1_0 (Host.reduceAdd (Host.exp (subf (xw) (broadcastInDim S512x8192 ![0, 1] bcast_S512x1_S512x8192_0_1 (broadcastInDim S512x1 ![0] bcast_S512_S512x1_0 (Host.reduce (FloatOps.maximumf (F := Ideal) (φ := .f32)) (xw) (constant (F := Ideal) S_ .f32 0xFF800000#32) reducesTo_S512x8192_S512_d1 h_S_))))) (constant (F := Ideal) S_ .f32 0x00000000#32) reducesTo_S512x8192_S512_d1 h_S_)))
      = SoftmaxSpec.softmax xw :=
  (val_main_v8_eq (F := Ideal) xw).trans (result_eq xw)

/-- info: 'Cert.ReferenceIdeal.RefValue.result_eq' depends on axioms: [propext, Classical.choice, Quot.sound] -/
#guard_msgs in #print axioms result_eq

end Cert.ReferenceIdeal.RefValue

end
-- ==== Proof.RefRun.lean ====
/- The reference's run ends with the row softmax of its argument. -/
import proofs.«900604_g7700000000000605_dist_softmax_colshard_i_m512_n256_v7x_i32_f32_1_alg».proof.Proof.Gen.ReferenceIdeal.Run
import proofs.«900604_g7700000000000605_dist_softmax_colshard_i_m512_n256_v7x_i32_f32_1_alg».proof.Proof.Gen.ReferenceIdeal.Read
import proofs.«900604_g7700000000000605_dist_softmax_colshard_i_m512_n256_v7x_i32_f32_1_alg».proof.Proof.SoftmaxSpec
import proofs.«900604_g7700000000000605_dist_softmax_colshard_i_m512_n256_v7x_i32_f32_1_alg».proof.Proof.RefValue

noncomputable section

namespace Cert.ReferenceIdeal.RefValue

open Cert.KernelIdeal
open Idealize.ShloMosaic

theorem run_softmax (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = SoftmaxSpec.softmax (m ((c.tc : Thread nD τ).loc main_arg0))
      ∧ r.2.mem ((c.tc : Thread nD τ).loc main_arg0) = m ((c.tc : Thread nD τ).loc main_arg0) :=
  (θ_run defs _ _).mono
    (fun _ h c => ⟨(h c).1.trans (run_term_eq (m ((c.tc : Thread nD τ).loc main_arg0))), (h c).2⟩)
    (Cert.ReferenceIdeal.Value.run (F := Ideal) m ρ)

/-- info: 'Cert.ReferenceIdeal.RefValue.run_softmax' depends on axioms: [propext, Classical.choice, Quot.sound] -/
#guard_msgs in #print axioms run_softmax

end Cert.ReferenceIdeal.RefValue

end
-- ==== Proof.Finite.lean ====
/- From the printed precondition to every entry being a real number. -/
import proofs.«900604_g7700000000000605_dist_softmax_colshard_i_m512_n256_v7x_i32_f32_1_alg».proof.Proof.Gen.Pre_finite_inputs_Kernel
import Idealize.ShloMosaic.Lib.ReduceAll
import Idealize.ShloMosaic.Lib.ValueIdx
import Idealize.ShloMosaic.Lib.Layout
import Idealize.ShloMosaic.PureOps.Ideal

noncomputable section

namespace Cert.KernelIdeal.Finite

open Idealize.ShloMosaic Idealize.ShloMosaic.ValueIdx

instance : Subsingleton (Cert.Pre_finite_inputs_Kernel.S_).Idx := ⟨fun a b => funext fun d => d.elim0⟩

theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

theorem real_of_pre (x : (⟨2, ![512, 256]⟩ : Shape).Idx → EReal)
    (h : Cert.Pre_finite_inputs_Kernel.fn (F := Ideal) x = fun _ => 1#1) : ∀ i, ∃ r : ℝ, x i = (r : EReal) := by
  intro i
  have h0 := congrFun h ix0
  dsimp only [Cert.Pre_finite_inputs_Kernel.fn] at h0
  have hi := Host.reduce_andi_all _ _ _ _ _ h0 i
  exact real_of_abs_lt_top (x i) hi

theorem whole_real (xw : (⟨2, ![512, 8192]⟩ : Shape).Idx → EReal)
    (h : ∀ c : Fin 32, ∀ i, ∃ r : ℝ, (Layout.block ⟨2, ![512, 256]⟩ ⟨2, ![512, 8192]⟩ 1 32 c xw) i = (r : EReal)) :
    ∀ j, ∃ r : ℝ, xw j = (r : EReal) := by
  intro j
  have hj0 : (j 0).val < 512 := idx2_lt0 j
  have hj1 : (j 1).val < 8192 := idx2_lt1 j
  obtain ⟨r, hr⟩ := h ⟨(j 1).val / 256, by omega⟩ (ix2 (j 0) ⟨(j 1).val % 256, by omega⟩)
  refine ⟨r, ?_⟩
  rw [Layout.block_apply] at hr
  rw [← hr]
  congr 1
  funext a
  apply Fin.ext
  match a with
  | ⟨0, _⟩ => rfl
  | ⟨1, _⟩ =>
    show (j 1).val = (j 1).val / 256 * 256 + (j 1).val % 256
    omega

theorem whole_real_of_pre (xw : (⟨2, ![512, 8192]⟩ : Shape).Idx → EReal)
    (X : Fin 32 → (⟨2, ![512, 256]⟩ : Shape).Idx → EReal)
    (hpre : ∀ c : Fin 32, Cert.Pre_finite_inputs_Kernel.fn (F := Ideal) (X c) = fun _ => 1#1)
    (hagree : ∀ c : Fin 32, X c = Layout.block ⟨2, ![512, 256]⟩ ⟨2, ![512, 8192]⟩ 1 32 c xw) :
    ∀ j, ∃ r : ℝ, xw j = (r : EReal) :=
  whole_real xw fun c i => by rw [← hagree c]; exact real_of_pre (X c) (hpre c) i

/-- info: 'Cert.KernelIdeal.Finite.real_of_pre' depends on axioms: [propext, Classical.choice, Quot.sound] -/
#guard_msgs in #print axioms real_of_pre
/-- info: 'Cert.KernelIdeal.Finite.whole_real' depends on axioms: [propext, Classical.choice, Quot.sound] -/
#guard_msgs in #print axioms whole_real
/-- info: 'Cert.KernelIdeal.Finite.whole_real_of_pre' depends on axioms: [propext, Classical.choice, Quot.sound] -/
#guard_msgs in #print axioms whole_real_of_pre

end Cert.KernelIdeal.Finite

end
-- ==== Proof.RefFrame.lean ====
/- The reference's run leaves its argument unchanged. -/
import proofs.«900604_g7700000000000605_dist_softmax_colshard_i_m512_n256_v7x_i32_f32_1_alg».proof.Defs
import proofs.«900604_g7700000000000605_dist_softmax_colshard_i_m512_n256_v7x_i32_f32_1_alg».proof.Proof.Gen.ReferenceIdeal
import proofs.«900604_g7700000000000605_dist_softmax_colshard_i_m512_n256_v7x_i32_f32_1_alg».proof.Proof.Gen.ReferenceIdeal.Run
import proofs.«900604_g7700000000000605_dist_softmax_colshard_i_m512_n256_v7x_i32_f32_1_alg».proof.Proof.Gen.ReferenceIdeal.Read
import proofs.«900604_g7700000000000605_dist_softmax_colshard_i_m512_n256_v7x_i32_f32_1_alg».proof.Proof.Gen.Pre_finite_inputs_ReferenceIdeal

noncomputable section

namespace Cert.Proof.RefFrame

open Idealize.ShloMosaic

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Assemble.lean ====
/- The five conjuncts from the two runs and the value bridge. -/
import proofs.«900604_g7700000000000605_dist_softmax_colshard_i_m512_n256_v7x_i32_f32_1_alg».proof.Defs
import proofs.«900604_g7700000000000605_dist_softmax_colshard_i_m512_n256_v7x_i32_f32_1_alg».proof.Proof.Gen.KernelIdeal
import proofs.«900604_g7700000000000605_dist_softmax_colshard_i_m512_n256_v7x_i32_f32_1_alg».proof.Proof.Gen.ReferenceIdeal
import proofs.«900604_g7700000000000605_dist_softmax_colshard_i_m512_n256_v7x_i32_f32_1_alg».proof.Proof.Gen.Pre_finite_inputs_Kernel
import proofs.«900604_g7700000000000605_dist_softmax_colshard_i_m512_n256_v7x_i32_f32_1_alg».proof.Proof.Gen.Pre_finite_inputs_ReferenceIdeal
import proofs.«900604_g7700000000000605_dist_softmax_colshard_i_m512_n256_v7x_i32_f32_1_alg».proof.Proof.Spec
import proofs.«900604_g7700000000000605_dist_softmax_colshard_i_m512_n256_v7x_i32_f32_1_alg».proof.Proof.ValueBridge
import proofs.«900604_g7700000000000605_dist_softmax_colshard_i_m512_n256_v7x_i32_f32_1_alg».proof.Proof.RefRun
import proofs.«900604_g7700000000000605_dist_softmax_colshard_i_m512_n256_v7x_i32_f32_1_alg».proof.Proof.Finite
import proofs.«900604_g7700000000000605_dist_softmax_colshard_i_m512_n256_v7x_i32_f32_1_alg».proof.Proof.Gen.Kernel
import proofs.«900604_g7700000000000605_dist_softmax_colshard_i_m512_n256_v7x_i32_f32_1_alg».proof.Proof.RefFrame

noncomputable section

namespace Cert.Proof.Assemble

open Idealize.ShloMosaic

abbrev blocksOf (m : (ℓ : Loc Cert.KernelIdeal.nD Cert.KernelIdeal.τ Cert.KernelIdeal.sig) → Buf (Elt Ideal) ℓ) :
    Dev Cert.KernelIdeal.nD → Vec Ideal Cert.KernelIdeal.S512x256 .f32 :=
  fun c' : Dev Cert.KernelIdeal.nD => m ((c'.tc : Thread Cert.KernelIdeal.nD Cert.KernelIdeal.τ).loc Cert.KernelIdeal.main_arg0)

theorem preserves : Cert.preserves_Kernel_KernelIdeal := trivial

theorem algebraic_of
    (hrun : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = Cert.KernelIdeal.Spec.outAt (F := Ideal) (fun c' : Dev Cert.KernelIdeal.nD => m ((c'.tc : Thread Cert.KernelIdeal.nD Cert.KernelIdeal.τ).loc Cert.KernelIdeal.main_arg0)) c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.algebraic_KernelIdeal_ReferenceIdeal := by
  intro m g m' g' hpre hagree
  have hfin := Cert.KernelIdeal.Finite.whole_real_of_pre _ (blocksOf m) hpre hagree
  refine ⟨Cert.KernelIdeal.SoftmaxSpec.softmax
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun r h c => ⟨(h c).1.trans (Cert.KernelIdeal.ValueBridge.out_eq_block (blocksOf m) _ hagree hfin c), (h c).2⟩)
      (hrun m g)
  · exact (θ_run (Cert.ReferenceIdeal.defs (F := Ideal)) _ _).mono (fun r h => h 0)
      (Cert.ReferenceIdeal.RefValue.run_softmax m' g')

theorem frame_of
    (hrun : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = Cert.KernelIdeal.Spec.outAt (F := Ideal) (fun c' : Dev Cert.KernelIdeal.nD => m ((c'.tc : Thread Cert.KernelIdeal.nD Cert.KernelIdeal.τ).loc Cert.KernelIdeal.main_arg0)) c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.frame_KernelIdeal := fun m g _ =>
  (θ_run (Cert.KernelIdeal.defs (F := Ideal)) _ _).mono (fun _ h c => (h c).2) (hrun m g)

theorem claim_of (hK : Cert.frame_Kernel)
    (hrun : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = Cert.KernelIdeal.Spec.outAt (F := Ideal) (fun c' : Dev Cert.KernelIdeal.nD => m ((c'.tc : Thread Cert.KernelIdeal.nD Cert.KernelIdeal.τ).loc Cert.KernelIdeal.main_arg0)) c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, hK, frame_of hrun, Cert.Proof.RefFrame.frame_ri, preserves, algebraic_of hrun⟩

/-- info: 'Cert.Proof.Assemble.algebraic_of' depends on axioms: [propext, Classical.choice, Quot.sound] -/
#guard_msgs in #print axioms algebraic_of

end Cert.Proof.Assemble

end
-- ==== Proof.Cells.lean ====
/- The two exchange buffers cut into 2 × 512 slots, and the 25 semaphores of a device's protocol. -/
import proofs.«900604_g7700000000000605_dist_softmax_colshard_i_m512_n256_v7x_i32_f32_1_alg».proof.Proof.Spec
import proofs.«900604_g7700000000000605_dist_softmax_colshard_i_m512_n256_v7x_i32_f32_1_alg».proof.Proof.Gen.KernelIdeal.Launch
import proofs.«900604_g7700000000000605_dist_softmax_colshard_i_m512_n256_v7x_i32_f32_1_alg».proof.Proof.Gen.KernelIdeal.Points

noncomputable section

namespace Cert.KernelIdeal.Proto

open Cert.KernelIdeal.Gen Cert.KernelIdeal.Spec

open Idealize.ShloMosaic
open Idealize.ShloMosaic.TcCoe
open Idealize.SL.RA
open Idealize.ShloMosaic.Rounds

variable {F : FTy → Type} [FloatOps F]

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xM : Memref sig .tc .vmem S512x256 .f32 := Memref.whole cc0_stg0_0
abbrev oM : Memref sig .tc .vmem S512x256 .f32 := Memref.whole cc0_stg1_0
abbrev g1M : Memref sig .tc .vmem S8x2x512 .f32 := Memref.whole cc0_scratch0
abbrev g2M : Memref sig .tc .vmem S4x2x512 .f32 := Memref.whole cc0_scratch1

abbrev rect1 (k : Fin 8) : Rect S8x2x512 := Rect.unit (s := S8x2x512) ![k.val, 0, 0] S1x2x512.size (inb_row k)
abbrev rect2 (k : Fin 4) : Rect S4x2x512 := Rect.unit (s := S4x2x512) ![k.val, 0, 0] S1x2x512.size (inb_row k)

abbrev slot1 (k : Fin 8) : Memref sig .tc .vmem S2x512 .f32 := (g1M.slice (rect1 k) (fun _ => rfl)).squeeze S2x512 squeezes_S1x2x512_S2x512
abbrev slot2 (k : Fin 4) : Memref sig .tc .vmem S2x512 .f32 := (g2M.slice (rect2 k) (fun _ => rfl)).squeeze S2x512 squeezes_S1x2x512_S2x512

abbrev set1 (k : Fin 8) : Finset S8x2x512.Idx := (rect1 k).set
abbrev set2 (k : Fin 4) : Finset S4x2x512.Idx := (rect2 k).set

theorem mem_set1 {k : Fin 8} {i : S8x2x512.Idx} : i ∈ set1 k ↔ i 0 = k := mem_rowBlock
theorem mem_set2 {k : Fin 4} {i : S4x2x512.Idx} : i ∈ set2 k ↔ i 0 = k := mem_rowBlock
theorem slot1_set (k : Fin 8) : (slot1 k).view.set = set1 k := by
  show (((View.whole cc0_scratch0).slice (rect1 k)).reshape S2x512 _).set = _
  rw [View.set_reshape, View.set_slice_whole]
theorem slot2_set (k : Fin 4) : (slot2 k).view.set = set2 k := by
  show (((View.whole cc0_scratch1).slice (rect2 k)).reshape S2x512 _).set = _
  rw [View.set_reshape, View.set_slice_whole]

theorem own_slot1 (c : Dev nD) :
    (g1M.slice (Rect.unit (s := S8x2x512) (k0_off3 c) S1x2x512.size (k0_off3_inb c)) (fun _ => rfl)) = g1M.slice (rect1 (rOf c)) (fun _ => rfl) :=
  Memref.slice_unit_congr _ (k0_off3_eq c) _ _ _ _
theorem own_slot2 (c : Dev nD) :
    (g2M.slice (Rect.unit (s := S4x2x512) (k0_off8 c) S1x2x512.size (k0_off8_inb c)) (fun _ => rfl)) = g2M.slice (rect2 (zOf c)) (fun _ => rfl) :=
  Memref.slice_unit_congr _ (k0_off8_eq c) _ _ _ _

abbrev barS : Sem sig := (SemArray.scalar (sig.barrier 0 rfl) : Sems sig S_).sem

def s1q (j : Fin 8) : DmaSem sig := ⟨j.val + 2, by have := j.isLt; show j.val + 2 < 26; omega⟩
def r1q (k : Fin 8) : DmaSem sig := ⟨k.val + 10, by have := k.isLt; show k.val + 10 < 26; omega⟩
def s2q (j : Fin 4) : DmaSem sig := ⟨j.val + 18, by have := j.isLt; show j.val + 18 < 26; omega⟩
def r2q (k : Fin 4) : DmaSem sig := ⟨k.val + 22, by have := k.isLt; show k.val + 22 < 26; omega⟩

inductive CK where
  | bar | s1 (j : Fin 8) | r1 (k : Fin 8) | s2 (j : Fin 4) | r2 (k : Fin 4) | none
  deriving DecidableEq

def dmaKind (q : DmaSem sig) : CK :=
  (![CK.none, CK.none, CK.s1 0, CK.s1 1, CK.s1 2, CK.s1 3, CK.s1 4, CK.s1 5, CK.s1 6, CK.s1 7, CK.r1 0, CK.r1 1, CK.r1 2, CK.r1 3, CK.r1 4, CK.r1 5, CK.r1 6, CK.r1 7, CK.s2 0, CK.s2 1, CK.s2 2, CK.s2 3, CK.r2 0, CK.r2 1, CK.r2 2, CK.r2 3] : Fin 26 → CK) q

def kindOf : SemLoc sig → CK
  | .reg _ => .bar
  | .dma q => dmaKind q

theorem kind_s1 (j : Fin 8) : kindOf (.dma (s1q j)) = .s1 j := by revert j; decide
theorem kind_r1 (k : Fin 8) : kindOf (.dma (r1q k)) = .r1 k := by revert k; decide
theorem kind_s2 (j : Fin 4) : kindOf (.dma (s2q j)) = .s2 j := by revert j; decide
theorem kind_r2 (k : Fin 4) : kindOf (.dma (r2q k)) = .r2 k := by revert k; decide
theorem kind_stage0 : kindOf (.dma cc0_sem0_0) = .none := by decide
theorem kind_stage1 : kindOf (.dma cc0_sem1_0) = .none := by decide

abbrev barCell (c : Dev nD) : GSem nD τ sig := ((c : Thread nD τ), .reg barS)
abbrev s1Cell (c : Dev nD) (j : Fin 8) : GSem nD τ sig := ((c : Thread nD τ), .dma (s1q j))
abbrev r1Cell (c : Dev nD) (k : Fin 8) : GSem nD τ sig := ((c : Thread nD τ), .dma (r1q k))
abbrev s2Cell (c : Dev nD) (j : Fin 4) : GSem nD τ sig := ((c : Thread nD τ), .dma (s2q j))
abbrev r2Cell (c : Dev nD) (k : Fin 4) : GSem nD τ sig := ((c : Thread nD τ), .dma (r2q k))

abbrev N1 : ℕ := (slot1 0).view.dmaCredit
abbrev N2 : ℕ := (slot2 0).view.dmaCredit
theorem N1_pos : 0 < N1 := View.dmaCredit_pos _ (by decide)
theorem N2_pos : 0 < N2 := View.dmaCredit_pos _ (by decide)

def xstg (c : Dev nD) : (cc0_stg0_0 : Ref sig .tc).ty.Contents (Elt F) :=
  (win0_0.blk (0 : Fin 1)).view.read (Elt F) ((s₀ m ρ).mem ((c : Thread nD τ).loc main_arg0))

abbrev X : Dev nD → Vec F S512x256 .f32 := fun c => xstg m ρ c

abbrev g1At (c : Dev nD) : Buf (Elt F) ((c : Thread nD τ).loc cc0_scratch0) := G1 (X m ρ) c
abbrev g2At (c : Dev nD) : Buf (Elt F) ((c : Thread nD τ).loc cc0_scratch1) := G2 (X m ρ) c

end Cert.KernelIdeal.Proto

end
-- ==== Proof.Sched.lean ====
/- One round per semaphore: who pays each duty, how much, and what the payment hands the semaphore's owner. -/
import proofs.«900604_g7700000000000605_dist_softmax_colshard_i_m512_n256_v7x_i32_f32_1_alg».proof.Proof.Cells

noncomputable section

namespace Cert.KernelIdeal.Proto

open Idealize.ShloMosaic
open Idealize.ShloMosaic.TcCoe
open Idealize.SL Idealize.SL.RA Idealize.SL.BI
open Idealize.SL.BI.BIBase
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def pt1 (c : Dev nD) (k : Fin 8) (q : PosShare TreeShare) (f : Buf (Elt F) ((c : Thread nD τ).loc cc0_scratch0)) : sProp 𝕄 :=
  (slot1 k).view.loc (c : Thread nD τ) ↦[(slot1 k).view.set]{q} f
def pt2 (c : Dev nD) (k : Fin 4) (q : PosShare TreeShare) (f : Buf (Elt F) ((c : Thread nD τ).loc cc0_scratch1)) : sProp 𝕄 :=
  (slot2 k).view.loc (c : Thread nD τ) ↦[(slot2 k).view.set]{q} f

theorem pt1_eq (c : Dev nD) (k : Fin 8) (q : PosShare TreeShare) (f : Buf (Elt F) ((c : Thread nD τ).loc cc0_scratch0)) :
    pt1 c k q f = (((c : Thread nD τ).loc cc0_scratch0) ↦[set1 k]{q} f : sProp 𝕄) := by unfold pt1; rw [slot1_set]
theorem pt2_eq (c : Dev nD) (k : Fin 4) (q : PosShare TreeShare) (f : Buf (Elt F) ((c : Thread nD τ).loc cc0_scratch1)) :
    pt2 c k q f = (((c : Thread nD τ).loc cc0_scratch1) ↦[set2 k]{q} f : sProp 𝕄) := by unfold pt2; rw [slot2_set]

instance pt1_storable (c : Dev nD) (k : Fin 8) (q : PosShare TreeShare) (f) : BI.Storable (upEmb : UEmb _ 𝕄) (pt1 (F := F) c k q f) := by unfold pt1; infer_instance
instance pt2_storable (c : Dev nD) (k : Fin 4) (q : PosShare TreeShare) (f) : BI.Storable (upEmb : UEmb _ 𝕄) (pt2 (F := F) c k q f) := by unfold pt2; infer_instance

def rowOff : Fin 10 → Fin 8 := ![1, 2, 3, 4, 5, 6, 7, 0, 0, 0]
def colOff : Fin 10 → Fin 4 := ![0, 0, 0, 0, 0, 0, 0, 1, 2, 3]

abbrev rowSlot (c : Dev nD) (j : Fin 8) : sProp 𝕄 :=
  iprop((∃ f, pt1 (rowPeer j c) (rOf c) fullShare f) ∗ reached ER (r1Cell (rowPeer j c) (rOf c)) 0)
abbrev colSlot (c : Dev nD) (j : Fin 4) : sProp 𝕄 :=
  iprop((∃ f, pt2 (colPeer j c) (zOf c) fullShare f) ∗ reached ER (r2Cell (colPeer j c) (zOf c)) 0)
def barPay (c : Dev nD) (d : Fin 10) : sProp 𝕄 :=
  if d.val < 7 then rowSlot c (-(rowOff d)) else colSlot c (-(colOff d))

def r1Pay (c : Dev nD) (k : Fin 8) : sProp 𝕄 := pt1 c k fullShare (g1At m ρ c)
def r2Pay (c : Dev nD) (k : Fin 4) : sProp 𝕄 := pt2 c k fullShare (g2At m ρ c)
def s1Pay (c : Dev nD) (j : Fin 8) : sProp 𝕄 := pt1 c (rOf c) (sendQ1 j) (g1At m ρ c)
def s2Pay (c : Dev nD) (j : Fin 4) : sProp 𝕄 := pt2 c (zOf c) (sendQ2 j) (g2At m ρ c)

def dutiesK : CK → Dev nD → Finset (Fin 10)
  | .bar, _ => Finset.univ
  | .s1 j, _ => if j = 0 then ∅ else {0}
  | .r1 k, c => if k = rOf c then ∅ else {0}
  | .s2 j, _ => if j = 0 then ∅ else {0}
  | .r2 k, c => if k = zOf c then ∅ else {0}
  | .none, _ => ∅

def amountK : CK → ℕ
  | .bar => 1
  | .s1 _ => N1
  | .r1 _ => N1
  | .s2 _ => N2
  | .r2 _ => N2
  | .none => 1

theorem amountK_pos (κ : CK) : 0 < amountK κ := by
  cases κ <;> first | exact Nat.one_pos | exact N1_pos | exact N2_pos

def payK : CK → Dev nD → Fin 10 → sProp 𝕄
  | .bar, c, d => barPay c d
  | .s1 j, c, _ => s1Pay m ρ c j
  | .r1 k, c, _ => r1Pay m ρ c k
  | .s2 j, c, _ => s2Pay m ρ c j
  | .r2 k, c, _ => r2Pay m ρ c k
  | .none, _, _ => iprop(emp)

def Rd : Rounds.Schedule (GSem nD τ sig) (Fin 10) 𝕄 where
  duties g r := if r = 0 ∧ g.1.2 = .tc then dutiesK (kindOf g.2) g.1.1 else ∅
  unitless _ := False
  amount g _ _ := amountK (kindOf g.2)
  payload g _ d := payK m ρ (kindOf g.2) g.1.1 d
  amount_pos g _ _ _ := amountK_pos _

instance payK_storable (κ : CK) (c : Dev nD) (d : Fin 10) : BI.Storable (upEmb : UEmb _ 𝕄) (payK (F := F) m ρ κ c d) := by
  cases κ with
  | bar => show BI.Storable upEmb (barPay c d); unfold barPay; split <;> infer_instance
  | s1 j => show BI.Storable upEmb (s1Pay m ρ c j); unfold s1Pay; infer_instance
  | r1 k => show BI.Storable upEmb (r1Pay m ρ c k); unfold r1Pay; infer_instance
  | s2 j => show BI.Storable upEmb (s2Pay m ρ c j); unfold s2Pay; infer_instance
  | r2 k => show BI.Storable upEmb (r2Pay m ρ c k); unfold r2Pay; infer_instance
  | none => show BI.Storable upEmb (iprop(emp) : sProp 𝕄); infer_instance

instance Rd_payload_storable (g : GSem nD τ sig) (r : ℕ) (d : Fin 10) :
    BI.Storable (upEmb : UEmb _ 𝕄) ((Rd (F := F) m ρ).payload g r d) := by
  show BI.Storable upEmb (payK m ρ (kindOf g.2) g.1.1 d); infer_instance

section Sched
variable (c : Dev nD)

theorem duties_tc (sm : SemLoc sig) : (Rd (F := F) m ρ).duties ((c : Thread nD τ), sm) 0 = dutiesK (kindOf sm) c := by
  show (if (0 : ℕ) = 0 ∧ ((c : Thread nD τ)).2 = .tc then dutiesK (kindOf sm) c else ∅) = _
  exact if_pos ⟨rfl, rfl⟩
theorem duties_bar : (Rd (F := F) m ρ).duties (barCell c) 0 = Finset.univ := duties_tc m ρ c _
theorem duties_s1 {j : Fin 8} (hj : j ≠ 0) : (Rd (F := F) m ρ).duties (s1Cell c j) 0 = {0} := by rw [duties_tc, kind_s1]; exact if_neg hj
theorem duties_s1_zero : (Rd (F := F) m ρ).duties (s1Cell c 0) 0 = ∅ := by rw [duties_tc, kind_s1]; rfl
theorem duties_r1 {k : Fin 8} (hk : k ≠ rOf c) : (Rd (F := F) m ρ).duties (r1Cell c k) 0 = {0} := by rw [duties_tc, kind_r1]; exact if_neg hk
theorem duties_r1_own : (Rd (F := F) m ρ).duties (r1Cell c (rOf c)) 0 = ∅ := by rw [duties_tc, kind_r1]; exact if_pos rfl
theorem duties_s2 {j : Fin 4} (hj : j ≠ 0) : (Rd (F := F) m ρ).duties (s2Cell c j) 0 = {0} := by rw [duties_tc, kind_s2]; exact if_neg hj
theorem duties_s2_zero : (Rd (F := F) m ρ).duties (s2Cell c 0) 0 = ∅ := by rw [duties_tc, kind_s2]; rfl
theorem duties_r2 {k : Fin 4} (hk : k ≠ zOf c) : (Rd (F := F) m ρ).duties (r2Cell c k) 0 = {0} := by rw [duties_tc, kind_r2]; exact if_neg hk
theorem duties_r2_own : (Rd (F := F) m ρ).duties (r2Cell c (zOf c)) 0 = ∅ := by rw [duties_tc, kind_r2]; exact if_pos rfl
theorem duties_later (g : GSem nD τ sig) : ∀ r, 1 ≤ r → (Rd (F := F) m ρ).duties g r = ∅ :=
  fun r hr => by
    show (if r = 0 ∧ g.1.2 = .tc then dutiesK (kindOf g.2) g.1.1 else ∅) = _
    exact if_neg fun h => by omega

theorem amount_bar (d : Fin 10) : (Rd (F := F) m ρ).amount (barCell c) 0 d = 1 := rfl
theorem amount_s1 (j : Fin 8) (d : Fin 10) : (Rd (F := F) m ρ).amount (s1Cell c j) 0 d = N1 := by
  show amountK (kindOf (.dma (s1q j))) = _; rw [kind_s1]; rfl
theorem amount_r1 (k : Fin 8) (d : Fin 10) : (Rd (F := F) m ρ).amount (r1Cell c k) 0 d = N1 := by
  show amountK (kindOf (.dma (r1q k))) = _; rw [kind_r1]; rfl
theorem amount_s2 (j : Fin 4) (d : Fin 10) : (Rd (F := F) m ρ).amount (s2Cell c j) 0 d = N2 := by
  show amountK (kindOf (.dma (s2q j))) = _; rw [kind_s2]; rfl
theorem amount_r2 (k : Fin 4) (d : Fin 10) : (Rd (F := F) m ρ).amount (r2Cell c k) 0 d = N2 := by
  show amountK (kindOf (.dma (r2q k))) = _; rw [kind_r2]; rfl

theorem expect_bar : (Rd (F := F) m ρ).expect (barCell c) 0 = 10 := by
  unfold Schedule.expect Schedule.amountOf
  rw [duties_bar, Finset.sum_congr rfl fun d _ => amount_bar m ρ c d, Finset.sum_const, Finset.card_univ, Fintype.card_fin, smul_eq_mul]

theorem payload_bar (d : Fin 10) : (Rd (F := F) m ρ).payload (barCell c) 0 d = barPay c d := rfl
theorem payload_s1 (j : Fin 8) (d : Fin 10) : (Rd (F := F) m ρ).payload (s1Cell c j) 0 d = s1Pay m ρ c j := by
  show payK m ρ (kindOf (.dma (s1q j))) c d = _; rw [kind_s1]; rfl
theorem payload_r1 (k : Fin 8) (d : Fin 10) : (Rd (F := F) m ρ).payload (r1Cell c k) 0 d = r1Pay m ρ c k := by
  show payK m ρ (kindOf (.dma (r1q k))) c d = _; rw [kind_r1]; rfl
theorem payload_s2 (j : Fin 4) (d : Fin 10) : (Rd (F := F) m ρ).payload (s2Cell c j) 0 d = s2Pay m ρ c j := by
  show payK m ρ (kindOf (.dma (s2q j))) c d = _; rw [kind_s2]; rfl
theorem payload_r2 (k : Fin 4) (d : Fin 10) : (Rd (F := F) m ρ).payload (r2Cell c k) 0 d = r2Pay m ρ c k := by
  show payK m ρ (kindOf (.dma (r2q k))) c d = _; rw [kind_r2]; rfl

theorem rest_bar : bigSep ((Rd (F := F) m ρ).duties (barCell c) 0 \ ∅) (fun d => (Rd (F := F) m ρ).payload (barCell c) 0 d)
    = iprop(rowSlot c 7 ∗ rowSlot c 6 ∗ rowSlot c 5 ∗ rowSlot c 4 ∗ rowSlot c 3 ∗ rowSlot c 2 ∗ rowSlot c 1 ∗ colSlot c 3 ∗ colSlot c 2 ∗ colSlot c 1) := by
  rw [Finset.sdiff_empty, duties_bar, bigSep_fin10]; rfl

end Sched

end Cert.KernelIdeal.Proto

end
-- ==== Proof.Data.lean ====
/- What a device still owes after each payment, and levels that put every wait below what its device then owes. -/
import proofs.«900604_g7700000000000605_dist_softmax_colshard_i_m512_n256_v7x_i32_f32_1_alg».proof.Proof.Sched

noncomputable section

namespace Cert.KernelIdeal.Proto

open Cert.KernelIdeal.Spec

open Idealize.ShloMosaic
open Idealize.ShloMosaic.TcCoe
open Idealize.SL Idealize.SL.RA Idealize.SL.BI
open Idealize.SL.BI.BIBase
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def payFns : List (Dev nD → GSem nD τ sig × ℕ) :=
  [fun c => (barCell (rowPeer 1 c), 1),
   fun c => (barCell (rowPeer 2 c), 1),
   fun c => (barCell (rowPeer 3 c), 1),
   fun c => (barCell (rowPeer 4 c), 1),
   fun c => (barCell (rowPeer 5 c), 1),
   fun c => (barCell (rowPeer 6 c), 1),
   fun c => (barCell (rowPeer 7 c), 1),
   fun c => (barCell (colPeer 1 c), 1),
   fun c => (barCell (colPeer 2 c), 1),
   fun c => (barCell (colPeer 3 c), 1),
   fun c => (r1Cell (rowPeer 1 c) (rOf c), N1),
   fun c => (r1Cell (rowPeer 2 c) (rOf c), N1),
   fun c => (r1Cell (rowPeer 3 c) (rOf c), N1),
   fun c => (r1Cell (rowPeer 4 c) (rOf c), N1),
   fun c => (r1Cell (rowPeer 5 c) (rOf c), N1),
   fun c => (r1Cell (rowPeer 6 c) (rOf c), N1),
   fun c => (r1Cell (rowPeer 7 c) (rOf c), N1),
   fun c => (r2Cell (colPeer 1 c) (zOf c), N2),
   fun c => (r2Cell (colPeer 2 c) (zOf c), N2),
   fun c => (r2Cell (colPeer 3 c) (zOf c), N2)]
def owedList (c : Dev nD) : List (GSem nD τ sig × ℕ) := payFns.map fun p => p c
def Oa (c : Dev nD) (n : ℕ) : CellTallies nD τ sig Unit := owedOf ((owedList c).drop n)

theorem Oa_done (c : Dev nD) : Oa c 20 = 0 := rfl

def L (g : GSem nD τ sig) : Finset Unit := if g.1.2 = .tc then {()} else ∅

def lvK : CK → ℕ
  | .bar => 1
  | .r1 _ => 2
  | .r2 _ => 3
  | _ => 0

def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_r1 (c : Dev nD) (k : Fin 8) : lv (r1Cell c k) () = 2 := by show lvK (kindOf (.dma (r1q k))) = 2; rw [kind_r1]; rfl
theorem lv_r2 (c : Dev nD) (k : Fin 4) : lv (r2Cell c k) () = 3 := by show lvK (kindOf (.dma (r2q k))) = 3; rw [kind_r2]; rfl

theorem owed_lv (c : Dev nD) : ∀ p ∈ owedList c, p.1.1.2 = .tc ∧ 0 < lv p.1 () := by
  intro p hp
  simp only [owedList, payFns, List.map_cons, List.map_nil, List.mem_cons, List.not_mem_nil, or_false] at hp
  rcases hp with rfl | rfl | rfl | rfl | rfl | rfl | rfl | rfl | rfl | rfl | rfl | rfl | rfl | rfl | rfl | rfl | rfl | rfl | rfl | rfl <;>
    first | exact ⟨rfl, by rw [lv_bar]; decide⟩ | exact ⟨rfl, by rw [lv_r1]; decide⟩ | exact ⟨rfl, by rw [lv_r2]; decide⟩
theorem owed_lv10 (c : Dev nD) : ∀ p ∈ (owedList c).drop 10, p.1.1.2 = .tc ∧ 1 < lv p.1 () := by
  intro p hp
  simp only [owedList, payFns, List.map_cons, List.map_nil, List.drop, List.mem_cons, List.not_mem_nil, or_false] at hp
  rcases hp with rfl | rfl | rfl | rfl | rfl | rfl | rfl | rfl | rfl | rfl <;>
    first | exact ⟨rfl, by rw [lv_r1]; decide⟩ | exact ⟨rfl, by rw [lv_r2]; decide⟩
theorem owed_lv17 (c : Dev nD) : ∀ p ∈ (owedList c).drop 17, p.1.1.2 = .tc ∧ 2 < lv p.1 () := by
  intro p hp
  simp only [owedList, payFns, List.map_cons, List.map_nil, List.drop, List.mem_cons, List.not_mem_nil, or_false] at hp
  rcases hp with rfl | rfl | rfl <;> exact ⟨rfl, by rw [lv_r2]; decide⟩

theorem mayWait_of (c : Dev nD) (n : ℕ) (sm : SemLoc sig) (b : ℕ) (hb : lv ((c : Thread nD τ), sm) () ≤ b)
    (hall : ∀ p ∈ (owedList c).drop n, p.1.1.2 = .tc ∧ b < lv p.1 ()) :
    (levAts L lv : sProp 𝕄) ⊢ MayWait (c : Thread nD τ) sm () (Oa c n) :=
  MayOwe.of_cut (L := L) (lev := lv) b
    (fun p hp => by rw [Finset.mem_singleton.mp hp, L_tc]; exact Finset.mem_singleton_self _)
    (fun g u hg => by
      obtain ⟨p, hp, rfl⟩ := owedOf_pos hg
      unfold L; rw [if_pos (hall p hp).1]; exact Finset.mem_singleton.mpr (Subsingleton.elim _ _))
    (fun p hp => by rw [Finset.mem_singleton.mp hp]; exact hb)
    (fun g u hg => by obtain ⟨p, hp, rfl⟩ := owedOf_pos hg; exact (hall p hp).2)

theorem mayWait_bar (c : Dev nD) : (levAts L lv : sProp 𝕄) ⊢ MayWait (c : Thread nD τ) (.reg barS) () (Oa c 10) :=
  mayWait_of c 10 _ 1 (le_of_eq (lv_bar c)) (owed_lv10 c)
theorem mayWait_r1 (c : Dev nD) (k : Fin 8) : (levAts L lv : sProp 𝕄) ⊢ MayWait (c : Thread nD τ) (.dma (r1q k)) () (Oa c 17) :=
  mayWait_of c 17 _ 2 (le_of_eq (lv_r1 c k)) (owed_lv17 c)
theorem mayWait_done (c : Dev nD) (sm : SemLoc sig) : (levAts L lv : sProp 𝕄) ⊢ MayWait (c : Thread nD τ) sm () (Oa c 20) := by
  rw [Oa_done, MayWait_zero]; iintro -; iempintro
theorem mayWait_stage (c : Dev nD) (q : DmaSem sig) (hq : kindOf (.dma q) = .none) (O : CellTallies nD τ sig Unit) (hO : O = Oa c 0 ∨ O = 0) :
    (levAts L lv : sProp 𝕄) ⊢ MayWait (c : Thread nD τ) (.dma q) () O := by
  rcases hO with rfl | rfl
  · exact mayWait_of c 0 _ 0 (le_of_eq (by show lvK (kindOf (.dma q)) = 0; rw [hq]; rfl)) (owed_lv c)
  · rw [MayWait_zero]; iintro -; iempintro

def csem (i : Fin 25) : SemLoc sig :=
  if i.val = 0 then .reg barS else .dma ⟨i.val + 1, by have := i.isLt; show i.val + 1 < 26; omega⟩
abbrev kcell (ck : Dev nD × Fin 25) : GSem nD τ sig := ((ck.1 : Thread nD τ), csem ck.2)

theorem csem_bar : csem 0 = .reg barS := rfl
theorem csem_s1 (j : Fin 8) : csem (iS1 j) = .dma (s1q j) := by revert j; decide
theorem csem_r1 (k : Fin 8) : csem (iR1 k) = .dma (r1q k) := by revert k; decide
theorem csem_s2 (j : Fin 4) : csem (iS2 j) = .dma (s2q j) := by revert j; decide
theorem csem_r2 (k : Fin 4) : csem (iR2 k) = .dma (r2q k) := by revert k; decide
theorem csem_injective : Function.Injective csem := by decide

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def peerOf (d : Fin 10) (c : Dev nD) : Dev nD := if d.val < 7 then rowPeer (rowOff d) c else colPeer (colOff d) c

def records (K : Dev nD × Fin 25 → ℕ) : sProp 𝕄 :=
  iprop((bigSep Finset.univ fun ck : Dev nD × Fin 25 => cellInv ER (Rd m ρ) (K ck) (kcell ck))
    ∗ bigSep Finset.univ fun ck : Dev nD × Fin 25 => reached ER (kcell ck) 0)

instance records_persistent (K : Dev nD × Fin 25 → ℕ) : BI.Persistent (records m ρ K) := by unfold records; infer_instance

def payToks (c : Dev nD) : sProp 𝕄 :=
  iprop((bigSep Finset.univ fun d : Fin 10 => dutyTok ER (barCell (peerOf d c)) 0 d)
    ∗ (bigSep (Finset.univ.erase (0 : Fin 8)) fun j => iprop(dutyTok ER (s1Cell c j) 0 0 ∗ dutyTok ER (r1Cell (rowPeer j c) (rOf c)) 0 0))
    ∗ (bigSep (Finset.univ.erase (0 : Fin 4)) fun j => iprop(dutyTok ER (s2Cell c j) 0 0 ∗ dutyTok ER (r2Cell (colPeer j c) (zOf c)) 0 0)))

def perCell (c : Dev nD) (P : GSem nD τ sig → sProp 𝕄) : sProp 𝕄 :=
  iprop((bigSep Finset.univ fun j : Fin 8 => P (s1Cell c j)) ∗ (bigSep Finset.univ fun j : Fin 8 => P (r1Cell c (rOf c + j)))
    ∗ (bigSep Finset.univ fun j : Fin 4 => P (s2Cell c j)) ∗ (bigSep Finset.univ fun j : Fin 4 => P (r2Cell c (zOf c + j))))

def positions (c : Dev nD) : sProp 𝕄 := iprop(atPos ER (barCell c) 0 ∅ 0 ∗ perCell c fun g => atPos ER g 0 ∅ 0)

def ghost (K : Dev nD × Fin 25 → ℕ) (c : Dev nD) : sProp 𝕄 := iprop(records m ρ K ∗ positions c ∗ payToks c)

def creds (c : Dev nD) : sProp 𝕄 :=
  iprop(cred (tallyAt (barCell c) () 10)
    ∗ (bigSep (Finset.univ.erase (0 : Fin 8)) fun j => cred (tallyAt (r1Cell c (rOf c + j)) () N1))
    ∗ (bigSep (Finset.univ.erase (0 : Fin 4)) fun j => cred (tallyAt (r2Cell c (zOf c + j)) () N2)))

def start (c : Dev nD) : sProp 𝕄 := iprop((∃ K, ghost m ρ K c) ∗ creds c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def ownZero (c : Dev nD) : sProp 𝕄 := perCell c fun g => semVal g 0

def Φ₀ (c : Dev nD) : sProp 𝕄 := iprop(start m ρ c ∗ scratch c)
def Φ₁ (c : Dev nD) : sProp 𝕄 := iprop(scratch c ∗ ownZero c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def outC (c : Dev nD) : (cc0_stg1_0 : Ref sig .tc).ty.Contents (Elt F) := outAt (X m ρ) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ c
  Φ t := match t with
    | ⟨0, _⟩ => Φ₀ m ρ c
    | ⟨_ + 1, _⟩ => Φ₁ c
  q _ := fullShare
  owed t := match t with
    | ⟨0, _⟩ => Oa c 0
    | ⟨_ + 1, _⟩ => 0

abbrev 𝒱₀ : Variants := Variants.none

end Cert.KernelIdeal.Proto

end
-- ==== Proof.LaunchFund.lean ====
/- The launch state dealt to the devices: every invariant to all, positions to owners, tokens regrouped by payer. -/
import proofs.«900604_g7700000000000605_dist_softmax_colshard_i_m512_n256_v7x_i32_f32_1_alg».proof.Proof.Data
import proofs.«900604_g7700000000000605_dist_softmax_colshard_i_m512_n256_v7x_i32_f32_1_alg».proof.Proof.LaunchAux

noncomputable section

namespace Cert.KernelIdeal.Proto

open Cert.KernelIdeal.Gen

open Idealize.ShloMosaic
open Idealize.ShloMosaic.TcCoe
open Idealize.SL Idealize.SL.BI
open Idealize.SL.BI.BIBase Idealize.SL.BI.Laws
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def ringCells : Finset (GSem nD τ sig) := Finset.univ.map ⟨kcell, kcell_injective⟩

abbrev tokOf (x : (Dev nD × Fin 25) × Fin 10) : GSem nD τ sig × ℕ × Fin 10 := (kcell x.1, 0, x.2)

theorem tokOf_injective : Function.Injective tokOf := by
  rintro ⟨a, d⟩ ⟨a', d'⟩ h
  have h1 : kcell a = kcell a' := congrArg (fun x : GSem nD τ sig × ℕ × Fin 10 => x.1) h
  have h2 : d = d' := congrArg (fun x : GSem nD τ sig × ℕ × Fin 10 => x.2.2) h
  rw [kcell_injective h1, h2]

def ringToks : Finset (GSem nD τ sig × ℕ × Fin 10) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun k : Fin 25 => bigSep Finset.univ fun d : Fin 10 => dutyTok ER (kcell (c, k)) 0 d

def G (c : Dev nD) : sProp 𝕄 :=
  iprop((bigSep Finset.univ fun k : Fin 25 => roundState ER (Rd m ρ) (kcell (c, k)) 0)
    ∗ (bigSep Finset.univ fun k : Fin 25 => iprop(atPos ER (kcell (c, k)) 0 ∅ 0 ∗ reached ER (kcell (c, k)) 0)) ∗ toks c)

def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe Hst' Hat' Hr' Htok'

omit [FloatOps F] in
theorem rest_perCell (c : Dev nD) (P : GSem nD τ sig → sProp 𝕄) :
    (bigSep (Finset.univ.erase (0 : Fin 25)) fun k => P (kcell (c, k))) = perCell c P := by
  have e1 : (bigSep Finset.univ fun j : Fin 8 => P (kcell (c, iS1 j))) = bigSep Finset.univ fun j : Fin 8 => P (s1Cell c j) :=
    bigSep_congr fun j _ => by show P ((c : Thread nD τ), csem (iS1 j)) = _; rw [csem_s1]
  have e2 : (bigSep Finset.univ fun k : Fin 8 => P (kcell (c, iR1 k))) = bigSep Finset.univ fun j : Fin 8 => P (r1Cell c (rOf c + j)) := by
    rw [bigSep_univ_equiv (addE (rOf c)) (fun k : Fin 8 => P (kcell (c, iR1 k)))]
    exact bigSep_congr fun j _ => by show P ((c : Thread nD τ), csem (iR1 (rOf c + j))) = _; rw [csem_r1]
  have e3 : (bigSep Finset.univ fun j : Fin 4 => P (kcell (c, iS2 j))) = bigSep Finset.univ fun j : Fin 4 => P (s2Cell c j) :=
    bigSep_congr fun j _ => by show P ((c : Thread nD τ), csem (iS2 j)) = _; rw [csem_s2]
  have e4 : (bigSep Finset.univ fun k : Fin 4 => P (kcell (c, iR2 k))) = bigSep Finset.univ fun j : Fin 4 => P (r2Cell c (zOf c + j)) := by
    rw [bigSep_univ_equiv (addE (zOf c)) (fun k : Fin 4 => P (kcell (c, iR2 k)))]
    exact bigSep_congr fun j _ => by show P ((c : Thread nD τ), csem (iR2 (zOf c + j))) = _; rw [csem_r2]
  rw [bigSep_rest25 (fun k : Fin 25 => P (kcell (c, k))), e1, e2, e3, e4]
  rfl

omit [FloatOps F] in
theorem all_perCell (c : Dev nD) (P : GSem nD τ sig → sProp 𝕄) :
    (bigSep Finset.univ fun k : Fin 25 => P (kcell (c, k))) = iprop(P (barCell c) ∗ perCell c P) := by
  rw [bigSep_univ_at (fun k : Fin 25 => P (kcell (c, k))) 0, rest_perCell c P]
  rfl

omit [FloatOps F] in
theorem perCell_mono (c : Dev nD) {P Q : GSem nD τ sig → sProp 𝕄} (h : ∀ g, P g ⊢ Q g) : perCell c P ⊢ perCell c Q := by
  unfold perCell
  exact BI.sep_mono (bigSep_mono fun _ _ => h _) (BI.sep_mono (bigSep_mono fun _ _ => h _) (BI.sep_mono (bigSep_mono fun _ _ => h _) (bigSep_mono fun _ _ => h _)))

def osem (j : Fin 24) : SemLoc sig := csem j.succ

set_option maxRecDepth 4000 in
theorem ownSemFacts : Pipeline.OwnSemFacts cfg0.spec osem := by decide

set_option maxRecDepth 4000 in
theorem erase0_eq : (Finset.univ.erase (0 : Fin 25)) = Finset.univ.map (Fin.succEmb 24) := by decide

omit [FloatOps F] in
theorem ownSems0_eq (c : Dev nD) : (Pipeline.ownSems0 (Ix := Unit) (Name := ℕ) (U := UU) (Lvl := ℕ) (Val := Elt F) (τ := τ) osem c : sProp 𝕄)
    = bigSep (Finset.univ.erase (0 : Fin 25)) fun k => semVal (kcell (c, k)) 0 := by
  rw [erase0_eq, bigSep_map]; rfl

omit [FloatOps F] in
theorem ownSems0_ownZero (c : Dev nD) : (Pipeline.ownSems0 (Ix := Unit) (Name := ℕ) (U := UU) (Lvl := ℕ) (Val := Elt F) (τ := τ) osem c : sProp 𝕄) = ownZero c := by
  rw [ownSems0_eq, rest_perCell c (fun g => (semVal g 0 : sProp 𝕄))]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, bigSep_univ_at (fun k : Fin 25 => (semVal (kcell (c, k)) 0 : sProp 𝕄)) 0]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 25 => iprop(∃ κ : ℕ, cellInv ER (Rd m ρ) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [$Hos $Hus]
  imod (show iprop((bigSep Finset.univ fun k : Fin 25 => semVal (kcell (c, k)) 0) ∗ bigSep Finset.univ fun k : Fin 25 => roundState ER (Rd m ρ) (kcell (c, k)) 0)
      ⊢ (|={Set.univ}=> bigSep Finset.univ fun k : Fin 25 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [$Hv $Hst] with Hinv
  imodintro
  iframe Hinv Hat Htok

def peerE (d : Fin 10) : Dev nD ≃ Dev nD := if d.val < 7 then rowE (rowOff d) else colE (colOff d)

theorem peerE_apply (d : Fin 10) (c : Dev nD) : peerE d c = peerOf d c := by
  unfold peerE peerOf
  by_cases h : d.val < 7
  · rw [if_pos h, if_pos h]; rfl
  · rw [if_neg h, if_neg h]; rfl

omit [FloatOps F] in
theorem toks_sel (c : Dev nD) : (toks c : sProp 𝕄)
    ⊢ iprop((bigSep Finset.univ fun d : Fin 10 => dutyTok ER (barCell c) 0 d) ∗ perCell c fun g => dutyTok ER g 0 0) := by
  unfold toks
  rw [all_perCell c (fun g => (bigSep Finset.univ fun d : Fin 10 => dutyTok ER g 0 d : sProp 𝕄))]
  exact sep_mono_right (perCell_mono c fun g => bigSep_elim (Finset.mem_univ (0 : Fin 10)))

omit [FloatOps F] in
theorem deal_bar :
    (bigSep Finset.univ fun c : Dev nD => bigSep Finset.univ fun d : Fin 10 => (dutyTok ER (barCell c) 0 d : sProp 𝕄))
      ⊢ bigSep Finset.univ fun c : Dev nD => bigSep Finset.univ fun d : Fin 10 => dutyTok ER (barCell (peerOf d c)) 0 d := by
  have s2 : (bigSep Finset.univ fun d : Fin 10 => bigSep Finset.univ fun c : Dev nD => (dutyTok ER (barCell c) 0 d : sProp 𝕄))
      = bigSep Finset.univ fun d : Fin 10 => bigSep Finset.univ fun c : Dev nD => dutyTok ER (barCell (peerOf d c)) 0 d :=
    bigSep_congr fun d _ => (bigSep_univ_equiv (peerE d) (fun c : Dev nD => (dutyTok ER (barCell c) 0 d : sProp 𝕄))).trans
      (bigSep_congr fun c _ => by show (dutyTok ER (barCell (peerE d c)) 0 d : sProp 𝕄) = _; rw [peerE_apply])
  exact Entails.of_eq (((bigSep_swap (fun (c : Dev nD) (d : Fin 10) => (dutyTok ER (barCell c) 0 d : sProp 𝕄))).trans s2).trans
    (bigSep_swap (fun (d : Fin 10) (c : Dev nD) => (dutyTok ER (barCell (peerOf d c)) 0 d : sProp 𝕄))))

theorem rOf_rowE (j : Fin 8) (c : Dev nD) : rOf (rowE j c) = rOf c + j := rOf_rowPeer j c
theorem zOf_colE (j : Fin 4) (c : Dev nD) : zOf (colE j c) = zOf c + j := zOf_colPeer j c

omit [FloatOps F] in
theorem ent_trans {P Q R : sProp 𝕄} (h1 : P ⊢ Q) (h2 : Q ⊢ R) : P ⊢ R := h1.trans h2

omit [FloatOps F] in
theorem toks_around : (bigSep Finset.univ fun c : Dev nD => (toks c : sProp 𝕄)) ⊢ bigSep Finset.univ fun c : Dev nD => payToks c := by
  refine ent_trans (bigSep_mono fun c _ => toks_sel (F := F) c) ?_
  unfold perCell payToks
  rw [bigSep_sep', bigSep_sep', bigSep_sep', bigSep_sep', bigSep_sep', bigSep_sep']
  iintro ⟨HB, HS1, HR1, HS2, HR2⟩
  ihave HB' := (deal_bar (F := F)) $$ HB
  ihave HR1' := (deal_recv rowE rOf rOf_rowE (fun (c : Dev nD) (k : Fin 8) => dutyTok ER (r1Cell c k) 0 0)) $$ HR1
  ihave HR2' := (deal_recv colE zOf zOf_colE (fun (c : Dev nD) (k : Fin 4) => dutyTok ER (r2Cell c k) 0 0)) $$ HR2
  iframe HB'
  isplitl [HS1 HR1']
  · iapply (pair_up (0 : Fin 8) (fun (c : Dev nD) (j : Fin 8) => dutyTok ER (s1Cell c j) 0 0)
      (fun (c : Dev nD) (j : Fin 8) => dutyTok ER (r1Cell (rowPeer j c) (rOf c)) 0 0))
    iframe HS1
    iexact HR1'
  · iapply (pair_up (0 : Fin 4) (fun (c : Dev nD) (j : Fin 4) => dutyTok ER (s2Cell c j) 0 0)
      (fun (c : Dev nD) (j : Fin 4) => dutyTok ER (r2Cell (colPeer j c) (zOf c)) 0 0))
    iframe HS2
    iexact HR2'

omit [FloatOps F] in
theorem positions_eq (c : Dev nD) : (bigSep Finset.univ fun k : Fin 25 => (atPos ER (kcell (c, k)) 0 ∅ 0 : sProp 𝕄)) = positions c := by
  rw [all_perCell c (fun g => (atPos ER g 0 ∅ 0 : sProp 𝕄))]; rfl

theorem ghost_intro (K : Dev nD × Fin 25 → ℕ) (c : Dev nD) : iprop(records m ρ K ∗ positions c ∗ payToks c) ⊢ G' m ρ c := by
  unfold G' ghost
  iintro H
  iexists K
  iexact H

theorem regroup :
    (bigSep Finset.univ fun c : Dev nD => iprop((bigSep Finset.univ fun k : Fin 25 => iprop(∃ κ : ℕ, cellInv ER (Rd m ρ) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 25 => iprop(∃ κ : ℕ, cellInv ER (Rd m ρ) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]
    · iapply (Entails.of_eq (bigSep_congr (s := Finset.univ) fun (c : Dev nD) _ => positions_eq (F := F) c)); iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdeal.Proto

end
-- ==== Proof.LaunchCred.lean ====
/- Summed over the payers, each device is credited exactly what its peers owe it. -/
import proofs.«900604_g7700000000000605_dist_softmax_colshard_i_m512_n256_v7x_i32_f32_1_alg».proof.Proof.Data
import proofs.«900604_g7700000000000605_dist_softmax_colshard_i_m512_n256_v7x_i32_f32_1_alg».proof.Proof.LaunchAux

noncomputable section

namespace Cert.KernelIdeal.Proto

open Idealize.ShloMosaic
open Idealize.SL.BI
open Idealize.SL.BI.BIBase

variable {F : FTy → Type} [FloatOps F]

local notation "𝕄" => MT nD τ sig Unit (Elt F) ℕ UU ℕ

variable (m : (ℓ : Loc nD τ sig) → Buf (Elt F) ℓ) (ρ : Dev nD → PrngReg)

def lcBarR (i : Fin 8) (c : Dev nD) : sProp 𝕄 := Pipeline.launchCred (fun d => tallyAt (barCell (rowPeer i d)) () 1) c
def lcBarC (i : Fin 4) (c : Dev nD) : sProp 𝕄 := Pipeline.launchCred (fun d => tallyAt (barCell (colPeer i d)) () 1) c
def lcR1 (i : Fin 8) (c : Dev nD) : sProp 𝕄 := Pipeline.launchCred (fun d => tallyAt (r1Cell (rowPeer i d) (rOf d)) () N1) c
def lcR2 (i : Fin 4) (c : Dev nD) : sProp 𝕄 := Pipeline.launchCred (fun d => tallyAt (r2Cell (colPeer i d) (zOf d)) () N2) c

omit [FloatOps F] in
theorem lcBarR_elim (i : Fin 8) (c : Dev nD) : (lcBarR i c : sProp 𝕄) ⊢ cred (tallyAt (barCell c) () 1) :=
  Pipeline.launchCred_tallyAt (.reg barS) (rowPeer i) (rowPeer (-i)) (rowE i).right_inv (rowPeer_neg i) () 1 c
omit [FloatOps F] in
theorem lcBarC_elim (i : Fin 4) (c : Dev nD) : (lcBarC i c : sProp 𝕄) ⊢ cred (tallyAt (barCell c) () 1) :=
  Pipeline.launchCred_tallyAt (.reg barS) (colPeer i) (colPeer (-i)) (colE i).right_inv (colPeer_neg i) () 1 c

omit [FloatOps F] in
theorem lcR1_elim (j : Fin 8) (c : Dev nD) : (lcR1 (-j) c : sProp 𝕄) ⊢ cred (tallyAt (r1Cell c (rOf c + j)) () N1) := by
  have h := launchCred_at (Val := Elt F) (Name := ℕ) (U := UU) (Lvl := ℕ) (τ := τ) (fun d : Dev nD => (SemLoc.dma (r1q (rOf d)) : SemLoc sig))
    (rowPeer (-j)) (rowPeer (- -j)) (rowE (-j)).right_inv (rowPeer_neg (-j)) () N1 c
  rw [rOf_rowPeer, neg_neg] at h
  exact h
omit [FloatOps F] in
theorem lcR2_elim (j : Fin 4) (c : Dev nD) : (lcR2 (-j) c : sProp 𝕄) ⊢ cred (tallyAt (r2Cell c (zOf c + j)) () N2) := by
  have h := launchCred_at (Val := Elt F) (Name := ℕ) (U := UU) (Lvl := ℕ) (τ := τ) (fun d : Dev nD => (SemLoc.dma (r2q (zOf d)) : SemLoc sig))
    (colPeer (-j)) (colPeer (- -j)) (colE (-j)).right_inv (colPeer_neg (-j)) () N2 c
  rw [zOf_colPeer, neg_neg] at h
  exact h

omit [FloatOps F] in
theorem cred_succ (g : GSem nD τ sig) (n : ℕ) : iprop(cred (tallyAt g () 1) ∗ cred (tallyAt g () n)) ⊢ (cred (tallyAt g () (n + 1)) : sProp 𝕄) :=
  (cred_add _ _).2.trans (Entails.of_eq (by rw [tallyAt_add, Nat.add_comm 1 n]))

set_option maxRecDepth 4000 in
theorem creds_intro (c : Dev nD) : (Pipeline.launchCred (fun d => Oa d 0) c : sProp 𝕄) ⊢ creds c := by
  refine (show (Pipeline.launchCred (fun d => Oa d 0) c : sProp 𝕄) ⊢
      iprop(lcBarR 1 c ∗ lcBarR 2 c ∗ lcBarR 3 c ∗ lcBarR 4 c ∗ lcBarR 5 c ∗ lcBarR 6 c ∗ lcBarR 7 c ∗ lcBarC 1 c ∗ lcBarC 2 c ∗ lcBarC 3 c ∗ lcR1 1 c ∗ lcR1 2 c ∗ lcR1 3 c ∗ lcR1 4 c ∗ lcR1 5 c ∗ lcR1 6 c ∗ lcR1 7 c ∗ lcR2 1 c ∗ lcR2 2 c ∗ lcR2 3 c)
    from launchCred_owedOf (Val := Elt F) (Name := ℕ) (U := UU) (Lvl := ℕ) payFns c).trans ?_
  unfold creds
  rw [bigSep_erase8, bigSep_erase4]
  iintro ⟨B1, B2, B3, B4, B5, B6, B7, C1, C2, C3, R1, R2, R3, R4, R5, R6, R7, Q1, Q2, Q3⟩
  ihave A1 := (lcBarR_elim (F := F) 1 c) $$ B1
  ihave U2 := (lcBarR_elim (F := F) 2 c) $$ B2
  ihave A2 := (cred_succ (F := F) (barCell c) 1) $$ [$U2 $A1]
  ihave U3 := (lcBarR_elim (F := F) 3 c) $$ B3
  ihave A3 := (cred_succ (F := F) (barCell c) 2) $$ [$U3 $A2]
  ihave U4 := (lcBarR_elim (F := F) 4 c) $$ B4
  ihave A4 := (cred_succ (F := F) (barCell c) 3) $$ [$U4 $A3]
  ihave U5 := (lcBarR_elim (F := F) 5 c) $$ B5
  ihave A5 := (cred_succ (F := F) (barCell c) 4) $$ [$U5 $A4]
  ihave U6 := (lcBarR_elim (F := F) 6 c) $$ B6
  ihave A6 := (cred_succ (F := F) (barCell c) 5) $$ [$U6 $A5]
  ihave U7 := (lcBarR_elim (F := F) 7 c) $$ B7
  ihave A7 := (cred_succ (F := F) (barCell c) 6) $$ [$U7 $A6]
  ihave U8 := (lcBarC_elim (F := F) 1 c) $$ C1
  ihave A8 := (cred_succ (F := F) (barCell c) 7) $$ [$U8 $A7]
  ihave U9 := (lcBarC_elim (F := F) 2 c) $$ C2
  ihave A9 := (cred_succ (F := F) (barCell c) 8) $$ [$U9 $A8]
  ihave U10 := (lcBarC_elim (F := F) 3 c) $$ C3
  ihave A10 := (cred_succ (F := F) (barCell c) 9) $$ [$U10 $A9]
  isplitl [A10]; · iexact A10
  isplitl [R1 R2 R3 R4 R5 R6 R7]
  · isplitl [R7]; · iapply (lcR1_elim (F := F) 1 c); iexact R7
    isplitl [R6]; · iapply (lcR1_elim (F := F) 2 c); iexact R6
    isplitl [R5]; · iapply (lcR1_elim (F := F) 3 c); iexact R5
    isplitl [R4]; · iapply (lcR1_elim (F := F) 4 c); iexact R4
    isplitl [R3]; · iapply (lcR1_elim (F := F) 5 c); iexact R3
    isplitl [R2]; · iapply (lcR1_elim (F := F) 6 c); iexact R2
    iapply (lcR1_elim (F := F) 7 c); iexact R1
  isplitl [Q3]; · iapply (lcR2_elim (F := F) 1 c); iexact Q3
  isplitl [Q2]; · iapply (lcR2_elim (F := F) 2 c); iexact Q2
  iapply (lcR2_elim (F := F) 3 c); iexact Q1

end Cert.KernelIdeal.Proto

end
-- ==== Proof.Launch.lean ====
/- From every device's body to the run of the whole mesh. -/
import proofs.«900604_g7700000000000605_dist_softmax_colshard_i_m512_n256_v7x_i32_f32_1_alg».proof.Proof.LaunchFund
import proofs.«900604_g7700000000000605_dist_softmax_colshard_i_m512_n256_v7x_i32_f32_1_alg».proof.Proof.LaunchCred

noncomputable section

namespace Cert.KernelIdeal.Proto

open Cert.KernelIdeal.Gen

open Idealize.ShloMosaic
open Idealize.ShloMosaic.TcCoe
open Idealize.SL.RA Idealize.SL.BI
open Idealize.SL.BI.BIBase
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Oa d 0) c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  iframe HG Hc Hlev

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  iframe Hs Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_ownZero]
  unfold Φ₁ scratch
  iintro ⟨Hr, Hz⟩
  iframe Hz Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> first | exact kind_stage0 | exact kind_stage1) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := fun d => Oa d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_out (c : Dev nD) : finalA m ρ c (1 : Fin 2) = (outC m ρ c : (main_v1 : Ref sig .tc).ty.Contents (Elt F)) := by
  have h := (dats (F := F) m ρ 0 c).arrAt_succ (1 : Fin 2) t₀
  rw [if_pos (flush0_1 t₀)] at h
  refine Eq.trans (show finalA m ρ c (1 : Fin 2) = (dats (F := F) m ρ 0 c).arrAt (1 : Fin 2) (t₀.val + 1) from rfl) (h.trans ?_)
  exact Memref.write_access_unit_zero_univ (Elt F) main_v1 (by funext a; exact Nat.zero_mul _) _ _ _

/-- info: 'Cert.KernelIdeal.Proto.run_main' depends on axioms: [propext, Classical.choice, Quot.sound] -/
#guard_msgs in #print axioms run_main

/-- info: 'Cert.KernelIdeal.Proto.finalA_out' depends on axioms: [propext, Classical.choice, Quot.sound] -/
#guard_msgs in #print axioms finalA_out

end Cert.KernelIdeal.Proto

end
-- ==== Proof.Glue.lean ====
/- The run stated over the devices' input arrays. -/
import proofs.«900604_g7700000000000605_dist_softmax_colshard_i_m512_n256_v7x_i32_f32_1_alg».proof.Proof.Launch

noncomputable section

namespace Cert.KernelIdeal.Proto

open Cert.KernelIdeal.Spec

open Idealize.ShloMosaic
open Idealize.ShloMosaic.TcCoe
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem xstg_eq (c : Dev nD) : xstg m ρ c = m ((c : Thread nD τ).loc main_arg0) :=
  Memref.read_access_unit_zero (Elt F) main_arg0 (by funext a; exact Nat.zero_mul _) _ _

theorem X_eq : X m ρ = fun c' : Dev nD => m ((c' : Thread nD τ).loc main_arg0) := funext (xstg_eq m ρ)

theorem krun_of (hbody : ∀ c : Dev nD, BodyObligation (dats (F := F) m ρ 0 c) (defs₀ (F := F)) 𝒱₀ () Set.univ) : θ_run (defs (F := F)) (onTc (τ := τ) (main (F := F))) ⟨m, fun _ => 0, ρ⟩ (fun r => ∀ c : Dev nD,
      r.2.mem ((c.tc : Thread nD τ).loc main_v1)
          = Spec.outAt (fun c' : Dev nD => m ((c'.tc : Thread nD τ).loc main_arg0)) c
        ∧ r.2.mem ((c.tc : Thread nD τ).loc main_arg0) = m ((c.tc : Thread nD τ).loc main_arg0)) := by
  refine (θ_run defs _ _).mono (fun r h c => ?_) (run_main m ρ hbody)
  refine ⟨?_, ?_⟩
  · refine (h c (1 : Fin 2)).trans ?_
    refine (finalA_out m ρ c).trans ?_
    show outAt (X m ρ) c = _
    rw [X_eq]
  · exact (h c (0 : Fin 2)).trans (finalA_x m ρ c)

/-- info: 'Cert.KernelIdeal.Proto.krun_of' depends on axioms: [propext, Classical.choice, Quot.sound] -/
#guard_msgs in #print axioms krun_of

end Cert.KernelIdeal.Proto

end
-- ==== Proof.Steps.lean ====
/- One lemma per kind of signal and of wait, at a symbolic device. -/
import proofs.«900604_g7700000000000605_dist_softmax_colshard_i_m512_n256_v7x_i32_f32_1_alg».proof.Proof.Data

noncomputable section

namespace Cert.KernelIdeal.Proto

open Idealize.ShloMosaic
open Idealize.ShloMosaic.TcCoe
open Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

theorem inv_at' (ck : Dev nD × Fin 25) :
    (bigSep Finset.univ fun ck : Dev nD × Fin 25 => (cellInv ER (Rd m ρ) (K ck) (kcell ck) : sProp 𝕄)) ⊢ cellInv ER (Rd m ρ) (K ck) (kcell ck) :=
  bigSep_elim (Finset.mem_univ ck)
theorem reached_at' (ck : Dev nD × Fin 25) :
    (bigSep Finset.univ fun ck : Dev nD × Fin 25 => (reached ER (kcell ck) 0 : sProp 𝕄)) ⊢ reached ER (kcell ck) 0 :=
  bigSep_elim (Finset.mem_univ ck)

theorem inv_of (c : Dev nD) {i : Fin 25} {sm : SemLoc sig} (h : csem i = sm) :
    records m ρ K ⊢ cellInv ER (Rd m ρ) (K (c, i)) ((c : Thread nD τ), sm) := by
  subst h; unfold records; iintro ⟨HI, -⟩; iapply (inv_at' m ρ K (c, i)); iexact HI
theorem reached_of (c : Dev nD) {i : Fin 25} {sm : SemLoc sig} (h : csem i = sm) :
    records m ρ K ⊢ reached ER ((c : Thread nD τ), sm) 0 := by
  subst h; unfold records; iintro ⟨-, HR⟩; iapply (reached_at' (F := F) (c, i)); iexact HR

theorem barPay_row (c : Dev nD) (j : Fin 8) (d : Fin 10) (hd : d.val < 7) (hoff : rowOff d = j) :
    (barPay (rowPeer j c) d : sProp 𝕄) = iprop((∃ f, pt1 c (rOf c + j) fullShare f) ∗ reached ER (r1Cell c (rOf c + j)) 0) := by
  unfold barPay rowSlot; rw [if_pos hd, hoff, rowPeer_neg, rOf_rowPeer]
theorem barPay_col (c : Dev nD) (j : Fin 4) (d : Fin 10) (hd : ¬ d.val < 7) (hoff : colOff d = j) :
    (barPay (colPeer j c) d : sProp 𝕄) = iprop((∃ f, pt2 c (zOf c + j) fullShare f) ∗ reached ER (r2Cell c (zOf c + j)) 0) := by
  unfold barPay colSlot; rw [if_neg hd, hoff, colPeer_neg, zOf_colPeer]

theorem sig_row (c : Dev nD) (j : Fin 8) (d : Fin 10) (hd : d.val < 7) (hoff : rowOff d = j) {n : Dev nD} (hn : n = rowPeer j c)
    {α : Type} {Q : α → sProp 𝕄} {k : PUnit → Prog (TpuEff nD τ sig (Elt F) Λ₀ .tc) α}
    (O₀ O : CellTallies nD τ sig Unit) (hO : O₀ = O + tallyAt (barCell (rowPeer j c)) () 1) (W : Waits sig Unit)
    (f : Buf (Elt F) ((c : Thread nD τ).loc cc0_scratch0)) :
    iprop(records m ρ K ∗ owes (c : Thread nD τ) O₀ W ∗ dutyTok ER (barCell (rowPeer j c)) 0 d ∗ pt1 c (rOf c + j) fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toNat) k) Q) := by
  subst hn
  iintro ⟨#HR, HO, Htok, Hslot⟩
  iapply (Rounds.wp_signal 𝒱₀ ER (Rd m ρ) (c : Thread nD τ) none (dst := (rowPeer j c : Thread nD τ)) (κ := K (rowPeer j c, 0)) (d := d)
      (by rw [duties_bar]; exact Finset.mem_univ _) ((amount_bar m ρ (rowPeer j c) d).trans (by decide)) () O hO)
  iframe HO Htok
  isplitr; · iapply (inv_of m ρ K (rowPeer j c) csem_bar); iexact HR
  isplitl
  · rw [payload_bar, barPay_row c j d hd hoff]
    isplitl; · iexists f; iexact Hslot
    iapply (reached_of m ρ K c (csem_r1 (rOf c + j))); iexact HR
  · iapply (reached_of m ρ K (rowPeer j c) csem_bar); iexact HR

theorem sig_col (c : Dev nD) (j : Fin 4) (d : Fin 10) (hd : ¬ d.val < 7) (hoff : colOff d = j) {n : Dev nD} (hn : n = colPeer j c)
    {α : Type} {Q : α → sProp 𝕄} {k : PUnit → Prog (TpuEff nD τ sig (Elt F) Λ₀ .tc) α}
    (O₀ O : CellTallies nD τ sig Unit) (hO : O₀ = O + tallyAt (barCell (colPeer j c)) () 1) (W : Waits sig Unit)
    (f : Buf (Elt F) ((c : Thread nD τ).loc cc0_scratch1)) :
    iprop(records m ρ K ∗ owes (c : Thread nD τ) O₀ W ∗ dutyTok ER (barCell (colPeer j c)) 0 d ∗ pt2 c (zOf c + j) fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toNat) k) Q) := by
  subst hn
  iintro ⟨#HR, HO, Htok, Hslot⟩
  iapply (Rounds.wp_signal 𝒱₀ ER (Rd m ρ) (c : Thread nD τ) none (dst := (colPeer j c : Thread nD τ)) (κ := K (colPeer j c, 0)) (d := d)
      (by rw [duties_bar]; exact Finset.mem_univ _) ((amount_bar m ρ (colPeer j c) d).trans (by decide)) () O hO)
  iframe HO Htok
  isplitr; · iapply (inv_of m ρ K (colPeer j c) csem_bar); iexact HR
  isplitl
  · rw [payload_bar, barPay_col c j d hd hoff]
    isplitl; · iexists f; iexact Hslot
    iapply (reached_of m ρ K c (csem_r2 (zOf c + j))); iexact HR
  · iapply (reached_of m ρ K (colPeer j c) csem_bar); iexact HR

theorem wait_bar (c : Dev nD) {α : Type} {Q : α → sProp 𝕄} {k : PUnit → Prog (TpuEff nD τ sig (Elt F) Λ₀ .tc) α} (W : Waits sig Unit) :
    iprop(records m ρ K ∗ levAts L lv ∗ cred (tallyAt (barCell c) () 10) ∗ owes (c : Thread nD τ) (Oa c 10) W ∗ atPos ER (barCell c) 0 ∅ 0)
      ⊢ iprop(((owes (c : Thread nD τ) (Oa c 10) (insert (SemLoc.reg barS, ()) W) ∗ atPos ER (barCell c) 1 ∅ 0
              ∗ rowSlot c 7 ∗ rowSlot c 6 ∗ rowSlot c 5 ∗ rowSlot c 4 ∗ rowSlot c 3 ∗ rowSlot c 2 ∗ rowSlot c 1 ∗ colSlot c 3 ∗ colSlot c 2 ∗ colSlot c 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (10#32 : BitVec 32).toNat) k) Q) := by
  iintro ⟨#HR, #Hlev, Hc, HO, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := Oa c 10) (W := W) (R := 0) (m := 0) (T := ∅)
      (by rw [expect_bar]; decide)) $$ [Hc HO Hat]
  · isplitr; · iapply (inv_of m ρ K c csem_bar); iexact HR
    isplitl [Hc]; · iexact Hc
    iframe HO Hat
    iapply (mayWait_bar c); iexact Hlev
  iintro ⟨HO, Hat, -, Hpay⟩
  ihave Hp := (Entails.of_eq (rest_bar m ρ c)) $$ Hpay
  iapply Hk
  iframe HO Hat Hp

/-- What a wait knows of one of device `c`'s own DMA cells: its one round has the one duty `0`, of amount `N`, handing over `P`,
    and the device may wait on it while owing `O`. -/
structure DmaWait (c : Dev nD) (i : Fin 25) (q : DmaSem sig) (N : ℕ) (P : sProp 𝕄) (O : CellTallies nD τ sig Unit) : Prop where
  hq : csem i = .dma q
  hdut : (Rd (F := F) m ρ).duties ((c : Thread nD τ), .dma q) 0 = {0}
  hamt : (Rd (F := F) m ρ).amount ((c : Thread nD τ), .dma q) 0 0 = N
  hpay : (Rd (F := F) m ρ).payload ((c : Thread nD τ), .dma q) 0 0 = P
  hmw : (levAts L lv : sProp 𝕄) ⊢ MayWait (c : Thread nD τ) (.dma q) () O

/-- The wait takes the cell's whole round and brings its payload. -/
theorem wait_dma {c : Dev nD} {i : Fin 25} {q : DmaSem sig} {N : ℕ} {P : sProp 𝕄} {O : CellTallies nD τ sig Unit} (h : DmaWait m ρ c i q N P O)
    {q' : DmaSem sig} (hq' : q' = q)
    {src dst : Memref sig .tc .vmem S2x512 .f32} (hc : dst.view.dmaCredit = N) {hsrc : src.view.WordExact} {hdst : dst.view.WordExact}
    {α : Type} {Q : α → sProp 𝕄} {k : PUnit → Prog (TpuEff nD τ sig (Elt F) Λ₀ .tc) α} (W : Waits sig Unit) :
    iprop(records m ρ K ∗ levAts L lv ∗ cred (tallyAt ((c : Thread nD τ), .dma q) () N) ∗ owes (c : Thread nD τ) O W
        ∗ atPos ER ((c : Thread nD τ), .dma q) 0 ∅ 0)
      ⊢ iprop(((owes (c : Thread nD τ) O (insert (SemLoc.dma q, ()) W) ∗ atPos ER ((c : Thread nD τ), .dma q) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  subst hq'; subst hc
  iintro ⟨#HR, #Hlev, Hc, HO, Hat⟩ Hk
  iapply (Rounds.wp_wait_rest_token 𝒱₀ ER (Rd m ρ) (c : Thread nD τ) none (κ := K (c, i))
      (wpE_waitDma2_eq 𝒱₀ (c : Thread nD τ) none Set.univ) (Set.mem_univ _) () (O := O) (W := W) (R := 0) (m := 0) (T := ∅)
      (by unfold Schedule.expect Schedule.amountOf; rw [h.hdut, Finset.sum_singleton, h.hamt, Nat.zero_add])) $$ [Hc HO Hat]
  · isplitr; · iapply (inv_of m ρ K c h.hq); iexact HR
    isplitl [Hc]; · iexact Hc
    iframe HO Hat
    iapply h.hmw; iexact Hlev
  iintro ⟨HO, Hat, -, Hpay⟩
  have hE : bigSep ((Rd (F := F) m ρ).duties ((c : Thread nD τ), SemLoc.dma q') 0 \ ∅) (fun d => (Rd (F := F) m ρ).payload ((c : Thread nD τ), SemLoc.dma q') 0 d) = P := by
    rw [Finset.sdiff_empty, h.hdut, bigSep_singleton, h.hpay]
  ihave Hp := (Entails.of_eq hE) $$ Hpay
  iapply Hk
  iframe HO Hat Hp

/-- The four kinds of DMA cell a device waits on: a landing of either exchange, and the read-out of one of its own copies. -/
theorem r1Wait (c : Dev nD) (j : Fin 8) (hj : j ≠ 0) :
    DmaWait m ρ c (iR1 (rOf c + j)) (r1q (rOf c + j)) N1 (pt1 c (rOf c + j) fullShare (g1At m ρ c)) (Oa c 17) :=
  ⟨csem_r1 _, duties_r1 m ρ c fun h => hj (by simpa using h), amount_r1 m ρ c _ 0, payload_r1 m ρ c _ 0, mayWait_r1 c _⟩
theorem r2Wait (c : Dev nD) (j : Fin 4) (hj : j ≠ 0) :
    DmaWait m ρ c (iR2 (zOf c + j)) (r2q (zOf c + j)) N2 (pt2 c (zOf c + j) fullShare (g2At m ρ c)) (Oa c 20) :=
  ⟨csem_r2 _, duties_r2 m ρ c fun h => hj (by simpa using h), amount_r2 m ρ c _ 0, payload_r2 m ρ c _ 0, mayWait_done c _⟩
theorem s1Wait (c : Dev nD) (j : Fin 8) (hj : j ≠ 0) :
    DmaWait m ρ c (iS1 j) (s1q j) N1 (pt1 c (rOf c) (sendQ1 j) (g1At m ρ c)) (Oa c 20) :=
  ⟨csem_s1 _, duties_s1 m ρ c hj, amount_s1 m ρ c _ 0, payload_s1 m ρ c _ 0, mayWait_done c _⟩
theorem s2Wait (c : Dev nD) (j : Fin 4) (hj : j ≠ 0) :
    DmaWait m ρ c (iS2 j) (s2q j) N2 (pt2 c (zOf c) (sendQ2 j) (g2At m ρ c)) (Oa c 20) :=
  ⟨csem_s2 _, duties_s2 m ρ c hj, amount_s2 m ρ c _ 0, payload_s2 m ρ c _ 0, mayWait_done c _⟩

end Cert.KernelIdeal.Proto

end
-- ==== Proof.Steps2.lean ====
/- A copy between peers leaves in the receiver's slot exactly the receiver's final contents there. -/
import proofs.«900604_g7700000000000605_dist_softmax_colshard_i_m512_n256_v7x_i32_f32_1_alg».proof.Proof.Steps

noncomputable section

namespace Cert.KernelIdeal.Proto

open Cert.KernelIdeal.Spec

open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

theorem g1At_row (c : Dev nD) (j : Fin 8) : (g1At m ρ (rowPeer j c) : Vec F S8x2x512 .f32) = g1At m ρ c := by
  funext i; show G1 (X m ρ) (rowPeer j c) i = G1 (X m ρ) c i; unfold G1; rw [zOf_rowPeer]
theorem g2At_col (c : Dev nD) (j : Fin 4) : (g2At m ρ (colPeer j c) : Vec F S4x2x512 .f32) = g2At m ρ c := by
  funext i; show G2 (X m ρ) (colPeer j c) i = G2 (X m ρ) c i; unfold G2; rw [rOf_colPeer]

theorem send1 (c : Dev nD) (j : Fin 8) (hj : j ≠ 0) {n : Dev nD} (hn : n = rowPeer j c)
    {qs qr : DmaSem sig} (hqs : qs = s1q j) (hqr : qr = r1q (rOf c))
    {src : Memref sig .tc .vmem S2x512 .f32} {dst : Memref sig (Dev.tc n : Thread nD τ).2.kind .vmem S2x512 .f32}
    (hs : src = slot1 (rOf c)) (hd : dst = slot1 (rOf c))
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α}
    (fn : Buf (Elt F) ((rowPeer j c : Thread nD τ).loc cc0_scratch0))
    (O₀ O : CellTallies nD τ sig Unit) (hO : O₀ = O + tallyAt (r1Cell (rowPeer j c) (rOf c)) () N1) (W : Waits sig Unit) :
    iprop(records m ρ K ∗ pt1 c (rOf c) (sendQ1 j) (g1At m ρ c) ∗ pt1 (rowPeer j c) (rOf c) fullShare fn
        ∗ owes (c : Thread nD τ) O₀ W ∗ dutyTok ER (s1Cell c j) 0 0 ∗ dutyTok ER (r1Cell (rowPeer j c) (rOf c)) 0 0)
      ⊢ iprop(((cred (tallyAt (s1Cell c j) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn; subst hqs; subst hqr; subst hs; subst hd
  iintro ⟨#HR, Hsrc, Hdst, HO, Ht1, Ht2⟩
  unfold pt1
  iapply (Rounds.wp_send_pointsTo 𝒱₀ ER (Rd m ρ) (c : Thread nD τ) none (c' := (rowPeer j c : Thread nD τ))
      (src := slot1 (rOf c)) (dst := slot1 (rOf c)) (q := sendQ1 j) (fs := g1At m ρ c)
      (κ₁ := K (c, iS1 j)) (κ₂ := K (rowPeer j c, iR1 (rOf c)))
      (r₁ := 0) (r₂ := 0) (d₁ := 0) (d₂ := 0) (fd := fn)
      (by rw [duties_s1 m ρ c hj]; exact Finset.mem_singleton_self _)
      (by rw [duties_r1 m ρ (rowPeer j c) (fun h => rOf_rowPeer_ne hj c h.symm)]; exact Finset.mem_singleton_self _)
      () () N1 rfl (amount_s1 m ρ c j 0) (amount_r1 m ρ (rowPeer j c) (rOf c) 0) O hO (W := W)
      (by rw [payload_s1]; unfold s1Pay pt1; exact BI.Entails.refl _)
      (by
        rw [payload_r1]; unfold r1Pay pt1
        exact Entails.of_eq (pointsTo_congr fun i hi =>
          (write_read_self (slot1 (rOf c)).view fn (g1At m ρ c) hi).trans (congrFun (g1At_row m ρ c j).symm i))))
  iframe Hsrc Hdst HO Ht1 Ht2
  isplitr; · iapply (inv_of m ρ K c (csem_s1 j)); iexact HR
  isplitr; · iapply (inv_of m ρ K (rowPeer j c) (csem_r1 (rOf c))); iexact HR
  isplitr; · iapply (reached_of m ρ K c (csem_s1 j)); iexact HR
  iapply (reached_of m ρ K (rowPeer j c) (csem_r1 (rOf c))); iexact HR

theorem send2 (c : Dev nD) (j : Fin 4) (hj : j ≠ 0) {n : Dev nD} (hn : n = colPeer j c)
    {qs qr : DmaSem sig} (hqs : qs = s2q j) (hqr : qr = r2q (zOf c))
    {src : Memref sig .tc .vmem S2x512 .f32} {dst : Memref sig (Dev.tc n : Thread nD τ).2.kind .vmem S2x512 .f32}
    (hs : src = slot2 (zOf c)) (hd : dst = slot2 (zOf c))
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α}
    (fn : Buf (Elt F) ((colPeer j c : Thread nD τ).loc cc0_scratch1))
    (O₀ O : CellTallies nD τ sig Unit) (hO : O₀ = O + tallyAt (r2Cell (colPeer j c) (zOf c)) () N2) (W : Waits sig Unit) :
    iprop(records m ρ K ∗ pt2 c (zOf c) (sendQ2 j) (g2At m ρ c) ∗ pt2 (colPeer j c) (zOf c) fullShare fn
        ∗ owes (c : Thread nD τ) O₀ W ∗ dutyTok ER (s2Cell c j) 0 0 ∗ dutyTok ER (r2Cell (colPeer j c) (zOf c)) 0 0)
      ⊢ iprop(((cred (tallyAt (s2Cell c j) () N2) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn; subst hqs; subst hqr; subst hs; subst hd
  iintro ⟨#HR, Hsrc, Hdst, HO, Ht1, Ht2⟩
  unfold pt2
  iapply (Rounds.wp_send_pointsTo 𝒱₀ ER (Rd m ρ) (c : Thread nD τ) none (c' := (colPeer j c : Thread nD τ))
      (src := slot2 (zOf c)) (dst := slot2 (zOf c)) (q := sendQ2 j) (fs := g2At m ρ c)
      (κ₁ := K (c, iS2 j)) (κ₂ := K (colPeer j c, iR2 (zOf c)))
      (r₁ := 0) (r₂ := 0) (d₁ := 0) (d₂ := 0) (fd := fn)
      (by rw [duties_s2 m ρ c hj]; exact Finset.mem_singleton_self _)
      (by rw [duties_r2 m ρ (colPeer j c) (fun h => zOf_colPeer_ne hj c h.symm)]; exact Finset.mem_singleton_self _)
      () () N2 rfl (amount_s2 m ρ c j 0) (amount_r2 m ρ (colPeer j c) (zOf c) 0) O hO (W := W)
      (by rw [payload_s2]; unfold s2Pay pt2; exact BI.Entails.refl _)
      (by
        rw [payload_r2]; unfold r2Pay pt2
        exact Entails.of_eq (pointsTo_congr fun i hi =>
          (write_read_self (slot2 (zOf c)).view fn (g2At m ρ c) hi).trans (congrFun (g2At_col m ρ c j).symm i))))
  iframe Hsrc Hdst HO Ht1 Ht2
  isplitr; · iapply (inv_of m ρ K c (csem_s2 j)); iexact HR
  isplitr; · iapply (inv_of m ρ K (colPeer j c) (csem_r2 (zOf c))); iexact HR
  isplitr; · iapply (reached_of m ρ K c (csem_s2 j)); iexact HR
  iapply (reached_of m ρ K (colPeer j c) (csem_r2 (zOf c))); iexact HR

end Cert.KernelIdeal.Proto

end
-- ==== Proof.Regions.lean ====
/- A buffer is the disjoint union of its slots, and a slot held in full splits by share. -/
import proofs.«900604_g7700000000000605_dist_softmax_colshard_i_m512_n256_v7x_i32_f32_1_alg».proof.Proof.Data

noncomputable section

namespace Cert.KernelIdeal.Proto

open Cert.KernelIdeal.Gen Cert.KernelIdeal.Spec

open Idealize.ShloMosaic
open Idealize.ShloMosaic.TcCoe
open Idealize.SL.RA Idealize.SL.BI
open Idealize.SL.BI.BIBase

variable {F : FTy → Type} [FloatOps F]

local notation "𝕄" => MT nD τ sig Unit (Elt F) ℕ UU ℕ

variable (m : (ℓ : Loc nD τ sig) → Buf (Elt F) ℓ) (ρ : Dev nD → PrngReg)

theorem set1_disjoint {k k' : Fin 8} (h : k ≠ k') : Disjoint (set1 k) (set1 k') :=
  Finset.disjoint_left.mpr fun i hi hi' => h ((mem_set1.mp hi).symm.trans (mem_set1.mp hi'))
theorem set2_disjoint {k k' : Fin 4} (h : k ≠ k') : Disjoint (set2 k) (set2 k') :=
  Finset.disjoint_left.mpr fun i hi hi' => h ((mem_set2.mp hi).symm.trans (mem_set2.mp hi'))

theorem whole1 (c : Dev nD) (q : PosShare TreeShare) (f : Buf (Elt F) ((c : Thread nD τ).loc cc0_scratch0)) :
    ((((c : Thread nD τ).loc cc0_scratch0) ↦{q} f : sProp 𝕄)) = bigSep Finset.univ fun k : Fin 8 => pt1 c k q f := by
  rw [pointsTo_bySlots (Val := Elt F) (Ix := Unit) (Name := ℕ) (U := UU) (Lvl := ℕ) (ℓ := (c : Thread nD τ).loc cc0_scratch0) (fun k : Fin 8 => set1 k)
    (fun (i : S8x2x512.Idx) => ⟨i 0, mem_set1.mpr rfl⟩) (fun k k' h => set1_disjoint h) q f]
  exact congrArg (bigSep Finset.univ) (funext fun k => (pt1_eq c k q f).symm)

theorem whole2 (c : Dev nD) (q : PosShare TreeShare) (f : Buf (Elt F) ((c : Thread nD τ).loc cc0_scratch1)) :
    ((((c : Thread nD τ).loc cc0_scratch1) ↦{q} f : sProp 𝕄)) = bigSep Finset.univ fun k : Fin 4 => pt2 c k q f := by
  rw [pointsTo_bySlots (Val := Elt F) (Ix := Unit) (Name := ℕ) (U := UU) (Lvl := ℕ) (ℓ := (c : Thread nD τ).loc cc0_scratch1) (fun k : Fin 4 => set2 k)
    (fun (i : S4x2x512.Idx) => ⟨i 0, mem_set2.mpr rfl⟩) (fun k k' h => set2_disjoint h) q f]
  exact congrArg (bigSep Finset.univ) (funext fun k => (pt2_eq c k q f).symm)

theorem slots1 (c : Dev nD) (q : PosShare TreeShare) (f : Buf (Elt F) ((c : Thread nD τ).loc cc0_scratch0)) :
    ((((c : Thread nD τ).loc cc0_scratch0) ↦{q} f : sProp 𝕄))
      ⊣⊢ iprop(pt1 c (rOf c) q f ∗ pt1 c (rOf c + 1) q f ∗ pt1 c (rOf c + 2) q f ∗ pt1 c (rOf c + 3) q f
          ∗ pt1 c (rOf c + 4) q f ∗ pt1 c (rOf c + 5) q f ∗ pt1 c (rOf c + 6) q f ∗ pt1 c (rOf c + 7) q f) :=
  have h := (whole1 c q f).trans (bigSep_fin8_from (rOf c) fun k => pt1 c k q f)
  ⟨Entails.of_eq h, Entails.of_eq h.symm⟩

theorem slots2 (c : Dev nD) (q : PosShare TreeShare) (f : Buf (Elt F) ((c : Thread nD τ).loc cc0_scratch1)) :
    ((((c : Thread nD τ).loc cc0_scratch1) ↦{q} f : sProp 𝕄))
      ⊣⊢ iprop(pt2 c (zOf c) q f ∗ pt2 c (zOf c + 1) q f ∗ pt2 c (zOf c + 2) q f ∗ pt2 c (zOf c + 3) q f) :=
  have h := (whole2 c q f).trans (bigSep_fin4_from (zOf c) fun k => pt2 c k q f)
  ⟨Entails.of_eq h, Entails.of_eq h.symm⟩

theorem halves1 (c : Dev nD) (k : Fin 8) (f : Buf (Elt F) ((c : Thread nD τ).loc cc0_scratch0)) :
    (pt1 c k fullShare f : sProp 𝕄) ⊣⊢ iprop(pt1 c k fullShare.left f ∗ pt1 c k keepQ f) := by
  unfold pt1 keepQ
  exact pointsTo_share (PosShare.mem_left_op_right fullShare)
theorem halves2 (c : Dev nD) (k : Fin 4) (f : Buf (Elt F) ((c : Thread nD τ).loc cc0_scratch1)) :
    (pt2 c k fullShare f : sProp 𝕄) ⊣⊢ iprop(pt2 c k fullShare.left f ∗ pt2 c k keepQ f) := by
  unfold pt2 keepQ
  exact pointsTo_share (PosShare.mem_left_op_right fullShare)

theorem shares1 (c : Dev nD) (k : Fin 8) (f : Buf (Elt F) ((c : Thread nD τ).loc cc0_scratch0)) :
    (pt1 c k fullShare.left f : sProp 𝕄)
      ⊣⊢ iprop(pt1 c k (sendQ1 1) f ∗ pt1 c k (sendQ1 2) f ∗ pt1 c k (sendQ1 3) f ∗ pt1 c k (sendQ1 4) f
          ∗ pt1 c k (sendQ1 5) f ∗ pt1 c k (sendQ1 6) f ∗ pt1 c k (sendQ1 7) f) := by
  unfold pt1
  have h := pointsTo_sevenths (Val := Elt F) (Ix := Unit) (Name := ℕ) (U := UU) (Lvl := ℕ) (ℓ := (slot1 k).view.loc (c : Thread nD τ)) (slot1 k).view.set f
  exact ⟨Entails.of_eq h, Entails.of_eq h.symm⟩
theorem shares2 (c : Dev nD) (k : Fin 4) (f : Buf (Elt F) ((c : Thread nD τ).loc cc0_scratch1)) :
    (pt2 c k fullShare.left f : sProp 𝕄) ⊣⊢ iprop(pt2 c k (sendQ2 1) f ∗ pt2 c k (sendQ2 2) f ∗ pt2 c k (sendQ2 3) f) := by
  unfold pt2
  have h := pointsTo_thirds (Val := Elt F) (Ix := Unit) (Name := ℕ) (U := UU) (Lvl := ℕ) (ℓ := (slot2 k).view.loc (c : Thread nD τ)) (slot2 k).view.set f
  exact ⟨Entails.of_eq h, Entails.of_eq h.symm⟩

abbrev ownRect1 (c : Dev nD) : Rect S8x2x512 := Rect.unit (s := S8x2x512) (k0_off1 c) S1x2x512.size (k0_off1_inb c)
abbrev ownRect2 (c : Dev nD) : Rect S4x2x512 := Rect.unit (s := S4x2x512) (k0_off6 c) S1x2x512.size (k0_off6_inb c)

theorem own1_eq (c : Dev nD) : ownRect1 c = rect1 (rOf c) := Rect.unit_congr (k0_off1_eq c) _ _
theorem own2_eq (c : Dev nD) : ownRect2 c = rect2 (zOf c) := Rect.unit_congr (k0_off6_eq c) _ _

theorem access1_set (c : Dev nD) : ((View.whole cc0_scratch0).slice (ownRect1 c)).set = set1 (rOf c) := by
  rw [View.set_slice_whole, own1_eq]
theorem access2_set (c : Dev nD) : ((View.whole cc0_scratch1).slice (ownRect2 c)).set = set2 (zOf c) := by
  rw [View.set_slice_whole, own2_eq]

theorem load1_sub (c : Dev nD) : (g1M : Memref sig .tc .vmem S8x2x512 .f32).view.setOn (ownRect1 c).toLoadRect.set ⊆ (slot1 (rOf c)).view.set := by
  intro i hi
  obtain ⟨a, ha, rfl⟩ := Finset.mem_map.mp hi
  rw [own1_eq] at ha
  rw [slot1_set]
  exact ha
theorem load2_sub (c : Dev nD) : (g2M : Memref sig .tc .vmem S4x2x512 .f32).view.setOn (ownRect2 c).toLoadRect.set ⊆ (slot2 (zOf c)).view.set := by
  intro i hi
  obtain ⟨a, ha, rfl⟩ := Finset.mem_map.mp hi
  rw [own2_eq] at ha
  rw [slot2_set]
  exact ha
theorem store1_sub (c : Dev nD) : ((g1M : Memref sig .tc .vmem S8x2x512 .f32).access (ownRect1 c)).setOn Finset.univ ⊆ (slot1 (rOf c)).view.set := by
  intro i hi
  rw [slot1_set, ← access1_set c]
  exact hi
theorem store2_sub (c : Dev nD) : ((g2M : Memref sig .tc .vmem S4x2x512 .f32).access (ownRect2 c)).setOn Finset.univ ⊆ (slot2 (zOf c)).view.set := by
  intro i hi
  rw [slot2_set, ← access2_set c]
  exact hi

open Idealize.ShloMosaic.ValueIdx

theorem write_slot1 (k : Fin 8) (off : Fin 3 → Nat) (hoff : off = ![k.val, 0, 0])
    (p : ∀ a, off a + S1x2x512.size a ≤ S8x2x512.size a)
    (f : (cc0_scratch0 : Ref sig .tc).ty.Contents (Elt F)) (w : S1x2x512.Idx → F .f32) :
    ∀ i ∈ set1 k, ((g1M : Memref sig .tc .vmem S8x2x512 .f32).access (Rect.unit (s := S8x2x512) off S1x2x512.size p)).write (Elt F) f w Finset.univ i
      = w (ix3 (n0 := 1) (n1 := 2) (n2 := 512) 0 (i 1) (i 2)) := by
  subst hoff
  intro i hi
  have h0 : (i 0).val = k.val := congrArg Fin.val (mem_set1.mp hi)
  have hy : ((g1M : Memref sig .tc .vmem S8x2x512 .f32).access (Rect.unit (s := S8x2x512) ![k.val, 0, 0] S1x2x512.size p)).emb
      (ix3 (n0 := 1) (n1 := 2) (n2 := 512) 0 (i 1) (i 2)) = i := by
    funext a; apply Fin.ext
    match a with
    | ⟨0, _⟩ => show k.val + 1 * 0 = (i 0).val; omega
    | ⟨1, _⟩ => show 0 + 1 * (i 1).val = (i 1).val; omega
    | ⟨2, _⟩ => show 0 + 1 * (i 2).val = (i 2).val; omega
  conv_lhs => rw [← hy, View.write_emb_of_mem _ _ (Finset.mem_univ _)]
  rfl

theorem write_slot2 (k : Fin 4) (off : Fin 3 → Nat) (hoff : off = ![k.val, 0, 0])
    (p : ∀ a, off a + S1x2x512.size a ≤ S4x2x512.size a)
    (f : (cc0_scratch1 : Ref sig .tc).ty.Contents (Elt F)) (w : S1x2x512.Idx → F .f32) :
    ∀ i ∈ set2 k, ((g2M : Memref sig .tc .vmem S4x2x512 .f32).access (Rect.unit (s := S4x2x512) off S1x2x512.size p)).write (Elt F) f w Finset.univ i
      = w (ix3 (n0 := 1) (n1 := 2) (n2 := 512) 0 (i 1) (i 2)) := by
  subst hoff
  intro i hi
  have h0 : (i 0).val = k.val := congrArg Fin.val (mem_set2.mp hi)
  have hy : ((g2M : Memref sig .tc .vmem S4x2x512 .f32).access (Rect.unit (s := S4x2x512) ![k.val, 0, 0] S1x2x512.size p)).emb
      (ix3 (n0 := 1) (n1 := 2) (n2 := 512) 0 (i 1) (i 2)) = i := by
    funext a; apply Fin.ext
    match a with
    | ⟨0, _⟩ => show k.val + 1 * 0 = (i 0).val; omega
    | ⟨1, _⟩ => show 0 + 1 * (i 1).val = (i 1).val; omega
    | ⟨2, _⟩ => show 0 + 1 * (i 2).val = (i 2).val; omega
  conv_lhs => rw [← hy, View.write_emb_of_mem _ _ (Finset.mem_univ _)]
  rfl

theorem store1_val (c : Dev nD) (f : Buf (Elt F) ((c : Thread nD τ).loc cc0_scratch0)) :
    ∀ i ∈ (slot1 (rOf c)).view.set,
      ((g1M : Memref sig .tc .vmem S8x2x512 .f32).access (ownRect1 c)).write (Elt F) f (k0_pay4 (xstg m ρ c)) Finset.univ i = g1At m ρ c i := by
  intro i hi
  rw [slot1_set] at hi
  have h0 : i 0 = rOf c := mem_set1.mp hi
  refine (write_slot1 (rOf c) (k0_off1 c) (k0_off1_eq c) (k0_off1_inb c) f (k0_pay4 (xstg m ρ c)) i hi).trans ?_
  show k0_pay4 (xstg m ρ c) (ix3 (n0 := 1) (n1 := 2) (n2 := 512) 0 (i 1) (i 2))
      = k0_pay4 (xstg m ρ (dv (zOf c) (i 0))) (ix3 0 (i 1) (i 2))
  rw [h0, dv_zOf_rOf]

theorem store2_val (c : Dev nD) (f : Buf (Elt F) ((c : Thread nD τ).loc cc0_scratch1)) :
    ∀ i ∈ (slot2 (zOf c)).view.set,
      ((g2M : Memref sig .tc .vmem S4x2x512 .f32).access (ownRect2 c)).write (Elt F) f (k0_pay5 (g1At m ρ c)) Finset.univ i = g2At m ρ c i := by
  intro i hi
  rw [slot2_set] at hi
  have h0 : i 0 = zOf c := mem_set2.mp hi
  refine (write_slot2 (zOf c) (k0_off6 c) (k0_off6_eq c) (k0_off6_inb c) f (k0_pay5 (g1At m ρ c)) i hi).trans ?_
  show k0_pay5 (G1 (X m ρ) c) (ix3 (n0 := 1) (n1 := 2) (n2 := 512) 0 (i 1) (i 2))
      = k0_pay5 (G1 (X m ρ) (dv (i 0) (rOf c))) (ix3 0 (i 1) (i 2))
  rw [h0, dv_zOf_rOf]

end Cert.KernelIdeal.Proto

end
-- ==== Proof.Printed.lean ====
/- The slices the body takes of its semaphore arrays and of its buffers are the named semaphores and slots. -/
import proofs.«900604_g7700000000000605_dist_softmax_colshard_i_m512_n256_v7x_i32_f32_1_alg».proof.Proof.Cells

noncomputable section

namespace Cert.KernelIdeal.Proto

open Cert.KernelIdeal.Gen
open Idealize.ShloMosaic

theorem s1sem (j : Fin 8) (p : ∀ a, (![j.val] : Fin 1 → Nat) a + S1.size a ≤ S8.size a) :
    ((cc0_scratch2.slice (Rect.unit (s := S8) ![j.val] S1.size p)).squeeze S_ squeezes_S1_S_).sem = s1q j := by
  revert j; decide
theorem s2sem (j : Fin 4) (p : ∀ a, (![j.val] : Fin 1 → Nat) a + S1.size a ≤ S4.size a) :
    ((cc0_scratch4.slice (Rect.unit (s := S4) ![j.val] S1.size p)).squeeze S_ squeezes_S1_S_).sem = s2q j := by
  revert j; decide

theorem r1sem_own (c : Dev nD) :
    ((cc0_scratch3.slice (Rect.unit (s := S8) (k0_off2 c) S1.size (k0_off2_inb c))).squeeze S_ squeezes_S1_S_).sem = r1q (rOf c) := by
  revert c; decide +kernel
theorem r2sem_own (c : Dev nD) :
    ((cc0_scratch5.slice (Rect.unit (s := S4) (k0_off7 c) S1.size (k0_off7_inb c))).squeeze S_ squeezes_S1_S_).sem = r2q (zOf c) := by
  revert c; decide +kernel

theorem r1sem_recv (c : Dev nD) (r : Fin 7) :
    ((cc0_scratch3.slice (Rect.unit (s := S8) (k0_off4 c (BitVec.ofNat 32 (1 + r.val))) S1.size (k0_off4_inb c r))).squeeze S_ squeezes_S1_S_).sem
      = r1q (rOf c + ⟨7 - r.val, by omega⟩) := by
  revert c r; decide +kernel
theorem r2sem_recv (c : Dev nD) (r : Fin 3) :
    ((cc0_scratch5.slice (Rect.unit (s := S4) (k0_off9 c (BitVec.ofNat 32 (1 + r.val))) S1.size (k0_off9_inb c r))).squeeze S_ squeezes_S1_S_).sem
      = r2q (zOf c + ⟨3 - r.val, by omega⟩) := by
  revert c r; decide +kernel

theorem ownSlot1 (c : Dev nD) :
    (g1M.slice (Rect.unit (s := S8x2x512) (k0_off3 c) S1x2x512.size (k0_off3_inb c)) (fun _ => rfl)).squeeze S2x512 squeezes_S1x2x512_S2x512 = slot1 (rOf c) := by
  rw [own_slot1]
theorem ownSlot2 (c : Dev nD) :
    (g2M.slice (Rect.unit (s := S4x2x512) (k0_off8 c) S1x2x512.size (k0_off8_inb c)) (fun _ => rfl)).squeeze S2x512 squeezes_S1x2x512_S2x512 = slot2 (zOf c) := by
  rw [own_slot2]

theorem dst1_credit (off : Fin 3 → Nat) (p : ∀ a, off a + S1x2x512.size a ≤ S8x2x512.size a) :
    ((g1M.slice (Rect.unit (s := S8x2x512) off S1x2x512.size p) (fun _ => rfl)).squeeze S2x512 squeezes_S1x2x512_S2x512).view.dmaCredit = N1 := rfl
theorem dst2_credit (off : Fin 3 → Nat) (p : ∀ a, off a + S1x2x512.size a ≤ S4x2x512.size a) :
    ((g2M.slice (Rect.unit (s := S4x2x512) off S1x2x512.size p) (fun _ => rfl)).squeeze S2x512 squeezes_S1x2x512_S2x512).view.dmaCredit = N2 := rfl

end Cert.KernelIdeal.Proto

end
-- ==== Proof.BodyPre.lean ====
/- Closing a semaphore whose one round is over, and reads and writes through a whole buffer. -/
import proofs.«900604_g7700000000000605_dist_softmax_colshard_i_m512_n256_v7x_i32_f32_1_alg».proof.Proof.Steps2
import proofs.«900604_g7700000000000605_dist_softmax_colshard_i_m512_n256_v7x_i32_f32_1_alg».proof.Proof.Regions
import proofs.«900604_g7700000000000605_dist_softmax_colshard_i_m512_n256_v7x_i32_f32_1_alg».proof.Proof.Printed

noncomputable section

namespace Cert.KernelIdeal.Proto

open Cert.KernelIdeal.Gen

open Idealize.ShloMosaic
open Idealize.ShloMosaic.TcCoe
open Idealize.SL.RA Idealize.SL.BI
open Idealize.SL.BI.BIBase
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- A cell with no duty from round `R` on closes at `R`: its counter is the device's again, at zero. -/
theorem close_at (c : Dev nD) {i : Fin 25} {sm : SemLoc sig} (h : csem i = sm) (R : ℕ)
    (hd : ∀ r, R ≤ r → (Rd (F := F) m ρ).duties ((c : Thread nD τ), sm) r = ∅) :
    iprop(records m ρ K ∗ atPos ER ((c : Thread nD τ), sm) R ∅ 0) ⊢ (|={Set.univ}=> semVal ((c : Thread nD τ), sm) 0 : sProp 𝕄) := by
  iintro ⟨#HR, Hat⟩
  iapply (Rounds.cell_close ER (Rd m ρ) (Set.mem_univ (K (c, i))) (fun h => h) (R := R) hd)
  isplitr; · iapply (inv_of m ρ K c h); iexact HR
  iexact Hat
/-- after its one round; -/
theorem close_done (c : Dev nD) {i : Fin 25} {sm : SemLoc sig} (h : csem i = sm) :
    iprop(records m ρ K ∗ atPos ER ((c : Thread nD τ), sm) 1 ∅ 0) ⊢ (|={Set.univ}=> semVal ((c : Thread nD τ), sm) 0 : sProp 𝕄) :=
  close_at m ρ K c h 1 (duties_later m ρ _)
/-- or as it is, when nothing ever lands on it. -/
theorem close_unused (c : Dev nD) {i : Fin 25} {sm : SemLoc sig} (h : csem i = sm) (h0 : (Rd (F := F) m ρ).duties ((c : Thread nD τ), sm) 0 = ∅) :
    iprop(records m ρ K ∗ atPos ER ((c : Thread nD τ), sm) 0 ∅ 0) ⊢ (|={Set.univ}=> semVal ((c : Thread nD τ), sm) 0 : sProp 𝕄) :=
  close_at m ρ K c h 0 fun r _ => (Nat.eq_zero_or_pos r).elim (fun e => e ▸ h0) (duties_later m ρ _ r)

abbrev r0 : Rect S512x256 := Rect.unit (s := S512x256) ![0, 0] S512x256.size inb_S512x256_S512x256_0_0
abbrev rg1 : Rect S8x2x512 := Rect.unit (s := S8x2x512) ![0, 0, 0] S8x2x512.size inb_S8x2x512_S8x2x512_0_0_0
abbrev rg2 : Rect S4x2x512 := Rect.unit (s := S4x2x512) ![0, 0, 0] S4x2x512.size inb_S4x2x512_S4x2x512_0_0_0

theorem hz2 : (![0, 0] : Fin 2 → Nat) = fun _ => 0 := funext fun a => by fin_cases a <;> rfl
theorem hz3 : (![0, 0, 0] : Fin 3 → Nat) = fun _ => 0 := funext fun a => by fin_cases a <;> rfl
theorem read_x (f : (cc0_stg0_0 : Ref sig .tc).ty.Contents (Elt F)) : (xM : Memref sig .tc .vmem S512x256 .f32).view.readAt (Elt F) r0.toLoadRect f = f :=
  Memref.readAt_unit_zero (Elt F) cc0_stg0_0 hz2 _ f
theorem read_o (f : (cc0_stg1_0 : Ref sig .tc).ty.Contents (Elt F)) : (oM : Memref sig .tc .vmem S512x256 .f32).view.readAt (Elt F) r0.toLoadRect f = f :=
  Memref.readAt_unit_zero (Elt F) cc0_stg1_0 hz2 _ f
theorem write_o (f w : (cc0_stg1_0 : Ref sig .tc).ty.Contents (Elt F)) :
    ((oM : Memref sig .tc .vmem S512x256 .f32).access r0 : View sig .tc _ _ _).write (Elt F) f w Finset.univ = w :=
  Memref.write_access_unit_zero_univ (Elt F) cc0_stg1_0 hz2 _ f w
theorem read_g1 (f : (cc0_scratch0 : Ref sig .tc).ty.Contents (Elt F)) : (g1M : Memref sig .tc .vmem S8x2x512 .f32).view.readAt (Elt F) rg1.toLoadRect f = f :=
  Memref.readAt_unit_zero (Elt F) cc0_scratch0 hz3 _ f
theorem read_g2 (f : (cc0_scratch1 : Ref sig .tc).ty.Contents (Elt F)) : (g2M : Memref sig .tc .vmem S4x2x512 .f32).view.readAt (Elt F) rg2.toLoadRect f = f :=
  Memref.readAt_unit_zero (Elt F) cc0_scratch1 hz3 _ f

theorem pt1_as_load (c : Dev nD) (k : Fin 8) (q : PosShare TreeShare) (f : Buf (Elt F) ((c : Thread nD τ).loc cc0_scratch0)) :
    (pt1 c k q f : sProp 𝕄) = ((g1M : Memref sig .tc .vmem S8x2x512 .f32).view.loc (c : Thread nD τ) ↦[(slot1 k).view.set]{q} f) := rfl
theorem pt1_as_store (c : Dev nD) (k : Fin 8) (q : PosShare TreeShare) (f : Buf (Elt F) ((c : Thread nD τ).loc cc0_scratch0)) :
    (pt1 c k q f : sProp 𝕄) = (((g1M : Memref sig .tc .vmem S8x2x512 .f32).access (ownRect1 c)).loc (c : Thread nD τ) ↦[(slot1 k).view.set]{q} f) := rfl
theorem pt2_as_load (c : Dev nD) (k : Fin 4) (q : PosShare TreeShare) (f : Buf (Elt F) ((c : Thread nD τ).loc cc0_scratch1)) :
    (pt2 c k q f : sProp 𝕄) = ((g2M : Memref sig .tc .vmem S4x2x512 .f32).view.loc (c : Thread nD τ) ↦[(slot2 k).view.set]{q} f) := rfl
theorem pt2_as_store (c : Dev nD) (k : Fin 4) (q : PosShare TreeShare) (f : Buf (Elt F) ((c : Thread nD τ).loc cc0_scratch1)) :
    (pt2 c k q f : sProp 𝕄) = (((g2M : Memref sig .tc .vmem S4x2x512 .f32).access (ownRect2 c)).loc (c : Thread nD τ) ↦[(slot2 k).view.set]{q} f) := rfl

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

def bodyPre (c : Dev nD) : sProp 𝕄 :=
  iprop((ghost m ρ K c ∗ creds c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outC m ρ c))

theorem fetch_0 (t : Fin cfg0.N) : (cfg0.win (0 : Fin 2)).fetch t = true := fetch0_0 t

end Cert.KernelIdeal.Proto

end
-- ==== Proof.Body.lean ====
/- One device's body: ten signals, the block's reduction, the barrier wait, two exchanges each followed by a merge, the rescaling, ten send waits. -/
import proofs.«900604_g7700000000000605_dist_softmax_colshard_i_m512_n256_v7x_i32_f32_1_alg».proof.Proof.BodyPre

noncomputable section

namespace Cert.KernelIdeal.Proto

open Cert.KernelIdeal.Gen

open Idealize.ShloMosaic
open Idealize.ShloMosaic.TcCoe
open Idealize.SL.RA Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

theorem owes_exit (c : Dev nD) (W' : Waits sig Unit) :
    (owes (c : Thread nD τ) (Oa c 20) W' : sProp 𝕄) ⊢ (dats m ρ 0 c).owesAt () t₀.succ := by
  unfold Dat.owesAt Pipeline.owesWithin
  rw [show (dats m ρ 0 c).owed t₀.succ = 0 from rfl]
  iintro HO
  iexists W'
  isplitr; · ipureintro; exact fun _ _ => Or.inl trivial
  iexact HO

set_option maxHeartbeats 8000000 in
set_option maxRecDepth 65536 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [k0_part14_eq_skeleton]; unfold k0_part14_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton]
  unfold k0_part1_skel k0_part2_skel k0_part3_skel k0_part4_skel k0_part5_skel k0_part6_skel k0_part7_skel k0_part8_skel
    k0_part9_skel k0_part10_skel k0_part11_skel k0_part12_skel k0_part13_skel
  simp only [semSignalWord, semWaitWord, Prog.lift, Prog.bind_op, Prog.bind_ret, Prog.pure_eq_ret, wp_deviceId]
  unfold bodyPre ghost positions perCell payToks creds scratch
  simp only [bigSep_fin10, bigSep_fin8, bigSep_fin4, bigSep_erase8, bigSep_erase4, add_zero]
  iintro ⟨⟨⟨⟨#HR, ⟨PB, ⟨PS1_0, PS1_1, PS1_2, PS1_3, PS1_4, PS1_5, PS1_6, PS1_7⟩, ⟨PR1_0, PR1_1, PR1_2, PR1_3, PR1_4, PR1_5, PR1_6, PR1_7⟩,
          ⟨PS2_0, PS2_1, PS2_2, PS2_3⟩, ⟨PR2_0, PR2_1, PR2_2, PR2_3⟩⟩,
        ⟨⟨TB0, TB1, TB2, TB3, TB4, TB5, TB6, TB7, TB8, TB9⟩,
          ⟨⟨TS1_1, TR1_1⟩, ⟨TS1_2, TR1_2⟩, ⟨TS1_3, TR1_3⟩, ⟨TS1_4, TR1_4⟩, ⟨TS1_5, TR1_5⟩, ⟨TS1_6, TR1_6⟩, ⟨TS1_7, TR1_7⟩⟩,
          ⟨⟨TS2_1, TR2_1⟩, ⟨TS2_2, TR2_2⟩, ⟨TS2_3, TR2_3⟩⟩⟩⟩,
      ⟨CB, ⟨CR1_1, CR1_2, CR1_3, CR1_4, CR1_5, CR1_6, CR1_7⟩, ⟨CR2_1, CR2_2, CR2_3⟩⟩, #Hlev, ⟨⟨%f1, Hg1⟩, ⟨%f2, Hg2⟩⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = Oa c 0 from rfl]
  ihave ⟨A0, A1, A2, A3, A4, A5, A6, A7⟩ := (slots1 c fullShare f1).1 $$ Hg1
  ihave ⟨B0, B1, B2, B3⟩ := (slots2 c fullShare f2).1 $$ Hg2
  iapply (sig_row m ρ K c 1 0 (by decide) rfl (dev_eq (k0_dev1_eq c)) (Oa c 0) (Oa c 1) rfl W f1) $$ [$HR $HO TB0 $A1]
  · iexact TB0
  iintro HO
  iapply (sig_row m ρ K c 2 1 (by decide) rfl (dev_eq (k0_dev2_eq c)) (Oa c 1) (Oa c 2) rfl W f1) $$ [$HR $HO TB1 $A2]
  · iexact TB1
  iintro HO
  iapply (sig_row m ρ K c 3 2 (by decide) rfl (dev_eq (k0_dev3_eq c)) (Oa c 2) (Oa c 3) rfl W f1) $$ [$HR $HO TB2 $A3]
  · iexact TB2
  iintro HO
  iapply (sig_row m ρ K c 4 3 (by decide) rfl (dev_eq (k0_dev4_eq c)) (Oa c 3) (Oa c 4) rfl W f1) $$ [$HR $HO TB3 $A4]
  · iexact TB3
  iintro HO
  iapply (sig_row m ρ K c 5 4 (by decide) rfl (dev_eq (k0_dev5_eq c)) (Oa c 4) (Oa c 5) rfl W f1) $$ [$HR $HO TB4 $A5]
  · iexact TB4
  iintro HO
  iapply (sig_row m ρ K c 6 5 (by decide) rfl (dev_eq (k0_dev6_eq c)) (Oa c 5) (Oa c 6) rfl W f1) $$ [$HR $HO TB5 $A6]
  · iexact TB5
  iintro HO
  iapply (sig_row m ρ K c 7 6 (by decide) rfl (dev_eq (k0_dev7_eq c)) (Oa c 6) (Oa c 7) rfl W f1) $$ [$HR $HO TB6 $A7]
  · iexact TB6
  iintro HO
  iapply (sig_col m ρ K c 1 7 (by decide) rfl (dev_eq (k0_dev8_eq c)) (Oa c 7) (Oa c 8) rfl W f2) $$ [$HR $HO TB7 $B1]
  · iexact TB7
  iintro HO
  iapply (sig_col m ρ K c 2 8 (by decide) rfl (dev_eq (k0_dev9_eq c)) (Oa c 8) (Oa c 9) rfl W f2) $$ [$HR $HO TB8 $B2]
  · iexact TB8
  iintro HO
  iapply (sig_col m ρ K c 3 9 (by decide) rfl (dev_eq (k0_dev10_eq c)) (Oa c 9) (Oa c 10) rfl W f2) $$ [$HR $HO TB9 $B3]
  · iexact TB9
  iintro HO
  iapply (wp_load 𝒱₀ (c : Thread nD τ) none Set.univ (m := xM) (Finset.subset_univ _)) $$ Hx; iintro Hx
  rw [read_x]
  ihave A0 := (Entails.of_eq (pt1_as_load c (rOf c) fullShare f1)) $$ A0
  iapply (wp_load 𝒱₀ (c : Thread nD τ) none Set.univ (m := g1M) (load1_sub c)) $$ A0; iintro A0
  ihave A0 := (Entails.of_eq ((pt1_as_load c (rOf c) fullShare f1).symm.trans (pt1_as_store c (rOf c) fullShare f1))) $$ A0
  iapply (wp_store 𝒱₀ (c : Thread nD τ) none Set.univ (m := g1M) (r := ownRect1 c) (Mk := Finset.univ) (store1_sub c)) $$ A0; iintro A0
  ihave A0 := (Entails.of_eq (pointsTo_congr (store1_val m ρ c f1))) $$ A0
  ihave A0' := (Entails.of_eq (pt1_as_store c (rOf c) fullShare (g1At m ρ c)).symm) $$ A0
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_o]
  iapply (wait_bar m ρ K c W) $$ [$HR $Hlev $CB $HO $PB]
  iintro ⟨HO, PB, ⟨⟨%e7, D7⟩, -⟩, ⟨⟨%e6, D6⟩, -⟩, ⟨⟨%e5, D5⟩, -⟩, ⟨⟨%e4, D4⟩, -⟩, ⟨⟨%e3, D3⟩, -⟩, ⟨⟨%e2, D2⟩, -⟩, ⟨⟨%e1, D1⟩, -⟩, ⟨⟨%h3, E3⟩, -⟩, ⟨⟨%h2, E2⟩, -⟩, ⟨⟨%h1, E1⟩, -⟩⟩
  ihave ⟨A0L, A0K⟩ := (halves1 c (rOf c) (g1At m ρ c)).1 $$ A0'
  ihave ⟨Q1, Q2, Q3, Q4, Q5, Q6, Q7⟩ := (shares1 c (rOf c) (g1At m ρ c)).1 $$ A0L
  iapply (send1 m ρ K c 1 (by decide) (dev_eq (k0_dev11_eq c)) (s1sem 1 _) (r1sem_own c) (ownSlot1 c) (ownSlot1 c) e1 (Oa c 10) (Oa c 11) rfl _) $$ [$HR $Q1 $D1 $HO $TS1_1 $TR1_1]; iintro ⟨CS1_1, HO⟩
  iapply (send1 m ρ K c 2 (by decide) (dev_eq (k0_dev12_eq c)) (s1sem 2 _) (r1sem_own c) (ownSlot1 c) (ownSlot1 c) e2 (Oa c 11) (Oa c 12) rfl _) $$ [$HR $Q2 $D2 $HO $TS1_2 $TR1_2]; iintro ⟨CS1_2, HO⟩
  iapply (send1 m ρ K c 3 (by decide) (dev_eq (k0_dev13_eq c)) (s1sem 3 _) (r1sem_own c) (ownSlot1 c) (ownSlot1 c) e3 (Oa c 12) (Oa c 13) rfl _) $$ [$HR $Q3 $D3 $HO $TS1_3 $TR1_3]; iintro ⟨CS1_3, HO⟩
  iapply (send1 m ρ K c 4 (by decide) (dev_eq (k0_dev14_eq c)) (s1sem 4 _) (r1sem_own c) (ownSlot1 c) (ownSlot1 c) e4 (Oa c 13) (Oa c 14) rfl _) $$ [$HR $Q4 $D4 $HO $TS1_4 $TR1_4]; iintro ⟨CS1_4, HO⟩
  iapply (send1 m ρ K c 5 (by decide) (dev_eq (k0_dev15_eq c)) (s1sem 5 _) (r1sem_own c) (ownSlot1 c) (ownSlot1 c) e5 (Oa c 14) (Oa c 15) rfl _) $$ [$HR $Q5 $D5 $HO $TS1_5 $TR1_5]; iintro ⟨CS1_5, HO⟩
  iapply (send1 m ρ K c 6 (by decide) (dev_eq (k0_dev16_eq c)) (s1sem 6 _) (r1sem_own c) (ownSlot1 c) (ownSlot1 c) e6 (Oa c 15) (Oa c 16) rfl _) $$ [$HR $Q6 $D6 $HO $TS1_6 $TR1_6]; iintro ⟨CS1_6, HO⟩
  iapply (send1 m ρ K c 7 (by decide) (dev_eq (k0_dev17_eq c)) (s1sem 7 _) (r1sem_own c) (ownSlot1 c) (ownSlot1 c) e7 (Oa c 16) (Oa c 17) rfl _) $$ [$HR $Q7 $D7 $HO $TS1_7 $TR1_7]; iintro ⟨CS1_7, HO⟩
  iapply (wait_dma m ρ K (r1Wait m ρ c 7 (by decide)) (r1sem_recv c 0) (dst1_credit _ _) _) $$ [$HR $Hlev $CR1_7 $HO $PR1_7]; iintro ⟨HO, PR1_7, V7⟩
  iapply (wait_dma m ρ K (r1Wait m ρ c 6 (by decide)) (r1sem_recv c 1) (dst1_credit _ _) _) $$ [$HR $Hlev $CR1_6 $HO $PR1_6]; iintro ⟨HO, PR1_6, V6⟩
  iapply (wait_dma m ρ K (r1Wait m ρ c 5 (by decide)) (r1sem_recv c 2) (dst1_credit _ _) _) $$ [$HR $Hlev $CR1_5 $HO $PR1_5]; iintro ⟨HO, PR1_5, V5⟩
  iapply (wait_dma m ρ K (r1Wait m ρ c 4 (by decide)) (r1sem_recv c 3) (dst1_credit _ _) _) $$ [$HR $Hlev $CR1_4 $HO $PR1_4]; iintro ⟨HO, PR1_4, V4⟩
  iapply (wait_dma m ρ K (r1Wait m ρ c 3 (by decide)) (r1sem_recv c 4) (dst1_credit _ _) _) $$ [$HR $Hlev $CR1_3 $HO $PR1_3]; iintro ⟨HO, PR1_3, V3⟩
  iapply (wait_dma m ρ K (r1Wait m ρ c 2 (by decide)) (r1sem_recv c 5) (dst1_credit _ _) _) $$ [$HR $Hlev $CR1_2 $HO $PR1_2]; iintro ⟨HO, PR1_2, V2⟩
  iapply (wait_dma m ρ K (r1Wait m ρ c 1 (by decide)) (r1sem_recv c 6) (dst1_credit _ _) _) $$ [$HR $Hlev $CR1_1 $HO $PR1_1]; iintro ⟨HO, PR1_1, V1⟩
  ihave ⟨V1L, V1K⟩ := (halves1 c (rOf c + 1) (g1At m ρ c)).1 $$ V1
  ihave ⟨V2L, V2K⟩ := (halves1 c (rOf c + 2) (g1At m ρ c)).1 $$ V2
  ihave ⟨V3L, V3K⟩ := (halves1 c (rOf c + 3) (g1At m ρ c)).1 $$ V3
  ihave ⟨V4L, V4K⟩ := (halves1 c (rOf c + 4) (g1At m ρ c)).1 $$ V4
  ihave ⟨V5L, V5K⟩ := (halves1 c (rOf c + 5) (g1At m ρ c)).1 $$ V5
  ihave ⟨V6L, V6K⟩ := (halves1 c (rOf c + 6) (g1At m ρ c)).1 $$ V6
  ihave ⟨V7L, V7K⟩ := (halves1 c (rOf c + 7) (g1At m ρ c)).1 $$ V7
  ihave Hw := (slots1 c keepQ (g1At m ρ c)).2 $$ [$A0K $V1K $V2K $V3K $V4K $V5K $V6K $V7K]
  iapply (wp_load 𝒱₀ (c : Thread nD τ) none Set.univ (m := g1M) (Finset.subset_univ _)) $$ Hw; iintro Hw
  rw [read_g1]
  ihave B0 := (Entails.of_eq (pt2_as_load c (zOf c) fullShare f2)) $$ B0
  iapply (wp_load 𝒱₀ (c : Thread nD τ) none Set.univ (m := g2M) (load2_sub c)) $$ B0; iintro B0
  ihave B0 := (Entails.of_eq ((pt2_as_load c (zOf c) fullShare f2).symm.trans (pt2_as_store c (zOf c) fullShare f2))) $$ B0
  iapply (wp_store 𝒱₀ (c : Thread nD τ) none Set.univ (m := g2M) (r := ownRect2 c) (Mk := Finset.univ) (store2_sub c)) $$ B0; iintro B0
  ihave B0 := (Entails.of_eq (pointsTo_congr (store2_val m ρ c f2))) $$ B0
  ihave B0' := (Entails.of_eq (pt2_as_store c (zOf c) fullShare (g2At m ρ c)).symm) $$ B0
  ihave ⟨B0L, B0K⟩ := (halves2 c (zOf c) (g2At m ρ c)).1 $$ B0'
  ihave ⟨P1, P2, P3⟩ := (shares2 c (zOf c) (g2At m ρ c)).1 $$ B0L
  iapply (send2 m ρ K c 1 (by decide) (dev_eq (k0_dev18_eq c)) (s2sem 1 _) (r2sem_own c) (ownSlot2 c) (ownSlot2 c) h1 (Oa c 17) (Oa c 18) rfl _) $$ [$HR $P1 $E1 $HO $TS2_1 $TR2_1]; iintro ⟨CS2_1, HO⟩
  iapply (send2 m ρ K c 2 (by decide) (dev_eq (k0_dev19_eq c)) (s2sem 2 _) (r2sem_own c) (ownSlot2 c) (ownSlot2 c) h2 (Oa c 18) (Oa c 19) rfl _) $$ [$HR $P2 $E2 $HO $TS2_2 $TR2_2]; iintro ⟨CS2_2, HO⟩
  iapply (send2 m ρ K c 3 (by decide) (dev_eq (k0_dev20_eq c)) (s2sem 3 _) (r2sem_own c) (ownSlot2 c) (ownSlot2 c) h3 (Oa c 19) (Oa c 20) rfl _) $$ [$HR $P3 $E3 $HO $TS2_3 $TR2_3]; iintro ⟨CS2_3, HO⟩
  iapply (wait_dma m ρ K (r2Wait m ρ c 3 (by decide)) (r2sem_recv c 0) (dst2_credit _ _) _) $$ [$HR $Hlev $CR2_3 $HO $PR2_3]; iintro ⟨HO, PR2_3, W3⟩
  iapply (wait_dma m ρ K (r2Wait m ρ c 2 (by decide)) (r2sem_recv c 1) (dst2_credit _ _) _) $$ [$HR $Hlev $CR2_2 $HO $PR2_2]; iintro ⟨HO, PR2_2, W2⟩
  iapply (wait_dma m ρ K (r2Wait m ρ c 1 (by decide)) (r2sem_recv c 2) (dst2_credit _ _) _) $$ [$HR $Hlev $CR2_1 $HO $PR2_1]; iintro ⟨HO, PR2_1, W1⟩
  ihave ⟨W1L, W1K⟩ := (halves2 c (zOf c + 1) (g2At m ρ c)).1 $$ W1
  ihave ⟨W2L, W2K⟩ := (halves2 c (zOf c + 2) (g2At m ρ c)).1 $$ W2
  ihave ⟨W3L, W3K⟩ := (halves2 c (zOf c + 3) (g2At m ρ c)).1 $$ W3
  ihave Hw2 := (slots2 c keepQ (g2At m ρ c)).2 $$ [$B0K $W1K $W2K $W3K]
  iapply (wp_load 𝒱₀ (c : Thread nD τ) none Set.univ (m := g2M) (Finset.subset_univ _)) $$ Hw2; iintro Hw2
  rw [read_g2]
  iapply (wp_load 𝒱₀ (c : Thread nD τ) none Set.univ (m := oM) (Finset.subset_univ _)) $$ Hout; iintro Hout
  rw [read_o]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_o]
  iapply (wait_dma m ρ K (s1Wait m ρ c 1 (by decide)) (s1sem 1 _) (dst1_credit _ _) _) $$ [$HR $Hlev $CS1_1 $HO $PS1_1]; iintro ⟨HO, PS1_1, Q1⟩
  iapply (wait_dma m ρ K (s1Wait m ρ c 2 (by decide)) (s1sem 2 _) (dst1_credit _ _) _) $$ [$HR $Hlev $CS1_2 $HO $PS1_2]; iintro ⟨HO, PS1_2, Q2⟩
  iapply (wait_dma m ρ K (s1Wait m ρ c 3 (by decide)) (s1sem 3 _) (dst1_credit _ _) _) $$ [$HR $Hlev $CS1_3 $HO $PS1_3]; iintro ⟨HO, PS1_3, Q3⟩
  iapply (wait_dma m ρ K (s1Wait m ρ c 4 (by decide)) (s1sem 4 _) (dst1_credit _ _) _) $$ [$HR $Hlev $CS1_4 $HO $PS1_4]; iintro ⟨HO, PS1_4, Q4⟩
  iapply (wait_dma m ρ K (s1Wait m ρ c 5 (by decide)) (s1sem 5 _) (dst1_credit _ _) _) $$ [$HR $Hlev $CS1_5 $HO $PS1_5]; iintro ⟨HO, PS1_5, Q5⟩
  iapply (wait_dma m ρ K (s1Wait m ρ c 6 (by decide)) (s1sem 6 _) (dst1_credit _ _) _) $$ [$HR $Hlev $CS1_6 $HO $PS1_6]; iintro ⟨HO, PS1_6, Q6⟩
  iapply (wait_dma m ρ K (s1Wait m ρ c 7 (by decide)) (s1sem 7 _) (dst1_credit _ _) _) $$ [$HR $Hlev $CS1_7 $HO $PS1_7]; iintro ⟨HO, PS1_7, Q7⟩
  iapply (wait_dma m ρ K (s2Wait m ρ c 1 (by decide)) (s2sem 1 _) (dst2_credit _ _) _) $$ [$HR $Hlev $CS2_1 $HO $PS2_1]; iintro ⟨HO, PS2_1, P1⟩
  iapply (wait_dma m ρ K (s2Wait m ρ c 2 (by decide)) (s2sem 2 _) (dst2_credit _ _) _) $$ [$HR $Hlev $CS2_2 $HO $PS2_2]; iintro ⟨HO, PS2_2, P2⟩
  iapply (wait_dma m ρ K (s2Wait m ρ c 3 (by decide)) (s2sem 3 _) (dst2_credit _ _) _) $$ [$HR $Hlev $CS2_3 $HO $PS2_3]; iintro ⟨HO, PS2_3, P3⟩
  ihave A0L := (shares1 c (rOf c) (g1At m ρ c)).2 $$ [$Q1 $Q2 $Q3 $Q4 $Q5 $Q6 $Q7]
  ihave HwL := (slots1 c fullShare.left (g1At m ρ c)).2 $$ [$A0L $V1L $V2L $V3L $V4L $V5L $V6L $V7L]
  ihave Hg1 := (pointsTo_share (PosShare.mem_left_op_right fullShare)).2 $$ [$HwL Hw]
  · iexact Hw
  ihave B0L := (shares2 c (zOf c) (g2At m ρ c)).2 $$ [$P1 $P2 $P3]
  ihave HwL2 := (slots2 c fullShare.left (g2At m ρ c)).2 $$ [$B0L $W1L $W2L $W3L]
  ihave Hg2 := (pointsTo_share (PosShare.mem_left_op_right fullShare)).2 $$ [$HwL2 Hw2]
  · iexact Hw2
  imod (close_unused m ρ K c (csem_s1 0) (duties_s1_zero m ρ c)) $$ [$HR $PS1_0] with ZS1_0
  imod (close_done m ρ K c (csem_s1 1)) $$ [$HR $PS1_1] with ZS1_1
  imod (close_done m ρ K c (csem_s1 2)) $$ [$HR $PS1_2] with ZS1_2
  imod (close_done m ρ K c (csem_s1 3)) $$ [$HR $PS1_3] with ZS1_3
  imod (close_done m ρ K c (csem_s1 4)) $$ [$HR $PS1_4] with ZS1_4
  imod (close_done m ρ K c (csem_s1 5)) $$ [$HR $PS1_5] with ZS1_5
  imod (close_done m ρ K c (csem_s1 6)) $$ [$HR $PS1_6] with ZS1_6
  imod (close_done m ρ K c (csem_s1 7)) $$ [$HR $PS1_7] with ZS1_7
  imod (close_unused m ρ K c (csem_r1 (rOf c)) (duties_r1_own m ρ c)) $$ [$HR $PR1_0] with ZR1_0
  imod (close_done m ρ K c (csem_r1 (rOf c + 1))) $$ [$HR $PR1_1] with ZR1_1
  imod (close_done m ρ K c (csem_r1 (rOf c + 2))) $$ [$HR $PR1_2] with ZR1_2
  imod (close_done m ρ K c (csem_r1 (rOf c + 3))) $$ [$HR $PR1_3] with ZR1_3
  imod (close_done m ρ K c (csem_r1 (rOf c + 4))) $$ [$HR $PR1_4] with ZR1_4
  imod (close_done m ρ K c (csem_r1 (rOf c + 5))) $$ [$HR $PR1_5] with ZR1_5
  imod (close_done m ρ K c (csem_r1 (rOf c + 6))) $$ [$HR $PR1_6] with ZR1_6
  imod (close_done m ρ K c (csem_r1 (rOf c + 7))) $$ [$HR $PR1_7] with ZR1_7
  imod (close_unused m ρ K c (csem_s2 0) (duties_s2_zero m ρ c)) $$ [$HR $PS2_0] with ZS2_0
  imod (close_done m ρ K c (csem_s2 1)) $$ [$HR $PS2_1] with ZS2_1
  imod (close_done m ρ K c (csem_s2 2)) $$ [$HR $PS2_2] with ZS2_2
  imod (close_done m ρ K c (csem_s2 3)) $$ [$HR $PS2_3] with ZS2_3
  imod (close_unused m ρ K c (csem_r2 (zOf c)) (duties_r2_own m ρ c)) $$ [$HR $PR2_0] with ZR2_0
  imod (close_done m ρ K c (csem_r2 (zOf c + 1))) $$ [$HR $PR2_1] with ZR2_1
  imod (close_done m ρ K c (csem_r2 (zOf c + 2))) $$ [$HR $PR2_2] with ZR2_2
  imod (close_done m ρ K c (csem_r2 (zOf c + 3))) $$ [$HR $PR2_3] with ZR2_3
  rw [wp_ret]; imodintro
  iapply Hk
  unfold bodyPost Φ₁ scratch ownZero perCell
  simp only [bigSep_fin8, bigSep_fin4, add_zero]
  ihave HO := (owes_exit m ρ c _) $$ HO
  iframe ZS1_0 ZS1_1 ZS1_2 ZS1_3 ZS1_4 ZS1_5 ZS1_6 ZS1_7 ZR1_0 ZR1_1 ZR1_2 ZR1_3 ZR1_4 ZR1_5 ZR1_6 ZR1_7 ZS2_0 ZS2_1 ZS2_2 ZS2_3 ZR2_0 ZR2_1 ZR2_2 ZR2_3 HO
  isplitl [Hg1 Hg2]
  · isplitl [Hg1]; · iexists _; iexact Hg1
    iexists _; iexact Hg2
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  iframe Hg Hcr Hlev Hscr Ho Hx Hout
  iintro H; iexact H

end Cert.KernelIdeal.Proto

end
-- ==== Proof.GlueBody.lean ====
/- The run, with every device's body proved. -/
import proofs.«900604_g7700000000000605_dist_softmax_colshard_i_m512_n256_v7x_i32_f32_1_alg».proof.Proof.Glue
import proofs.«900604_g7700000000000605_dist_softmax_colshard_i_m512_n256_v7x_i32_f32_1_alg».proof.Proof.Body

noncomputable section

namespace Cert.KernelIdeal.Proto

open Idealize.ShloMosaic

variable {F : FTy → Type} [FloatOps F]

variable (m : (ℓ : Loc nD τ sig) → Buf (Elt F) ℓ) (ρ : Dev nD → PrngReg)

theorem krun : θ_run (defs (F := F)) (onTc (τ := τ) (main (F := F))) ⟨m, fun _ => 0, ρ⟩ (fun r => ∀ c : Dev nD,
      r.2.mem ((c.tc : Thread nD τ).loc main_v1)
          = Spec.outAt (fun c' : Dev nD => m ((c'.tc : Thread nD τ).loc main_arg0)) c
        ∧ r.2.mem ((c.tc : Thread nD τ).loc main_arg0) = m ((c.tc : Thread nD τ).loc main_arg0)) :=
  krun_of m ρ (body_obligation m ρ)

/-- info: 'Cert.KernelIdeal.Proto.krun' depends on axioms: [propext, Classical.choice, Quot.sound] -/
#guard_msgs in #print axioms krun

end Cert.KernelIdeal.Proto

end
-- ==== Proof.KSpec.lean ====
/- Each buffer's contents as a function of the devices' input blocks, the 32 devices read as 4 groups of 8. -/
import proofs.«900604_g7700000000000605_dist_softmax_colshard_i_m512_n256_v7x_i32_f32_1_alg».proof.Proof.Gen.Kernel.Skeleton
import proofs.«900604_g7700000000000605_dist_softmax_colshard_i_m512_n256_v7x_i32_f32_1_alg».proof.Proof.LaunchAux
import Idealize.ShloMosaic.Lib.ValueIdx

noncomputable section

namespace Cert.Kernel.Spec

open Cert.Kernel.Gen
open Idealize.ShloMosaic Idealize.ShloMosaic.ValueIdx

variable {F : FTy → Type} [FloatOps F]

variable (X : Dev nD → Vec F S512x256 .f32)

def st1 (c : Dev nD) : FVec F S1x2x512 .f32 := k0_pay4 (X c)

def G1 (c : Dev nD) : Vec F S8x2x512 .f32 := fun i => st1 X (dv (zOf c) (i 0)) (ix3 0 (i 1) (i 2))

def st2 (c : Dev nD) : FVec F S1x2x512 .f32 := k0_pay5 (G1 X c)

def G2 (c : Dev nD) : Vec F S4x2x512 .f32 := fun i => st2 X (dv (i 0) (rOf c)) (ix3 0 (i 1) (i 2))

def eAt (c : Dev nD) : FVec F S512x256 .f32 := k0_pay3 (X c)

def outAt (c : Dev nD) : FVec F S512x256 .f32 := k0_pay6 (k0_pay2 (X c)) (G2 X c) (eAt X c)

end Cert.Kernel.Spec

end
-- ==== Proof.KCells.lean ====
/- The two exchange buffers cut into 2 × 512 slots, and the 25 semaphores of a device's protocol. -/
import proofs.«900604_g7700000000000605_dist_softmax_colshard_i_m512_n256_v7x_i32_f32_1_alg».proof.Proof.KSpec
import proofs.«900604_g7700000000000605_dist_softmax_colshard_i_m512_n256_v7x_i32_f32_1_alg».proof.Proof.Gen.Kernel.Launch
import proofs.«900604_g7700000000000605_dist_softmax_colshard_i_m512_n256_v7x_i32_f32_1_alg».proof.Proof.Gen.Kernel.Points

noncomputable section

namespace Cert.Kernel.Proto

open Cert.Kernel.Gen Cert.Kernel.Spec

open Idealize.ShloMosaic
open Idealize.ShloMosaic.TcCoe
open Idealize.SL.RA
open Idealize.ShloMosaic.Rounds

variable {F : FTy → Type} [FloatOps F]

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xM : Memref sig .tc .vmem S512x256 .f32 := Memref.whole cc0_stg0_0
abbrev oM : Memref sig .tc .vmem S512x256 .f32 := Memref.whole cc0_stg1_0
abbrev g1M : Memref sig .tc .vmem S8x2x512 .f32 := Memref.whole cc0_scratch0
abbrev g2M : Memref sig .tc .vmem S4x2x512 .f32 := Memref.whole cc0_scratch1

abbrev rect1 (k : Fin 8) : Rect S8x2x512 := Rect.unit (s := S8x2x512) ![k.val, 0, 0] S1x2x512.size (inb_row k)
abbrev rect2 (k : Fin 4) : Rect S4x2x512 := Rect.unit (s := S4x2x512) ![k.val, 0, 0] S1x2x512.size (inb_row k)

abbrev slot1 (k : Fin 8) : Memref sig .tc .vmem S2x512 .f32 := (g1M.slice (rect1 k) (fun _ => rfl)).squeeze S2x512 squeezes_S1x2x512_S2x512
abbrev slot2 (k : Fin 4) : Memref sig .tc .vmem S2x512 .f32 := (g2M.slice (rect2 k) (fun _ => rfl)).squeeze S2x512 squeezes_S1x2x512_S2x512

abbrev set1 (k : Fin 8) : Finset S8x2x512.Idx := (rect1 k).set
abbrev set2 (k : Fin 4) : Finset S4x2x512.Idx := (rect2 k).set

theorem mem_set1 {k : Fin 8} {i : S8x2x512.Idx} : i ∈ set1 k ↔ i 0 = k := mem_rowBlock
theorem mem_set2 {k : Fin 4} {i : S4x2x512.Idx} : i ∈ set2 k ↔ i 0 = k := mem_rowBlock
theorem slot1_set (k : Fin 8) : (slot1 k).view.set = set1 k := by
  show (((View.whole cc0_scratch0).slice (rect1 k)).reshape S2x512 _).set = _
  rw [View.set_reshape, View.set_slice_whole]
theorem slot2_set (k : Fin 4) : (slot2 k).view.set = set2 k := by
  show (((View.whole cc0_scratch1).slice (rect2 k)).reshape S2x512 _).set = _
  rw [View.set_reshape, View.set_slice_whole]

theorem own_slot1 (c : Dev nD) :
    (g1M.slice (Rect.unit (s := S8x2x512) (k0_off3 c) S1x2x512.size (k0_off3_inb c)) (fun _ => rfl)) = g1M.slice (rect1 (rOf c)) (fun _ => rfl) :=
  Memref.slice_unit_congr _ (k0_off3_eq c) _ _ _ _
theorem own_slot2 (c : Dev nD) :
    (g2M.slice (Rect.unit (s := S4x2x512) (k0_off8 c) S1x2x512.size (k0_off8_inb c)) (fun _ => rfl)) = g2M.slice (rect2 (zOf c)) (fun _ => rfl) :=
  Memref.slice_unit_congr _ (k0_off8_eq c) _ _ _ _

abbrev barS : Sem sig := (SemArray.scalar (sig.barrier 0 rfl) : Sems sig S_).sem

def s1q (j : Fin 8) : DmaSem sig := ⟨j.val + 2, by have := j.isLt; show j.val + 2 < 26; omega⟩
def r1q (k : Fin 8) : DmaSem sig := ⟨k.val + 10, by have := k.isLt; show k.val + 10 < 26; omega⟩
def s2q (j : Fin 4) : DmaSem sig := ⟨j.val + 18, by have := j.isLt; show j.val + 18 < 26; omega⟩
def r2q (k : Fin 4) : DmaSem sig := ⟨k.val + 22, by have := k.isLt; show k.val + 22 < 26; omega⟩

inductive CK where
  | bar | s1 (j : Fin 8) | r1 (k : Fin 8) | s2 (j : Fin 4) | r2 (k : Fin 4) | none
  deriving DecidableEq

def dmaKind (q : DmaSem sig) : CK :=
  (![CK.none, CK.none, CK.s1 0, CK.s1 1, CK.s1 2, CK.s1 3, CK.s1 4, CK.s1 5, CK.s1 6, CK.s1 7, CK.r1 0, CK.r1 1, CK.r1 2, CK.r1 3, CK.r1 4, CK.r1 5, CK.r1 6, CK.r1 7, CK.s2 0, CK.s2 1, CK.s2 2, CK.s2 3, CK.r2 0, CK.r2 1, CK.r2 2, CK.r2 3] : Fin 26 → CK) q

def kindOf : SemLoc sig → CK
  | .reg _ => .bar
  | .dma q => dmaKind q

theorem kind_s1 (j : Fin 8) : kindOf (.dma (s1q j)) = .s1 j := by revert j; decide
theorem kind_r1 (k : Fin 8) : kindOf (.dma (r1q k)) = .r1 k := by revert k; decide
theorem kind_s2 (j : Fin 4) : kindOf (.dma (s2q j)) = .s2 j := by revert j; decide
theorem kind_r2 (k : Fin 4) : kindOf (.dma (r2q k)) = .r2 k := by revert k; decide
theorem kind_stage0 : kindOf (.dma cc0_sem0_0) = .none := by decide
theorem kind_stage1 : kindOf (.dma cc0_sem1_0) = .none := by decide

abbrev barCell (c : Dev nD) : GSem nD τ sig := ((c : Thread nD τ), .reg barS)
abbrev s1Cell (c : Dev nD) (j : Fin 8) : GSem nD τ sig := ((c : Thread nD τ), .dma (s1q j))
abbrev r1Cell (c : Dev nD) (k : Fin 8) : GSem nD τ sig := ((c : Thread nD τ), .dma (r1q k))
abbrev s2Cell (c : Dev nD) (j : Fin 4) : GSem nD τ sig := ((c : Thread nD τ), .dma (s2q j))
abbrev r2Cell (c : Dev nD) (k : Fin 4) : GSem nD τ sig := ((c : Thread nD τ), .dma (r2q k))

abbrev N1 : ℕ := (slot1 0).view.dmaCredit
abbrev N2 : ℕ := (slot2 0).view.dmaCredit
theorem N1_pos : 0 < N1 := View.dmaCredit_pos _ (by decide)
theorem N2_pos : 0 < N2 := View.dmaCredit_pos _ (by decide)

def xstg (c : Dev nD) : (cc0_stg0_0 : Ref sig .tc).ty.Contents (Elt F) :=
  (win0_0.blk (0 : Fin 1)).view.read (Elt F) ((s₀ m ρ).mem ((c : Thread nD τ).loc main_arg0))

abbrev X : Dev nD → Vec F S512x256 .f32 := fun c => xstg m ρ c

abbrev g1At (c : Dev nD) : Buf (Elt F) ((c : Thread nD τ).loc cc0_scratch0) := G1 (X m ρ) c
abbrev g2At (c : Dev nD) : Buf (Elt F) ((c : Thread nD τ).loc cc0_scratch1) := G2 (X m ρ) c

end Cert.Kernel.Proto

end
-- ==== Proof.KSched.lean ====
/- One round per semaphore: who pays each duty, how much, and what the payment hands the semaphore's owner. -/
import proofs.«900604_g7700000000000605_dist_softmax_colshard_i_m512_n256_v7x_i32_f32_1_alg».proof.Proof.KCells

noncomputable section

namespace Cert.Kernel.Proto

open Idealize.ShloMosaic
open Idealize.ShloMosaic.TcCoe
open Idealize.SL Idealize.SL.RA Idealize.SL.BI
open Idealize.SL.BI.BIBase
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def pt1 (c : Dev nD) (k : Fin 8) (q : PosShare TreeShare) (f : Buf (Elt F) ((c : Thread nD τ).loc cc0_scratch0)) : sProp 𝕄 :=
  (slot1 k).view.loc (c : Thread nD τ) ↦[(slot1 k).view.set]{q} f
def pt2 (c : Dev nD) (k : Fin 4) (q : PosShare TreeShare) (f : Buf (Elt F) ((c : Thread nD τ).loc cc0_scratch1)) : sProp 𝕄 :=
  (slot2 k).view.loc (c : Thread nD τ) ↦[(slot2 k).view.set]{q} f

theorem pt1_eq (c : Dev nD) (k : Fin 8) (q : PosShare TreeShare) (f : Buf (Elt F) ((c : Thread nD τ).loc cc0_scratch0)) :
    pt1 c k q f = (((c : Thread nD τ).loc cc0_scratch0) ↦[set1 k]{q} f : sProp 𝕄) := by unfold pt1; rw [slot1_set]
theorem pt2_eq (c : Dev nD) (k : Fin 4) (q : PosShare TreeShare) (f : Buf (Elt F) ((c : Thread nD τ).loc cc0_scratch1)) :
    pt2 c k q f = (((c : Thread nD τ).loc cc0_scratch1) ↦[set2 k]{q} f : sProp 𝕄) := by unfold pt2; rw [slot2_set]

instance pt1_storable (c : Dev nD) (k : Fin 8) (q : PosShare TreeShare) (f) : BI.Storable (upEmb : UEmb _ 𝕄) (pt1 (F := F) c k q f) := by unfold pt1; infer_instance
instance pt2_storable (c : Dev nD) (k : Fin 4) (q : PosShare TreeShare) (f) : BI.Storable (upEmb : UEmb _ 𝕄) (pt2 (F := F) c k q f) := by unfold pt2; infer_instance

def rowOff : Fin 10 → Fin 8 := ![1, 2, 3, 4, 5, 6, 7, 0, 0, 0]
def colOff : Fin 10 → Fin 4 := ![0, 0, 0, 0, 0, 0, 0, 1, 2, 3]

abbrev rowSlot (c : Dev nD) (j : Fin 8) : sProp 𝕄 :=
  iprop((∃ f, pt1 (rowPeer j c) (rOf c) fullShare f) ∗ reached ER (r1Cell (rowPeer j c) (rOf c)) 0)
abbrev colSlot (c : Dev nD) (j : Fin 4) : sProp 𝕄 :=
  iprop((∃ f, pt2 (colPeer j c) (zOf c) fullShare f) ∗ reached ER (r2Cell (colPeer j c) (zOf c)) 0)
def barPay (c : Dev nD) (d : Fin 10) : sProp 𝕄 :=
  if d.val < 7 then rowSlot c (-(rowOff d)) else colSlot c (-(colOff d))

def r1Pay (c : Dev nD) (k : Fin 8) : sProp 𝕄 := pt1 c k fullShare (g1At m ρ c)
def r2Pay (c : Dev nD) (k : Fin 4) : sProp 𝕄 := pt2 c k fullShare (g2At m ρ c)
def s1Pay (c : Dev nD) (j : Fin 8) : sProp 𝕄 := pt1 c (rOf c) (sendQ1 j) (g1At m ρ c)
def s2Pay (c : Dev nD) (j : Fin 4) : sProp 𝕄 := pt2 c (zOf c) (sendQ2 j) (g2At m ρ c)

def dutiesK : CK → Dev nD → Finset (Fin 10)
  | .bar, _ => Finset.univ
  | .s1 j, _ => if j = 0 then ∅ else {0}
  | .r1 k, c => if k = rOf c then ∅ else {0}
  | .s2 j, _ => if j = 0 then ∅ else {0}
  | .r2 k, c => if k = zOf c then ∅ else {0}
  | .none, _ => ∅

def amountK : CK → ℕ
  | .bar => 1
  | .s1 _ => N1
  | .r1 _ => N1
  | .s2 _ => N2
  | .r2 _ => N2
  | .none => 1

theorem amountK_pos (κ : CK) : 0 < amountK κ := by
  cases κ <;> first | exact Nat.one_pos | exact N1_pos | exact N2_pos

def payK : CK → Dev nD → Fin 10 → sProp 𝕄
  | .bar, c, d => barPay c d
  | .s1 j, c, _ => s1Pay m ρ c j
  | .r1 k, c, _ => r1Pay m ρ c k
  | .s2 j, c, _ => s2Pay m ρ c j
  | .r2 k, c, _ => r2Pay m ρ c k
  | .none, _, _ => iprop(emp)

def Rd : Rounds.Schedule (GSem nD τ sig) (Fin 10) 𝕄 where
  duties g r := if r = 0 ∧ g.1.2 = .tc then dutiesK (kindOf g.2) g.1.1 else ∅
  unitless _ := False
  amount g _ _ := amountK (kindOf g.2)
  payload g _ d := payK m ρ (kindOf g.2) g.1.1 d
  amount_pos g _ _ _ := amountK_pos _

instance payK_storable (κ : CK) (c : Dev nD) (d : Fin 10) : BI.Storable (upEmb : UEmb _ 𝕄) (payK (F := F) m ρ κ c d) := by
  cases κ with
  | bar => show BI.Storable upEmb (barPay c d); unfold barPay; split <;> infer_instance
  | s1 j => show BI.Storable upEmb (s1Pay m ρ c j); unfold s1Pay; infer_instance
  | r1 k => show BI.Storable upEmb (r1Pay m ρ c k); unfold r1Pay; infer_instance
  | s2 j => show BI.Storable upEmb (s2Pay m ρ c j); unfold s2Pay; infer_instance
  | r2 k => show BI.Storable upEmb (r2Pay m ρ c k); unfold r2Pay; infer_instance
  | none => show BI.Storable upEmb (iprop(emp) : sProp 𝕄); infer_instance

instance Rd_payload_storable (g : GSem nD τ sig) (r : ℕ) (d : Fin 10) :
    BI.Storable (upEmb : UEmb _ 𝕄) ((Rd (F := F) m ρ).payload g r d) := by
  show BI.Storable upEmb (payK m ρ (kindOf g.2) g.1.1 d); infer_instance

section Sched
variable (c : Dev nD)

theorem duties_tc (sm : SemLoc sig) : (Rd (F := F) m ρ).duties ((c : Thread nD τ), sm) 0 = dutiesK (kindOf sm) c := by
  show (if (0 : ℕ) = 0 ∧ ((c : Thread nD τ)).2 = .tc then dutiesK (kindOf sm) c else ∅) = _
  exact if_pos ⟨rfl, rfl⟩
theorem duties_bar : (Rd (F := F) m ρ).duties (barCell c) 0 = Finset.univ := duties_tc m ρ c _
theorem duties_s1 {j : Fin 8} (hj : j ≠ 0) : (Rd (F := F) m ρ).duties (s1Cell c j) 0 = {0} := by rw [duties_tc, kind_s1]; exact if_neg hj
theorem duties_s1_zero : (Rd (F := F) m ρ).duties (s1Cell c 0) 0 = ∅ := by rw [duties_tc, kind_s1]; rfl
theorem duties_r1 {k : Fin 8} (hk : k ≠ rOf c) : (Rd (F := F) m ρ).duties (r1Cell c k) 0 = {0} := by rw [duties_tc, kind_r1]; exact if_neg hk
theorem duties_r1_own : (Rd (F := F) m ρ).duties (r1Cell c (rOf c)) 0 = ∅ := by rw [duties_tc, kind_r1]; exact if_pos rfl
theorem duties_s2 {j : Fin 4} (hj : j ≠ 0) : (Rd (F := F) m ρ).duties (s2Cell c j) 0 = {0} := by rw [duties_tc, kind_s2]; exact if_neg hj
theorem duties_s2_zero : (Rd (F := F) m ρ).duties (s2Cell c 0) 0 = ∅ := by rw [duties_tc, kind_s2]; rfl
theorem duties_r2 {k : Fin 4} (hk : k ≠ zOf c) : (Rd (F := F) m ρ).duties (r2Cell c k) 0 = {0} := by rw [duties_tc, kind_r2]; exact if_neg hk
theorem duties_r2_own : (Rd (F := F) m ρ).duties (r2Cell c (zOf c)) 0 = ∅ := by rw [duties_tc, kind_r2]; exact if_pos rfl
theorem duties_later (g : GSem nD τ sig) : ∀ r, 1 ≤ r → (Rd (F := F) m ρ).duties g r = ∅ :=
  fun r hr => by
    show (if r = 0 ∧ g.1.2 = .tc then dutiesK (kindOf g.2) g.1.1 else ∅) = _
    exact if_neg fun h => by omega

theorem amount_bar (d : Fin 10) : (Rd (F := F) m ρ).amount (barCell c) 0 d = 1 := rfl
theorem amount_s1 (j : Fin 8) (d : Fin 10) : (Rd (F := F) m ρ).amount (s1Cell c j) 0 d = N1 := by
  show amountK (kindOf (.dma (s1q j))) = _; rw [kind_s1]; rfl
theorem amount_r1 (k : Fin 8) (d : Fin 10) : (Rd (F := F) m ρ).amount (r1Cell c k) 0 d = N1 := by
  show amountK (kindOf (.dma (r1q k))) = _; rw [kind_r1]; rfl
theorem amount_s2 (j : Fin 4) (d : Fin 10) : (Rd (F := F) m ρ).amount (s2Cell c j) 0 d = N2 := by
  show amountK (kindOf (.dma (s2q j))) = _; rw [kind_s2]; rfl
theorem amount_r2 (k : Fin 4) (d : Fin 10) : (Rd (F := F) m ρ).amount (r2Cell c k) 0 d = N2 := by
  show amountK (kindOf (.dma (r2q k))) = _; rw [kind_r2]; rfl

theorem expect_bar : (Rd (F := F) m ρ).expect (barCell c) 0 = 10 := by
  unfold Schedule.expect Schedule.amountOf
  rw [duties_bar, Finset.sum_congr rfl fun d _ => amount_bar m ρ c d, Finset.sum_const, Finset.card_univ, Fintype.card_fin, smul_eq_mul]

theorem payload_bar (d : Fin 10) : (Rd (F := F) m ρ).payload (barCell c) 0 d = barPay c d := rfl
theorem payload_s1 (j : Fin 8) (d : Fin 10) : (Rd (F := F) m ρ).payload (s1Cell c j) 0 d = s1Pay m ρ c j := by
  show payK m ρ (kindOf (.dma (s1q j))) c d = _; rw [kind_s1]; rfl
theorem payload_r1 (k : Fin 8) (d : Fin 10) : (Rd (F := F) m ρ).payload (r1Cell c k) 0 d = r1Pay m ρ c k := by
  show payK m ρ (kindOf (.dma (r1q k))) c d = _; rw [kind_r1]; rfl
theorem payload_s2 (j : Fin 4) (d : Fin 10) : (Rd (F := F) m ρ).payload (s2Cell c j) 0 d = s2Pay m ρ c j := by
  show payK m ρ (kindOf (.dma (s2q j))) c d = _; rw [kind_s2]; rfl
theorem payload_r2 (k : Fin 4) (d : Fin 10) : (Rd (F := F) m ρ).payload (r2Cell c k) 0 d = r2Pay m ρ c k := by
  show payK m ρ (kindOf (.dma (r2q k))) c d = _; rw [kind_r2]; rfl

theorem rest_bar : bigSep ((Rd (F := F) m ρ).duties (barCell c) 0 \ ∅) (fun d => (Rd (F := F) m ρ).payload (barCell c) 0 d)
    = iprop(rowSlot c 7 ∗ rowSlot c 6 ∗ rowSlot c 5 ∗ rowSlot c 4 ∗ rowSlot c 3 ∗ rowSlot c 2 ∗ rowSlot c 1 ∗ colSlot c 3 ∗ colSlot c 2 ∗ colSlot c 1) := by
  rw [Finset.sdiff_empty, duties_bar, bigSep_fin10]; rfl

end Sched

end Cert.Kernel.Proto

end
-- ==== Proof.KData.lean ====
/- What a device still owes after each payment, and levels that put every wait below what its device then owes. -/
import proofs.«900604_g7700000000000605_dist_softmax_colshard_i_m512_n256_v7x_i32_f32_1_alg».proof.Proof.KSched

noncomputable section

namespace Cert.Kernel.Proto

open Cert.Kernel.Spec

open Idealize.ShloMosaic
open Idealize.ShloMosaic.TcCoe
open Idealize.SL Idealize.SL.RA Idealize.SL.BI
open Idealize.SL.BI.BIBase
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def payFns : List (Dev nD → GSem nD τ sig × ℕ) :=
  [fun c => (barCell (rowPeer 1 c), 1),
   fun c => (barCell (rowPeer 2 c), 1),
   fun c => (barCell (rowPeer 3 c), 1),
   fun c => (barCell (rowPeer 4 c), 1),
   fun c => (barCell (rowPeer 5 c), 1),
   fun c => (barCell (rowPeer 6 c), 1),
   fun c => (barCell (rowPeer 7 c), 1),
   fun c => (barCell (colPeer 1 c), 1),
   fun c => (barCell (colPeer 2 c), 1),
   fun c => (barCell (colPeer 3 c), 1),
   fun c => (r1Cell (rowPeer 1 c) (rOf c), N1),
   fun c => (r1Cell (rowPeer 2 c) (rOf c), N1),
   fun c => (r1Cell (rowPeer 3 c) (rOf c), N1),
   fun c => (r1Cell (rowPeer 4 c) (rOf c), N1),
   fun c => (r1Cell (rowPeer 5 c) (rOf c), N1),
   fun c => (r1Cell (rowPeer 6 c) (rOf c), N1),
   fun c => (r1Cell (rowPeer 7 c) (rOf c), N1),
   fun c => (r2Cell (colPeer 1 c) (zOf c), N2),
   fun c => (r2Cell (colPeer 2 c) (zOf c), N2),
   fun c => (r2Cell (colPeer 3 c) (zOf c), N2)]
def owedList (c : Dev nD) : List (GSem nD τ sig × ℕ) := payFns.map fun p => p c
def Oa (c : Dev nD) (n : ℕ) : CellTallies nD τ sig Unit := owedOf ((owedList c).drop n)

theorem Oa_done (c : Dev nD) : Oa c 20 = 0 := rfl

def L (g : GSem nD τ sig) : Finset Unit := if g.1.2 = .tc then {()} else ∅

def lvK : CK → ℕ
  | .bar => 1
  | .r1 _ => 2
  | .r2 _ => 3
  | _ => 0

def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_r1 (c : Dev nD) (k : Fin 8) : lv (r1Cell c k) () = 2 := by show lvK (kindOf (.dma (r1q k))) = 2; rw [kind_r1]; rfl
theorem lv_r2 (c : Dev nD) (k : Fin 4) : lv (r2Cell c k) () = 3 := by show lvK (kindOf (.dma (r2q k))) = 3; rw [kind_r2]; rfl

theorem owed_lv (c : Dev nD) : ∀ p ∈ owedList c, p.1.1.2 = .tc ∧ 0 < lv p.1 () := by
  intro p hp
  simp only [owedList, payFns, List.map_cons, List.map_nil, List.mem_cons, List.not_mem_nil, or_false] at hp
  rcases hp with rfl | rfl | rfl | rfl | rfl | rfl | rfl | rfl | rfl | rfl | rfl | rfl | rfl | rfl | rfl | rfl | rfl | rfl | rfl | rfl <;>
    first | exact ⟨rfl, by rw [lv_bar]; decide⟩ | exact ⟨rfl, by rw [lv_r1]; decide⟩ | exact ⟨rfl, by rw [lv_r2]; decide⟩
theorem owed_lv10 (c : Dev nD) : ∀ p ∈ (owedList c).drop 10, p.1.1.2 = .tc ∧ 1 < lv p.1 () := by
  intro p hp
  simp only [owedList, payFns, List.map_cons, List.map_nil, List.drop, List.mem_cons, List.not_mem_nil, or_false] at hp
  rcases hp with rfl | rfl | rfl | rfl | rfl | rfl | rfl | rfl | rfl | rfl <;>
    first | exact ⟨rfl, by rw [lv_r1]; decide⟩ | exact ⟨rfl, by rw [lv_r2]; decide⟩
theorem owed_lv17 (c : Dev nD) : ∀ p ∈ (owedList c).drop 17, p.1.1.2 = .tc ∧ 2 < lv p.1 () := by
  intro p hp
  simp only [owedList, payFns, List.map_cons, List.map_nil, List.drop, List.mem_cons, List.not_mem_nil, or_false] at hp
  rcases hp with rfl | rfl | rfl <;> exact ⟨rfl, by rw [lv_r2]; decide⟩

theorem mayWait_of (c : Dev nD) (n : ℕ) (sm : SemLoc sig) (b : ℕ) (hb : lv ((c : Thread nD τ), sm) () ≤ b)
    (hall : ∀ p ∈ (owedList c).drop n, p.1.1.2 = .tc ∧ b < lv p.1 ()) :
    (levAts L lv : sProp 𝕄) ⊢ MayWait (c : Thread nD τ) sm () (Oa c n) :=
  MayOwe.of_cut (L := L) (lev := lv) b
    (fun p hp => by rw [Finset.mem_singleton.mp hp, L_tc]; exact Finset.mem_singleton_self _)
    (fun g u hg => by
      obtain ⟨p, hp, rfl⟩ := owedOf_pos hg
      unfold L; rw [if_pos (hall p hp).1]; exact Finset.mem_singleton.mpr (Subsingleton.elim _ _))
    (fun p hp => by rw [Finset.mem_singleton.mp hp]; exact hb)
    (fun g u hg => by obtain ⟨p, hp, rfl⟩ := owedOf_pos hg; exact (hall p hp).2)

theorem mayWait_bar (c : Dev nD) : (levAts L lv : sProp 𝕄) ⊢ MayWait (c : Thread nD τ) (.reg barS) () (Oa c 10) :=
  mayWait_of c 10 _ 1 (le_of_eq (lv_bar c)) (owed_lv10 c)
theorem mayWait_r1 (c : Dev nD) (k : Fin 8) : (levAts L lv : sProp 𝕄) ⊢ MayWait (c : Thread nD τ) (.dma (r1q k)) () (Oa c 17) :=
  mayWait_of c 17 _ 2 (le_of_eq (lv_r1 c k)) (owed_lv17 c)
theorem mayWait_done (c : Dev nD) (sm : SemLoc sig) : (levAts L lv : sProp 𝕄) ⊢ MayWait (c : Thread nD τ) sm () (Oa c 20) := by
  rw [Oa_done, MayWait_zero]; iintro -; iempintro
theorem mayWait_stage (c : Dev nD) (q : DmaSem sig) (hq : kindOf (.dma q) = .none) (O : CellTallies nD τ sig Unit) (hO : O = Oa c 0 ∨ O = 0) :
    (levAts L lv : sProp 𝕄) ⊢ MayWait (c : Thread nD τ) (.dma q) () O := by
  rcases hO with rfl | rfl
  · exact mayWait_of c 0 _ 0 (le_of_eq (by show lvK (kindOf (.dma q)) = 0; rw [hq]; rfl)) (owed_lv c)
  · rw [MayWait_zero]; iintro -; iempintro

def csem (i : Fin 25) : SemLoc sig :=
  if i.val = 0 then .reg barS else .dma ⟨i.val + 1, by have := i.isLt; show i.val + 1 < 26; omega⟩
abbrev kcell (ck : Dev nD × Fin 25) : GSem nD τ sig := ((ck.1 : Thread nD τ), csem ck.2)

theorem csem_bar : csem 0 = .reg barS := rfl
theorem csem_s1 (j : Fin 8) : csem (iS1 j) = .dma (s1q j) := by revert j; decide
theorem csem_r1 (k : Fin 8) : csem (iR1 k) = .dma (r1q k) := by revert k; decide
theorem csem_s2 (j : Fin 4) : csem (iS2 j) = .dma (s2q j) := by revert j; decide
theorem csem_r2 (k : Fin 4) : csem (iR2 k) = .dma (r2q k) := by revert k; decide
theorem csem_injective : Function.Injective csem := by decide

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def peerOf (d : Fin 10) (c : Dev nD) : Dev nD := if d.val < 7 then rowPeer (rowOff d) c else colPeer (colOff d) c

def records (K : Dev nD × Fin 25 → ℕ) : sProp 𝕄 :=
  iprop((bigSep Finset.univ fun ck : Dev nD × Fin 25 => cellInv ER (Rd m ρ) (K ck) (kcell ck))
    ∗ bigSep Finset.univ fun ck : Dev nD × Fin 25 => reached ER (kcell ck) 0)

instance records_persistent (K : Dev nD × Fin 25 → ℕ) : BI.Persistent (records m ρ K) := by unfold records; infer_instance

def payToks (c : Dev nD) : sProp 𝕄 :=
  iprop((bigSep Finset.univ fun d : Fin 10 => dutyTok ER (barCell (peerOf d c)) 0 d)
    ∗ (bigSep (Finset.univ.erase (0 : Fin 8)) fun j => iprop(dutyTok ER (s1Cell c j) 0 0 ∗ dutyTok ER (r1Cell (rowPeer j c) (rOf c)) 0 0))
    ∗ (bigSep (Finset.univ.erase (0 : Fin 4)) fun j => iprop(dutyTok ER (s2Cell c j) 0 0 ∗ dutyTok ER (r2Cell (colPeer j c) (zOf c)) 0 0)))

def perCell (c : Dev nD) (P : GSem nD τ sig → sProp 𝕄) : sProp 𝕄 :=
  iprop((bigSep Finset.univ fun j : Fin 8 => P (s1Cell c j)) ∗ (bigSep Finset.univ fun j : Fin 8 => P (r1Cell c (rOf c + j)))
    ∗ (bigSep Finset.univ fun j : Fin 4 => P (s2Cell c j)) ∗ (bigSep Finset.univ fun j : Fin 4 => P (r2Cell c (zOf c + j))))

def positions (c : Dev nD) : sProp 𝕄 := iprop(atPos ER (barCell c) 0 ∅ 0 ∗ perCell c fun g => atPos ER g 0 ∅ 0)

def ghost (K : Dev nD × Fin 25 → ℕ) (c : Dev nD) : sProp 𝕄 := iprop(records m ρ K ∗ positions c ∗ payToks c)

def creds (c : Dev nD) : sProp 𝕄 :=
  iprop(cred (tallyAt (barCell c) () 10)
    ∗ (bigSep (Finset.univ.erase (0 : Fin 8)) fun j => cred (tallyAt (r1Cell c (rOf c + j)) () N1))
    ∗ (bigSep (Finset.univ.erase (0 : Fin 4)) fun j => cred (tallyAt (r2Cell c (zOf c + j)) () N2)))

def start (c : Dev nD) : sProp 𝕄 := iprop((∃ K, ghost m ρ K c) ∗ creds c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def ownZero (c : Dev nD) : sProp 𝕄 := perCell c fun g => semVal g 0

def Φ₀ (c : Dev nD) : sProp 𝕄 := iprop(start m ρ c ∗ scratch c)
def Φ₁ (c : Dev nD) : sProp 𝕄 := iprop(scratch c ∗ ownZero c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def outC (c : Dev nD) : (cc0_stg1_0 : Ref sig .tc).ty.Contents (Elt F) := outAt (X m ρ) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ c
  Φ t := match t with
    | ⟨0, _⟩ => Φ₀ m ρ c
    | ⟨_ + 1, _⟩ => Φ₁ c
  q _ := fullShare
  owed t := match t with
    | ⟨0, _⟩ => Oa c 0
    | ⟨_ + 1, _⟩ => 0

abbrev 𝒱₀ : Variants := Variants.none

end Cert.Kernel.Proto

end
-- ==== Proof.KLaunchFund.lean ====
/- The launch state dealt to the devices: every invariant to all, positions to owners, tokens regrouped by payer. -/
import proofs.«900604_g7700000000000605_dist_softmax_colshard_i_m512_n256_v7x_i32_f32_1_alg».proof.Proof.KData
import proofs.«900604_g7700000000000605_dist_softmax_colshard_i_m512_n256_v7x_i32_f32_1_alg».proof.Proof.LaunchAux

noncomputable section

namespace Cert.Kernel.Proto

open Cert.Kernel.Gen

open Idealize.ShloMosaic
open Idealize.ShloMosaic.TcCoe
open Idealize.SL Idealize.SL.BI
open Idealize.SL.BI.BIBase Idealize.SL.BI.Laws
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def ringCells : Finset (GSem nD τ sig) := Finset.univ.map ⟨kcell, kcell_injective⟩

abbrev tokOf (x : (Dev nD × Fin 25) × Fin 10) : GSem nD τ sig × ℕ × Fin 10 := (kcell x.1, 0, x.2)

theorem tokOf_injective : Function.Injective tokOf := by
  rintro ⟨a, d⟩ ⟨a', d'⟩ h
  have h1 : kcell a = kcell a' := congrArg (fun x : GSem nD τ sig × ℕ × Fin 10 => x.1) h
  have h2 : d = d' := congrArg (fun x : GSem nD τ sig × ℕ × Fin 10 => x.2.2) h
  rw [kcell_injective h1, h2]

def ringToks : Finset (GSem nD τ sig × ℕ × Fin 10) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun k : Fin 25 => bigSep Finset.univ fun d : Fin 10 => dutyTok ER (kcell (c, k)) 0 d

def G (c : Dev nD) : sProp 𝕄 :=
  iprop((bigSep Finset.univ fun k : Fin 25 => roundState ER (Rd m ρ) (kcell (c, k)) 0)
    ∗ (bigSep Finset.univ fun k : Fin 25 => iprop(atPos ER (kcell (c, k)) 0 ∅ 0 ∗ reached ER (kcell (c, k)) 0)) ∗ toks c)

def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe Hst' Hat' Hr' Htok'

omit [FloatOps F] in
theorem rest_perCell (c : Dev nD) (P : GSem nD τ sig → sProp 𝕄) :
    (bigSep (Finset.univ.erase (0 : Fin 25)) fun k => P (kcell (c, k))) = perCell c P := by
  have e1 : (bigSep Finset.univ fun j : Fin 8 => P (kcell (c, iS1 j))) = bigSep Finset.univ fun j : Fin 8 => P (s1Cell c j) :=
    bigSep_congr fun j _ => by show P ((c : Thread nD τ), csem (iS1 j)) = _; rw [csem_s1]
  have e2 : (bigSep Finset.univ fun k : Fin 8 => P (kcell (c, iR1 k))) = bigSep Finset.univ fun j : Fin 8 => P (r1Cell c (rOf c + j)) := by
    rw [bigSep_univ_equiv (addE (rOf c)) (fun k : Fin 8 => P (kcell (c, iR1 k)))]
    exact bigSep_congr fun j _ => by show P ((c : Thread nD τ), csem (iR1 (rOf c + j))) = _; rw [csem_r1]
  have e3 : (bigSep Finset.univ fun j : Fin 4 => P (kcell (c, iS2 j))) = bigSep Finset.univ fun j : Fin 4 => P (s2Cell c j) :=
    bigSep_congr fun j _ => by show P ((c : Thread nD τ), csem (iS2 j)) = _; rw [csem_s2]
  have e4 : (bigSep Finset.univ fun k : Fin 4 => P (kcell (c, iR2 k))) = bigSep Finset.univ fun j : Fin 4 => P (r2Cell c (zOf c + j)) := by
    rw [bigSep_univ_equiv (addE (zOf c)) (fun k : Fin 4 => P (kcell (c, iR2 k)))]
    exact bigSep_congr fun j _ => by show P ((c : Thread nD τ), csem (iR2 (zOf c + j))) = _; rw [csem_r2]
  rw [bigSep_rest25 (fun k : Fin 25 => P (kcell (c, k))), e1, e2, e3, e4]
  rfl

omit [FloatOps F] in
theorem all_perCell (c : Dev nD) (P : GSem nD τ sig → sProp 𝕄) :
    (bigSep Finset.univ fun k : Fin 25 => P (kcell (c, k))) = iprop(P (barCell c) ∗ perCell c P) := by
  rw [bigSep_univ_at (fun k : Fin 25 => P (kcell (c, k))) 0, rest_perCell c P]
  rfl

omit [FloatOps F] in
theorem perCell_mono (c : Dev nD) {P Q : GSem nD τ sig → sProp 𝕄} (h : ∀ g, P g ⊢ Q g) : perCell c P ⊢ perCell c Q := by
  unfold perCell
  exact BI.sep_mono (bigSep_mono fun _ _ => h _) (BI.sep_mono (bigSep_mono fun _ _ => h _) (BI.sep_mono (bigSep_mono fun _ _ => h _) (bigSep_mono fun _ _ => h _)))

def osem (j : Fin 24) : SemLoc sig := csem j.succ

set_option maxRecDepth 4000 in
theorem ownSemFacts : Pipeline.OwnSemFacts cfg0.spec osem := by decide

set_option maxRecDepth 4000 in
theorem erase0_eq : (Finset.univ.erase (0 : Fin 25)) = Finset.univ.map (Fin.succEmb 24) := by decide

omit [FloatOps F] in
theorem ownSems0_eq (c : Dev nD) : (Pipeline.ownSems0 (Ix := Unit) (Name := ℕ) (U := UU) (Lvl := ℕ) (Val := Elt F) (τ := τ) osem c : sProp 𝕄)
    = bigSep (Finset.univ.erase (0 : Fin 25)) fun k => semVal (kcell (c, k)) 0 := by
  rw [erase0_eq, bigSep_map]; rfl

omit [FloatOps F] in
theorem ownSems0_ownZero (c : Dev nD) : (Pipeline.ownSems0 (Ix := Unit) (Name := ℕ) (U := UU) (Lvl := ℕ) (Val := Elt F) (τ := τ) osem c : sProp 𝕄) = ownZero c := by
  rw [ownSems0_eq, rest_perCell c (fun g => (semVal g 0 : sProp 𝕄))]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, bigSep_univ_at (fun k : Fin 25 => (semVal (kcell (c, k)) 0 : sProp 𝕄)) 0]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 25 => iprop(∃ κ : ℕ, cellInv ER (Rd m ρ) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [$Hos $Hus]
  imod (show iprop((bigSep Finset.univ fun k : Fin 25 => semVal (kcell (c, k)) 0) ∗ bigSep Finset.univ fun k : Fin 25 => roundState ER (Rd m ρ) (kcell (c, k)) 0)
      ⊢ (|={Set.univ}=> bigSep Finset.univ fun k : Fin 25 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [$Hv $Hst] with Hinv
  imodintro
  iframe Hinv Hat Htok

def peerE (d : Fin 10) : Dev nD ≃ Dev nD := if d.val < 7 then rowE (rowOff d) else colE (colOff d)

theorem peerE_apply (d : Fin 10) (c : Dev nD) : peerE d c = peerOf d c := by
  unfold peerE peerOf
  by_cases h : d.val < 7
  · rw [if_pos h, if_pos h]; rfl
  · rw [if_neg h, if_neg h]; rfl

omit [FloatOps F] in
theorem toks_sel (c : Dev nD) : (toks c : sProp 𝕄)
    ⊢ iprop((bigSep Finset.univ fun d : Fin 10 => dutyTok ER (barCell c) 0 d) ∗ perCell c fun g => dutyTok ER g 0 0) := by
  unfold toks
  rw [all_perCell c (fun g => (bigSep Finset.univ fun d : Fin 10 => dutyTok ER g 0 d : sProp 𝕄))]
  exact sep_mono_right (perCell_mono c fun g => bigSep_elim (Finset.mem_univ (0 : Fin 10)))

omit [FloatOps F] in
theorem deal_bar :
    (bigSep Finset.univ fun c : Dev nD => bigSep Finset.univ fun d : Fin 10 => (dutyTok ER (barCell c) 0 d : sProp 𝕄))
      ⊢ bigSep Finset.univ fun c : Dev nD => bigSep Finset.univ fun d : Fin 10 => dutyTok ER (barCell (peerOf d c)) 0 d := by
  have s2 : (bigSep Finset.univ fun d : Fin 10 => bigSep Finset.univ fun c : Dev nD => (dutyTok ER (barCell c) 0 d : sProp 𝕄))
      = bigSep Finset.univ fun d : Fin 10 => bigSep Finset.univ fun c : Dev nD => dutyTok ER (barCell (peerOf d c)) 0 d :=
    bigSep_congr fun d _ => (bigSep_univ_equiv (peerE d) (fun c : Dev nD => (dutyTok ER (barCell c) 0 d : sProp 𝕄))).trans
      (bigSep_congr fun c _ => by show (dutyTok ER (barCell (peerE d c)) 0 d : sProp 𝕄) = _; rw [peerE_apply])
  exact Entails.of_eq (((bigSep_swap (fun (c : Dev nD) (d : Fin 10) => (dutyTok ER (barCell c) 0 d : sProp 𝕄))).trans s2).trans
    (bigSep_swap (fun (d : Fin 10) (c : Dev nD) => (dutyTok ER (barCell (peerOf d c)) 0 d : sProp 𝕄))))

theorem rOf_rowE (j : Fin 8) (c : Dev nD) : rOf (rowE j c) = rOf c + j := rOf_rowPeer j c
theorem zOf_colE (j : Fin 4) (c : Dev nD) : zOf (colE j c) = zOf c + j := zOf_colPeer j c

omit [FloatOps F] in
theorem ent_trans {P Q R : sProp 𝕄} (h1 : P ⊢ Q) (h2 : Q ⊢ R) : P ⊢ R := h1.trans h2

omit [FloatOps F] in
theorem toks_around : (bigSep Finset.univ fun c : Dev nD => (toks c : sProp 𝕄)) ⊢ bigSep Finset.univ fun c : Dev nD => payToks c := by
  refine ent_trans (bigSep_mono fun c _ => toks_sel (F := F) c) ?_
  unfold perCell payToks
  rw [bigSep_sep', bigSep_sep', bigSep_sep', bigSep_sep', bigSep_sep', bigSep_sep']
  iintro ⟨HB, HS1, HR1, HS2, HR2⟩
  ihave HB' := (deal_bar (F := F)) $$ HB
  ihave HR1' := (deal_recv rowE rOf rOf_rowE (fun (c : Dev nD) (k : Fin 8) => dutyTok ER (r1Cell c k) 0 0)) $$ HR1
  ihave HR2' := (deal_recv colE zOf zOf_colE (fun (c : Dev nD) (k : Fin 4) => dutyTok ER (r2Cell c k) 0 0)) $$ HR2
  iframe HB'
  isplitl [HS1 HR1']
  · iapply (pair_up (0 : Fin 8) (fun (c : Dev nD) (j : Fin 8) => dutyTok ER (s1Cell c j) 0 0)
      (fun (c : Dev nD) (j : Fin 8) => dutyTok ER (r1Cell (rowPeer j c) (rOf c)) 0 0))
    iframe HS1
    iexact HR1'
  · iapply (pair_up (0 : Fin 4) (fun (c : Dev nD) (j : Fin 4) => dutyTok ER (s2Cell c j) 0 0)
      (fun (c : Dev nD) (j : Fin 4) => dutyTok ER (r2Cell (colPeer j c) (zOf c)) 0 0))
    iframe HS2
    iexact HR2'

omit [FloatOps F] in
theorem positions_eq (c : Dev nD) : (bigSep Finset.univ fun k : Fin 25 => (atPos ER (kcell (c, k)) 0 ∅ 0 : sProp 𝕄)) = positions c := by
  rw [all_perCell c (fun g => (atPos ER g 0 ∅ 0 : sProp 𝕄))]; rfl

theorem ghost_intro (K : Dev nD × Fin 25 → ℕ) (c : Dev nD) : iprop(records m ρ K ∗ positions c ∗ payToks c) ⊢ G' m ρ c := by
  unfold G' ghost
  iintro H
  iexists K
  iexact H

theorem regroup :
    (bigSep Finset.univ fun c : Dev nD => iprop((bigSep Finset.univ fun k : Fin 25 => iprop(∃ κ : ℕ, cellInv ER (Rd m ρ) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 25 => iprop(∃ κ : ℕ, cellInv ER (Rd m ρ) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]
    · iapply (Entails.of_eq (bigSep_congr (s := Finset.univ) fun (c : Dev nD) _ => positions_eq (F := F) c)); iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Kernel.Proto

end
-- ==== Proof.KLaunchCred.lean ====
/- Summed over the payers, each device is credited exactly what its peers owe it. -/
import proofs.«900604_g7700000000000605_dist_softmax_colshard_i_m512_n256_v7x_i32_f32_1_alg».proof.Proof.KData
import proofs.«900604_g7700000000000605_dist_softmax_colshard_i_m512_n256_v7x_i32_f32_1_alg».proof.Proof.LaunchAux

noncomputable section

namespace Cert.Kernel.Proto

open Idealize.ShloMosaic
open Idealize.SL.BI
open Idealize.SL.BI.BIBase

variable {F : FTy → Type} [FloatOps F]

local notation "𝕄" => MT nD τ sig Unit (Elt F) ℕ UU ℕ

variable (m : (ℓ : Loc nD τ sig) → Buf (Elt F) ℓ) (ρ : Dev nD → PrngReg)

def lcBarR (i : Fin 8) (c : Dev nD) : sProp 𝕄 := Pipeline.launchCred (fun d => tallyAt (barCell (rowPeer i d)) () 1) c
def lcBarC (i : Fin 4) (c : Dev nD) : sProp 𝕄 := Pipeline.launchCred (fun d => tallyAt (barCell (colPeer i d)) () 1) c
def lcR1 (i : Fin 8) (c : Dev nD) : sProp 𝕄 := Pipeline.launchCred (fun d => tallyAt (r1Cell (rowPeer i d) (rOf d)) () N1) c
def lcR2 (i : Fin 4) (c : Dev nD) : sProp 𝕄 := Pipeline.launchCred (fun d => tallyAt (r2Cell (colPeer i d) (zOf d)) () N2) c

omit [FloatOps F] in
theorem lcBarR_elim (i : Fin 8) (c : Dev nD) : (lcBarR i c : sProp 𝕄) ⊢ cred (tallyAt (barCell c) () 1) :=
  Pipeline.launchCred_tallyAt (.reg barS) (rowPeer i) (rowPeer (-i)) (rowE i).right_inv (rowPeer_neg i) () 1 c
omit [FloatOps F] in
theorem lcBarC_elim (i : Fin 4) (c : Dev nD) : (lcBarC i c : sProp 𝕄) ⊢ cred (tallyAt (barCell c) () 1) :=
  Pipeline.launchCred_tallyAt (.reg barS) (colPeer i) (colPeer (-i)) (colE i).right_inv (colPeer_neg i) () 1 c

omit [FloatOps F] in
theorem lcR1_elim (j : Fin 8) (c : Dev nD) : (lcR1 (-j) c : sProp 𝕄) ⊢ cred (tallyAt (r1Cell c (rOf c + j)) () N1) := by
  have h := launchCred_at (Val := Elt F) (Name := ℕ) (U := UU) (Lvl := ℕ) (τ := τ) (fun d : Dev nD => (SemLoc.dma (r1q (rOf d)) : SemLoc sig))
    (rowPeer (-j)) (rowPeer (- -j)) (rowE (-j)).right_inv (rowPeer_neg (-j)) () N1 c
  rw [rOf_rowPeer, neg_neg] at h
  exact h
omit [FloatOps F] in
theorem lcR2_elim (j : Fin 4) (c : Dev nD) : (lcR2 (-j) c : sProp 𝕄) ⊢ cred (tallyAt (r2Cell c (zOf c + j)) () N2) := by
  have h := launchCred_at (Val := Elt F) (Name := ℕ) (U := UU) (Lvl := ℕ) (τ := τ) (fun d : Dev nD => (SemLoc.dma (r2q (zOf d)) : SemLoc sig))
    (colPeer (-j)) (colPeer (- -j)) (colE (-j)).right_inv (colPeer_neg (-j)) () N2 c
  rw [zOf_colPeer, neg_neg] at h
  exact h

omit [FloatOps F] in
theorem cred_succ (g : GSem nD τ sig) (n : ℕ) : iprop(cred (tallyAt g () 1) ∗ cred (tallyAt g () n)) ⊢ (cred (tallyAt g () (n + 1)) : sProp 𝕄) :=
  (cred_add _ _).2.trans (Entails.of_eq (by rw [tallyAt_add, Nat.add_comm 1 n]))

set_option maxRecDepth 4000 in
theorem creds_intro (c : Dev nD) : (Pipeline.launchCred (fun d => Oa d 0) c : sProp 𝕄) ⊢ creds c := by
  refine (show (Pipeline.launchCred (fun d => Oa d 0) c : sProp 𝕄) ⊢
      iprop(lcBarR 1 c ∗ lcBarR 2 c ∗ lcBarR 3 c ∗ lcBarR 4 c ∗ lcBarR 5 c ∗ lcBarR 6 c ∗ lcBarR 7 c ∗ lcBarC 1 c ∗ lcBarC 2 c ∗ lcBarC 3 c ∗ lcR1 1 c ∗ lcR1 2 c ∗ lcR1 3 c ∗ lcR1 4 c ∗ lcR1 5 c ∗ lcR1 6 c ∗ lcR1 7 c ∗ lcR2 1 c ∗ lcR2 2 c ∗ lcR2 3 c)
    from launchCred_owedOf (Val := Elt F) (Name := ℕ) (U := UU) (Lvl := ℕ) payFns c).trans ?_
  unfold creds
  rw [bigSep_erase8, bigSep_erase4]
  iintro ⟨B1, B2, B3, B4, B5, B6, B7, C1, C2, C3, R1, R2, R3, R4, R5, R6, R7, Q1, Q2, Q3⟩
  ihave A1 := (lcBarR_elim (F := F) 1 c) $$ B1
  ihave U2 := (lcBarR_elim (F := F) 2 c) $$ B2
  ihave A2 := (cred_succ (F := F) (barCell c) 1) $$ [$U2 $A1]
  ihave U3 := (lcBarR_elim (F := F) 3 c) $$ B3
  ihave A3 := (cred_succ (F := F) (barCell c) 2) $$ [$U3 $A2]
  ihave U4 := (lcBarR_elim (F := F) 4 c) $$ B4
  ihave A4 := (cred_succ (F := F) (barCell c) 3) $$ [$U4 $A3]
  ihave U5 := (lcBarR_elim (F := F) 5 c) $$ B5
  ihave A5 := (cred_succ (F := F) (barCell c) 4) $$ [$U5 $A4]
  ihave U6 := (lcBarR_elim (F := F) 6 c) $$ B6
  ihave A6 := (cred_succ (F := F) (barCell c) 5) $$ [$U6 $A5]
  ihave U7 := (lcBarR_elim (F := F) 7 c) $$ B7
  ihave A7 := (cred_succ (F := F) (barCell c) 6) $$ [$U7 $A6]
  ihave U8 := (lcBarC_elim (F := F) 1 c) $$ C1
  ihave A8 := (cred_succ (F := F) (barCell c) 7) $$ [$U8 $A7]
  ihave U9 := (lcBarC_elim (F := F) 2 c) $$ C2
  ihave A9 := (cred_succ (F := F) (barCell c) 8) $$ [$U9 $A8]
  ihave U10 := (lcBarC_elim (F := F) 3 c) $$ C3
  ihave A10 := (cred_succ (F := F) (barCell c) 9) $$ [$U10 $A9]
  isplitl [A10]; · iexact A10
  isplitl [R1 R2 R3 R4 R5 R6 R7]
  · isplitl [R7]; · iapply (lcR1_elim (F := F) 1 c); iexact R7
    isplitl [R6]; · iapply (lcR1_elim (F := F) 2 c); iexact R6
    isplitl [R5]; · iapply (lcR1_elim (F := F) 3 c); iexact R5
    isplitl [R4]; · iapply (lcR1_elim (F := F) 4 c); iexact R4
    isplitl [R3]; · iapply (lcR1_elim (F := F) 5 c); iexact R3
    isplitl [R2]; · iapply (lcR1_elim (F := F) 6 c); iexact R2
    iapply (lcR1_elim (F := F) 7 c); iexact R1
  isplitl [Q3]; · iapply (lcR2_elim (F := F) 1 c); iexact Q3
  isplitl [Q2]; · iapply (lcR2_elim (F := F) 2 c); iexact Q2
  iapply (lcR2_elim (F := F) 3 c); iexact Q1

end Cert.Kernel.Proto

end
-- ==== Proof.KLaunch.lean ====
/- From every device's body to the run of the whole mesh. -/
import proofs.«900604_g7700000000000605_dist_softmax_colshard_i_m512_n256_v7x_i32_f32_1_alg».proof.Proof.KLaunchFund
import proofs.«900604_g7700000000000605_dist_softmax_colshard_i_m512_n256_v7x_i32_f32_1_alg».proof.Proof.KLaunchCred

noncomputable section

namespace Cert.Kernel.Proto

open Cert.Kernel.Gen

open Idealize.ShloMosaic
open Idealize.ShloMosaic.TcCoe
open Idealize.SL.RA Idealize.SL.BI
open Idealize.SL.BI.BIBase
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Oa d 0) c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  iframe HG Hc Hlev

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  iframe Hs Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_ownZero]
  unfold Φ₁ scratch
  iintro ⟨Hr, Hz⟩
  iframe Hz Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> first | exact kind_stage0 | exact kind_stage1) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := fun d => Oa d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_out (c : Dev nD) : finalA m ρ c (1 : Fin 2) = (outC m ρ c : (main_v1 : Ref sig .tc).ty.Contents (Elt F)) := by
  have h := (dats (F := F) m ρ 0 c).arrAt_succ (1 : Fin 2) t₀
  rw [if_pos (flush0_1 t₀)] at h
  refine Eq.trans (show finalA m ρ c (1 : Fin 2) = (dats (F := F) m ρ 0 c).arrAt (1 : Fin 2) (t₀.val + 1) from rfl) (h.trans ?_)
  exact Memref.write_access_unit_zero_univ (Elt F) main_v1 (by funext a; exact Nat.zero_mul _) _ _ _

/-- info: 'Cert.Kernel.Proto.run_main' depends on axioms: [propext, Classical.choice, Quot.sound] -/
#guard_msgs in #print axioms run_main

/-- info: 'Cert.Kernel.Proto.finalA_out' depends on axioms: [propext, Classical.choice, Quot.sound] -/
#guard_msgs in #print axioms finalA_out

end Cert.Kernel.Proto

end
-- ==== Proof.KGlue.lean ====
/- The run stated over the devices' input arrays. -/
import proofs.«900604_g7700000000000605_dist_softmax_colshard_i_m512_n256_v7x_i32_f32_1_alg».proof.Proof.KLaunch

noncomputable section

namespace Cert.Kernel.Proto

open Cert.Kernel.Spec

open Idealize.ShloMosaic
open Idealize.ShloMosaic.TcCoe
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem xstg_eq (c : Dev nD) : xstg m ρ c = m ((c : Thread nD τ).loc main_arg0) :=
  Memref.read_access_unit_zero (Elt F) main_arg0 (by funext a; exact Nat.zero_mul _) _ _

theorem X_eq : X m ρ = fun c' : Dev nD => m ((c' : Thread nD τ).loc main_arg0) := funext (xstg_eq m ρ)

theorem krun_of (hbody : ∀ c : Dev nD, BodyObligation (dats (F := F) m ρ 0 c) (defs₀ (F := F)) 𝒱₀ () Set.univ) : θ_run (defs (F := F)) (onTc (τ := τ) (main (F := F))) ⟨m, fun _ => 0, ρ⟩ (fun r => ∀ c : Dev nD,
      r.2.mem ((c.tc : Thread nD τ).loc main_v1)
          = Spec.outAt (fun c' : Dev nD => m ((c'.tc : Thread nD τ).loc main_arg0)) c
        ∧ r.2.mem ((c.tc : Thread nD τ).loc main_arg0) = m ((c.tc : Thread nD τ).loc main_arg0)) := by
  refine (θ_run defs _ _).mono (fun r h c => ?_) (run_main m ρ hbody)
  refine ⟨?_, ?_⟩
  · refine (h c (1 : Fin 2)).trans ?_
    refine (finalA_out m ρ c).trans ?_
    show outAt (X m ρ) c = _
    rw [X_eq]
  · exact (h c (0 : Fin 2)).trans (finalA_x m ρ c)

/-- info: 'Cert.Kernel.Proto.krun_of' depends on axioms: [propext, Classical.choice, Quot.sound] -/
#guard_msgs in #print axioms krun_of

end Cert.Kernel.Proto

end
-- ==== Proof.KSteps.lean ====
/- One lemma per kind of signal and of wait, at a symbolic device. -/
import proofs.«900604_g7700000000000605_dist_softmax_colshard_i_m512_n256_v7x_i32_f32_1_alg».proof.Proof.KData

noncomputable section

namespace Cert.Kernel.Proto

open Idealize.ShloMosaic
open Idealize.ShloMosaic.TcCoe
open Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

theorem inv_at' (ck : Dev nD × Fin 25) :
    (bigSep Finset.univ fun ck : Dev nD × Fin 25 => (cellInv ER (Rd m ρ) (K ck) (kcell ck) : sProp 𝕄)) ⊢ cellInv ER (Rd m ρ) (K ck) (kcell ck) :=
  bigSep_elim (Finset.mem_univ ck)
theorem reached_at' (ck : Dev nD × Fin 25) :
    (bigSep Finset.univ fun ck : Dev nD × Fin 25 => (reached ER (kcell ck) 0 : sProp 𝕄)) ⊢ reached ER (kcell ck) 0 :=
  bigSep_elim (Finset.mem_univ ck)

theorem inv_of (c : Dev nD) {i : Fin 25} {sm : SemLoc sig} (h : csem i = sm) :
    records m ρ K ⊢ cellInv ER (Rd m ρ) (K (c, i)) ((c : Thread nD τ), sm) := by
  subst h; unfold records; iintro ⟨HI, -⟩; iapply (inv_at' m ρ K (c, i)); iexact HI
theorem reached_of (c : Dev nD) {i : Fin 25} {sm : SemLoc sig} (h : csem i = sm) :
    records m ρ K ⊢ reached ER ((c : Thread nD τ), sm) 0 := by
  subst h; unfold records; iintro ⟨-, HR⟩; iapply (reached_at' (F := F) (c, i)); iexact HR

theorem barPay_row (c : Dev nD) (j : Fin 8) (d : Fin 10) (hd : d.val < 7) (hoff : rowOff d = j) :
    (barPay (rowPeer j c) d : sProp 𝕄) = iprop((∃ f, pt1 c (rOf c + j) fullShare f) ∗ reached ER (r1Cell c (rOf c + j)) 0) := by
  unfold barPay rowSlot; rw [if_pos hd, hoff, rowPeer_neg, rOf_rowPeer]
theorem barPay_col (c : Dev nD) (j : Fin 4) (d : Fin 10) (hd : ¬ d.val < 7) (hoff : colOff d = j) :
    (barPay (colPeer j c) d : sProp 𝕄) = iprop((∃ f, pt2 c (zOf c + j) fullShare f) ∗ reached ER (r2Cell c (zOf c + j)) 0) := by
  unfold barPay colSlot; rw [if_neg hd, hoff, colPeer_neg, zOf_colPeer]

theorem sig_row (c : Dev nD) (j : Fin 8) (d : Fin 10) (hd : d.val < 7) (hoff : rowOff d = j) {n : Dev nD} (hn : n = rowPeer j c)
    {α : Type} {Q : α → sProp 𝕄} {k : PUnit → Prog (TpuEff nD τ sig (Elt F) Λ₀ .tc) α}
    (O₀ O : CellTallies nD τ sig Unit) (hO : O₀ = O + tallyAt (barCell (rowPeer j c)) () 1) (W : Waits sig Unit)
    (f : Buf (Elt F) ((c : Thread nD τ).loc cc0_scratch0)) :
    iprop(records m ρ K ∗ owes (c : Thread nD τ) O₀ W ∗ dutyTok ER (barCell (rowPeer j c)) 0 d ∗ pt1 c (rOf c + j) fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toNat) k) Q) := by
  subst hn
  iintro ⟨#HR, HO, Htok, Hslot⟩
  iapply (Rounds.wp_signal 𝒱₀ ER (Rd m ρ) (c : Thread nD τ) none (dst := (rowPeer j c : Thread nD τ)) (κ := K (rowPeer j c, 0)) (d := d)
      (by rw [duties_bar]; exact Finset.mem_univ _) ((amount_bar m ρ (rowPeer j c) d).trans (by decide)) () O hO)
  iframe HO Htok
  isplitr; · iapply (inv_of m ρ K (rowPeer j c) csem_bar); iexact HR
  isplitl
  · rw [payload_bar, barPay_row c j d hd hoff]
    isplitl; · iexists f; iexact Hslot
    iapply (reached_of m ρ K c (csem_r1 (rOf c + j))); iexact HR
  · iapply (reached_of m ρ K (rowPeer j c) csem_bar); iexact HR

theorem sig_col (c : Dev nD) (j : Fin 4) (d : Fin 10) (hd : ¬ d.val < 7) (hoff : colOff d = j) {n : Dev nD} (hn : n = colPeer j c)
    {α : Type} {Q : α → sProp 𝕄} {k : PUnit → Prog (TpuEff nD τ sig (Elt F) Λ₀ .tc) α}
    (O₀ O : CellTallies nD τ sig Unit) (hO : O₀ = O + tallyAt (barCell (colPeer j c)) () 1) (W : Waits sig Unit)
    (f : Buf (Elt F) ((c : Thread nD τ).loc cc0_scratch1)) :
    iprop(records m ρ K ∗ owes (c : Thread nD τ) O₀ W ∗ dutyTok ER (barCell (colPeer j c)) 0 d ∗ pt2 c (zOf c + j) fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toNat) k) Q) := by
  subst hn
  iintro ⟨#HR, HO, Htok, Hslot⟩
  iapply (Rounds.wp_signal 𝒱₀ ER (Rd m ρ) (c : Thread nD τ) none (dst := (colPeer j c : Thread nD τ)) (κ := K (colPeer j c, 0)) (d := d)
      (by rw [duties_bar]; exact Finset.mem_univ _) ((amount_bar m ρ (colPeer j c) d).trans (by decide)) () O hO)
  iframe HO Htok
  isplitr; · iapply (inv_of m ρ K (colPeer j c) csem_bar); iexact HR
  isplitl
  · rw [payload_bar, barPay_col c j d hd hoff]
    isplitl; · iexists f; iexact Hslot
    iapply (reached_of m ρ K c (csem_r2 (zOf c + j))); iexact HR
  · iapply (reached_of m ρ K (colPeer j c) csem_bar); iexact HR

theorem wait_bar (c : Dev nD) {α : Type} {Q : α → sProp 𝕄} {k : PUnit → Prog (TpuEff nD τ sig (Elt F) Λ₀ .tc) α} (W : Waits sig Unit) :
    iprop(records m ρ K ∗ levAts L lv ∗ cred (tallyAt (barCell c) () 10) ∗ owes (c : Thread nD τ) (Oa c 10) W ∗ atPos ER (barCell c) 0 ∅ 0)
      ⊢ iprop(((owes (c : Thread nD τ) (Oa c 10) (insert (SemLoc.reg barS, ()) W) ∗ atPos ER (barCell c) 1 ∅ 0
              ∗ rowSlot c 7 ∗ rowSlot c 6 ∗ rowSlot c 5 ∗ rowSlot c 4 ∗ rowSlot c 3 ∗ rowSlot c 2 ∗ rowSlot c 1 ∗ colSlot c 3 ∗ colSlot c 2 ∗ colSlot c 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (10#32 : BitVec 32).toNat) k) Q) := by
  iintro ⟨#HR, #Hlev, Hc, HO, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := Oa c 10) (W := W) (R := 0) (m := 0) (T := ∅)
      (by rw [expect_bar]; decide)) $$ [Hc HO Hat]
  · isplitr; · iapply (inv_of m ρ K c csem_bar); iexact HR
    isplitl [Hc]; · iexact Hc
    iframe HO Hat
    iapply (mayWait_bar c); iexact Hlev
  iintro ⟨HO, Hat, -, Hpay⟩
  ihave Hp := (Entails.of_eq (rest_bar m ρ c)) $$ Hpay
  iapply Hk
  iframe HO Hat Hp

/-- What a wait knows of one of device `c`'s own DMA cells: its one round has the one duty `0`, of amount `N`, handing over `P`,
    and the device may wait on it while owing `O`. -/
structure DmaWait (c : Dev nD) (i : Fin 25) (q : DmaSem sig) (N : ℕ) (P : sProp 𝕄) (O : CellTallies nD τ sig Unit) : Prop where
  hq : csem i = .dma q
  hdut : (Rd (F := F) m ρ).duties ((c : Thread nD τ), .dma q) 0 = {0}
  hamt : (Rd (F := F) m ρ).amount ((c : Thread nD τ), .dma q) 0 0 = N
  hpay : (Rd (F := F) m ρ).payload ((c : Thread nD τ), .dma q) 0 0 = P
  hmw : (levAts L lv : sProp 𝕄) ⊢ MayWait (c : Thread nD τ) (.dma q) () O

/-- The wait takes the cell's whole round and brings its payload. -/
theorem wait_dma {c : Dev nD} {i : Fin 25} {q : DmaSem sig} {N : ℕ} {P : sProp 𝕄} {O : CellTallies nD τ sig Unit} (h : DmaWait m ρ c i q N P O)
    {q' : DmaSem sig} (hq' : q' = q)
    {src dst : Memref sig .tc .vmem S2x512 .f32} (hc : dst.view.dmaCredit = N) {hsrc : src.view.WordExact} {hdst : dst.view.WordExact}
    {α : Type} {Q : α → sProp 𝕄} {k : PUnit → Prog (TpuEff nD τ sig (Elt F) Λ₀ .tc) α} (W : Waits sig Unit) :
    iprop(records m ρ K ∗ levAts L lv ∗ cred (tallyAt ((c : Thread nD τ), .dma q) () N) ∗ owes (c : Thread nD τ) O W
        ∗ atPos ER ((c : Thread nD τ), .dma q) 0 ∅ 0)
      ⊢ iprop(((owes (c : Thread nD τ) O (insert (SemLoc.dma q, ()) W) ∗ atPos ER ((c : Thread nD τ), .dma q) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  subst hq'; subst hc
  iintro ⟨#HR, #Hlev, Hc, HO, Hat⟩ Hk
  iapply (Rounds.wp_wait_rest_token 𝒱₀ ER (Rd m ρ) (c : Thread nD τ) none (κ := K (c, i))
      (wpE_waitDma2_eq 𝒱₀ (c : Thread nD τ) none Set.univ) (Set.mem_univ _) () (O := O) (W := W) (R := 0) (m := 0) (T := ∅)
      (by unfold Schedule.expect Schedule.amountOf; rw [h.hdut, Finset.sum_singleton, h.hamt, Nat.zero_add])) $$ [Hc HO Hat]
  · isplitr; · iapply (inv_of m ρ K c h.hq); iexact HR
    isplitl [Hc]; · iexact Hc
    iframe HO Hat
    iapply h.hmw; iexact Hlev
  iintro ⟨HO, Hat, -, Hpay⟩
  have hE : bigSep ((Rd (F := F) m ρ).duties ((c : Thread nD τ), SemLoc.dma q') 0 \ ∅) (fun d => (Rd (F := F) m ρ).payload ((c : Thread nD τ), SemLoc.dma q') 0 d) = P := by
    rw [Finset.sdiff_empty, h.hdut, bigSep_singleton, h.hpay]
  ihave Hp := (Entails.of_eq hE) $$ Hpay
  iapply Hk
  iframe HO Hat Hp

/-- The four kinds of DMA cell a device waits on: a landing of either exchange, and the read-out of one of its own copies. -/
theorem r1Wait (c : Dev nD) (j : Fin 8) (hj : j ≠ 0) :
    DmaWait m ρ c (iR1 (rOf c + j)) (r1q (rOf c + j)) N1 (pt1 c (rOf c + j) fullShare (g1At m ρ c)) (Oa c 17) :=
  ⟨csem_r1 _, duties_r1 m ρ c fun h => hj (by simpa using h), amount_r1 m ρ c _ 0, payload_r1 m ρ c _ 0, mayWait_r1 c _⟩
theorem r2Wait (c : Dev nD) (j : Fin 4) (hj : j ≠ 0) :
    DmaWait m ρ c (iR2 (zOf c + j)) (r2q (zOf c + j)) N2 (pt2 c (zOf c + j) fullShare (g2At m ρ c)) (Oa c 20) :=
  ⟨csem_r2 _, duties_r2 m ρ c fun h => hj (by simpa using h), amount_r2 m ρ c _ 0, payload_r2 m ρ c _ 0, mayWait_done c _⟩
theorem s1Wait (c : Dev nD) (j : Fin 8) (hj : j ≠ 0) :
    DmaWait m ρ c (iS1 j) (s1q j) N1 (pt1 c (rOf c) (sendQ1 j) (g1At m ρ c)) (Oa c 20) :=
  ⟨csem_s1 _, duties_s1 m ρ c hj, amount_s1 m ρ c _ 0, payload_s1 m ρ c _ 0, mayWait_done c _⟩
theorem s2Wait (c : Dev nD) (j : Fin 4) (hj : j ≠ 0) :
    DmaWait m ρ c (iS2 j) (s2q j) N2 (pt2 c (zOf c) (sendQ2 j) (g2At m ρ c)) (Oa c 20) :=
  ⟨csem_s2 _, duties_s2 m ρ c hj, amount_s2 m ρ c _ 0, payload_s2 m ρ c _ 0, mayWait_done c _⟩

end Cert.Kernel.Proto

end
-- ==== Proof.KSteps2.lean ====
/- A copy between peers leaves in the receiver's slot exactly the receiver's final contents there. -/
import proofs.«900604_g7700000000000605_dist_softmax_colshard_i_m512_n256_v7x_i32_f32_1_alg».proof.Proof.KSteps

noncomputable section

namespace Cert.Kernel.Proto

open Cert.Kernel.Spec

open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

theorem g1At_row (c : Dev nD) (j : Fin 8) : (g1At m ρ (rowPeer j c) : Vec F S8x2x512 .f32) = g1At m ρ c := by
  funext i; show G1 (X m ρ) (rowPeer j c) i = G1 (X m ρ) c i; unfold G1; rw [zOf_rowPeer]
theorem g2At_col (c : Dev nD) (j : Fin 4) : (g2At m ρ (colPeer j c) : Vec F S4x2x512 .f32) = g2At m ρ c := by
  funext i; show G2 (X m ρ) (colPeer j c) i = G2 (X m ρ) c i; unfold G2; rw [rOf_colPeer]

theorem send1 (c : Dev nD) (j : Fin 8) (hj : j ≠ 0) {n : Dev nD} (hn : n = rowPeer j c)
    {qs qr : DmaSem sig} (hqs : qs = s1q j) (hqr : qr = r1q (rOf c))
    {src : Memref sig .tc .vmem S2x512 .f32} {dst : Memref sig (Dev.tc n : Thread nD τ).2.kind .vmem S2x512 .f32}
    (hs : src = slot1 (rOf c)) (hd : dst = slot1 (rOf c))
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α}
    (fn : Buf (Elt F) ((rowPeer j c : Thread nD τ).loc cc0_scratch0))
    (O₀ O : CellTallies nD τ sig Unit) (hO : O₀ = O + tallyAt (r1Cell (rowPeer j c) (rOf c)) () N1) (W : Waits sig Unit) :
    iprop(records m ρ K ∗ pt1 c (rOf c) (sendQ1 j) (g1At m ρ c) ∗ pt1 (rowPeer j c) (rOf c) fullShare fn
        ∗ owes (c : Thread nD τ) O₀ W ∗ dutyTok ER (s1Cell c j) 0 0 ∗ dutyTok ER (r1Cell (rowPeer j c) (rOf c)) 0 0)
      ⊢ iprop(((cred (tallyAt (s1Cell c j) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn; subst hqs; subst hqr; subst hs; subst hd
  iintro ⟨#HR, Hsrc, Hdst, HO, Ht1, Ht2⟩
  unfold pt1
  iapply (Rounds.wp_send_pointsTo 𝒱₀ ER (Rd m ρ) (c : Thread nD τ) none (c' := (rowPeer j c : Thread nD τ))
      (src := slot1 (rOf c)) (dst := slot1 (rOf c)) (q := sendQ1 j) (fs := g1At m ρ c)
      (κ₁ := K (c, iS1 j)) (κ₂ := K (rowPeer j c, iR1 (rOf c)))
      (r₁ := 0) (r₂ := 0) (d₁ := 0) (d₂ := 0) (fd := fn)
      (by rw [duties_s1 m ρ c hj]; exact Finset.mem_singleton_self _)
      (by rw [duties_r1 m ρ (rowPeer j c) (fun h => rOf_rowPeer_ne hj c h.symm)]; exact Finset.mem_singleton_self _)
      () () N1 rfl (amount_s1 m ρ c j 0) (amount_r1 m ρ (rowPeer j c) (rOf c) 0) O hO (W := W)
      (by rw [payload_s1]; unfold s1Pay pt1; exact BI.Entails.refl _)
      (by
        rw [payload_r1]; unfold r1Pay pt1
        exact Entails.of_eq (pointsTo_congr fun i hi =>
          (write_read_self (slot1 (rOf c)).view fn (g1At m ρ c) hi).trans (congrFun (g1At_row m ρ c j).symm i))))
  iframe Hsrc Hdst HO Ht1 Ht2
  isplitr; · iapply (inv_of m ρ K c (csem_s1 j)); iexact HR
  isplitr; · iapply (inv_of m ρ K (rowPeer j c) (csem_r1 (rOf c))); iexact HR
  isplitr; · iapply (reached_of m ρ K c (csem_s1 j)); iexact HR
  iapply (reached_of m ρ K (rowPeer j c) (csem_r1 (rOf c))); iexact HR

theorem send2 (c : Dev nD) (j : Fin 4) (hj : j ≠ 0) {n : Dev nD} (hn : n = colPeer j c)
    {qs qr : DmaSem sig} (hqs : qs = s2q j) (hqr : qr = r2q (zOf c))
    {src : Memref sig .tc .vmem S2x512 .f32} {dst : Memref sig (Dev.tc n : Thread nD τ).2.kind .vmem S2x512 .f32}
    (hs : src = slot2 (zOf c)) (hd : dst = slot2 (zOf c))
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α}
    (fn : Buf (Elt F) ((colPeer j c : Thread nD τ).loc cc0_scratch1))
    (O₀ O : CellTallies nD τ sig Unit) (hO : O₀ = O + tallyAt (r2Cell (colPeer j c) (zOf c)) () N2) (W : Waits sig Unit) :
    iprop(records m ρ K ∗ pt2 c (zOf c) (sendQ2 j) (g2At m ρ c) ∗ pt2 (colPeer j c) (zOf c) fullShare fn
        ∗ owes (c : Thread nD τ) O₀ W ∗ dutyTok ER (s2Cell c j) 0 0 ∗ dutyTok ER (r2Cell (colPeer j c) (zOf c)) 0 0)
      ⊢ iprop(((cred (tallyAt (s2Cell c j) () N2) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn; subst hqs; subst hqr; subst hs; subst hd
  iintro ⟨#HR, Hsrc, Hdst, HO, Ht1, Ht2⟩
  unfold pt2
  iapply (Rounds.wp_send_pointsTo 𝒱₀ ER (Rd m ρ) (c : Thread nD τ) none (c' := (colPeer j c : Thread nD τ))
      (src := slot2 (zOf c)) (dst := slot2 (zOf c)) (q := sendQ2 j) (fs := g2At m ρ c)
      (κ₁ := K (c, iS2 j)) (κ₂ := K (colPeer j c, iR2 (zOf c)))
      (r₁ := 0) (r₂ := 0) (d₁ := 0) (d₂ := 0) (fd := fn)
      (by rw [duties_s2 m ρ c hj]; exact Finset.mem_singleton_self _)
      (by rw [duties_r2 m ρ (colPeer j c) (fun h => zOf_colPeer_ne hj c h.symm)]; exact Finset.mem_singleton_self _)
      () () N2 rfl (amount_s2 m ρ c j 0) (amount_r2 m ρ (colPeer j c) (zOf c) 0) O hO (W := W)
      (by rw [payload_s2]; unfold s2Pay pt2; exact BI.Entails.refl _)
      (by
        rw [payload_r2]; unfold r2Pay pt2
        exact Entails.of_eq (pointsTo_congr fun i hi =>
          (write_read_self (slot2 (zOf c)).view fn (g2At m ρ c) hi).trans (congrFun (g2At_col m ρ c j).symm i))))
  iframe Hsrc Hdst HO Ht1 Ht2
  isplitr; · iapply (inv_of m ρ K c (csem_s2 j)); iexact HR
  isplitr; · iapply (inv_of m ρ K (colPeer j c) (csem_r2 (zOf c))); iexact HR
  isplitr; · iapply (reached_of m ρ K c (csem_s2 j)); iexact HR
  iapply (reached_of m ρ K (colPeer j c) (csem_r2 (zOf c))); iexact HR

end Cert.Kernel.Proto

end
-- ==== Proof.KRegions.lean ====
/- A buffer is the disjoint union of its slots, and a slot held in full splits by share. -/
import proofs.«900604_g7700000000000605_dist_softmax_colshard_i_m512_n256_v7x_i32_f32_1_alg».proof.Proof.KData

noncomputable section

namespace Cert.Kernel.Proto

open Cert.Kernel.Gen Cert.Kernel.Spec

open Idealize.ShloMosaic
open Idealize.ShloMosaic.TcCoe
open Idealize.SL.RA Idealize.SL.BI
open Idealize.SL.BI.BIBase

variable {F : FTy → Type} [FloatOps F]

local notation "𝕄" => MT nD τ sig Unit (Elt F) ℕ UU ℕ

variable (m : (ℓ : Loc nD τ sig) → Buf (Elt F) ℓ) (ρ : Dev nD → PrngReg)

theorem set1_disjoint {k k' : Fin 8} (h : k ≠ k') : Disjoint (set1 k) (set1 k') :=
  Finset.disjoint_left.mpr fun i hi hi' => h ((mem_set1.mp hi).symm.trans (mem_set1.mp hi'))
theorem set2_disjoint {k k' : Fin 4} (h : k ≠ k') : Disjoint (set2 k) (set2 k') :=
  Finset.disjoint_left.mpr fun i hi hi' => h ((mem_set2.mp hi).symm.trans (mem_set2.mp hi'))

theorem whole1 (c : Dev nD) (q : PosShare TreeShare) (f : Buf (Elt F) ((c : Thread nD τ).loc cc0_scratch0)) :
    ((((c : Thread nD τ).loc cc0_scratch0) ↦{q} f : sProp 𝕄)) = bigSep Finset.univ fun k : Fin 8 => pt1 c k q f := by
  rw [pointsTo_bySlots (Val := Elt F) (Ix := Unit) (Name := ℕ) (U := UU) (Lvl := ℕ) (ℓ := (c : Thread nD τ).loc cc0_scratch0) (fun k : Fin 8 => set1 k)
    (fun (i : S8x2x512.Idx) => ⟨i 0, mem_set1.mpr rfl⟩) (fun k k' h => set1_disjoint h) q f]
  exact congrArg (bigSep Finset.univ) (funext fun k => (pt1_eq c k q f).symm)

theorem whole2 (c : Dev nD) (q : PosShare TreeShare) (f : Buf (Elt F) ((c : Thread nD τ).loc cc0_scratch1)) :
    ((((c : Thread nD τ).loc cc0_scratch1) ↦{q} f : sProp 𝕄)) = bigSep Finset.univ fun k : Fin 4 => pt2 c k q f := by
  rw [pointsTo_bySlots (Val := Elt F) (Ix := Unit) (Name := ℕ) (U := UU) (Lvl := ℕ) (ℓ := (c : Thread nD τ).loc cc0_scratch1) (fun k : Fin 4 => set2 k)
    (fun (i : S4x2x512.Idx) => ⟨i 0, mem_set2.mpr rfl⟩) (fun k k' h => set2_disjoint h) q f]
  exact congrArg (bigSep Finset.univ) (funext fun k => (pt2_eq c k q f).symm)

theorem slots1 (c : Dev nD) (q : PosShare TreeShare) (f : Buf (Elt F) ((c : Thread nD τ).loc cc0_scratch0)) :
    ((((c : Thread nD τ).loc cc0_scratch0) ↦{q} f : sProp 𝕄))
      ⊣⊢ iprop(pt1 c (rOf c) q f ∗ pt1 c (rOf c + 1) q f ∗ pt1 c (rOf c + 2) q f ∗ pt1 c (rOf c + 3) q f
          ∗ pt1 c (rOf c + 4) q f ∗ pt1 c (rOf c + 5) q f ∗ pt1 c (rOf c + 6) q f ∗ pt1 c (rOf c + 7) q f) :=
  have h := (whole1 c q f).trans (bigSep_fin8_from (rOf c) fun k => pt1 c k q f)
  ⟨Entails.of_eq h, Entails.of_eq h.symm⟩

theorem slots2 (c : Dev nD) (q : PosShare TreeShare) (f : Buf (Elt F) ((c : Thread nD τ).loc cc0_scratch1)) :
    ((((c : Thread nD τ).loc cc0_scratch1) ↦{q} f : sProp 𝕄))
      ⊣⊢ iprop(pt2 c (zOf c) q f ∗ pt2 c (zOf c + 1) q f ∗ pt2 c (zOf c + 2) q f ∗ pt2 c (zOf c + 3) q f) :=
  have h := (whole2 c q f).trans (bigSep_fin4_from (zOf c) fun k => pt2 c k q f)
  ⟨Entails.of_eq h, Entails.of_eq h.symm⟩

theorem halves1 (c : Dev nD) (k : Fin 8) (f : Buf (Elt F) ((c : Thread nD τ).loc cc0_scratch0)) :
    (pt1 c k fullShare f : sProp 𝕄) ⊣⊢ iprop(pt1 c k fullShare.left f ∗ pt1 c k keepQ f) := by
  unfold pt1 keepQ
  exact pointsTo_share (PosShare.mem_left_op_right fullShare)
theorem halves2 (c : Dev nD) (k : Fin 4) (f : Buf (Elt F) ((c : Thread nD τ).loc cc0_scratch1)) :
    (pt2 c k fullShare f : sProp 𝕄) ⊣⊢ iprop(pt2 c k fullShare.left f ∗ pt2 c k keepQ f) := by
  unfold pt2 keepQ
  exact pointsTo_share (PosShare.mem_left_op_right fullShare)

theorem shares1 (c : Dev nD) (k : Fin 8) (f : Buf (Elt F) ((c : Thread nD τ).loc cc0_scratch0)) :
    (pt1 c k fullShare.left f : sProp 𝕄)
      ⊣⊢ iprop(pt1 c k (sendQ1 1) f ∗ pt1 c k (sendQ1 2) f ∗ pt1 c k (sendQ1 3) f ∗ pt1 c k (sendQ1 4) f
          ∗ pt1 c k (sendQ1 5) f ∗ pt1 c k (sendQ1 6) f ∗ pt1 c k (sendQ1 7) f) := by
  unfold pt1
  have h := pointsTo_sevenths (Val := Elt F) (Ix := Unit) (Name := ℕ) (U := UU) (Lvl := ℕ) (ℓ := (slot1 k).view.loc (c : Thread nD τ)) (slot1 k).view.set f
  exact ⟨Entails.of_eq h, Entails.of_eq h.symm⟩
theorem shares2 (c : Dev nD) (k : Fin 4) (f : Buf (Elt F) ((c : Thread nD τ).loc cc0_scratch1)) :
    (pt2 c k fullShare.left f : sProp 𝕄) ⊣⊢ iprop(pt2 c k (sendQ2 1) f ∗ pt2 c k (sendQ2 2) f ∗ pt2 c k (sendQ2 3) f) := by
  unfold pt2
  have h := pointsTo_thirds (Val := Elt F) (Ix := Unit) (Name := ℕ) (U := UU) (Lvl := ℕ) (ℓ := (slot2 k).view.loc (c : Thread nD τ)) (slot2 k).view.set f
  exact ⟨Entails.of_eq h, Entails.of_eq h.symm⟩

abbrev ownRect1 (c : Dev nD) : Rect S8x2x512 := Rect.unit (s := S8x2x512) (k0_off1 c) S1x2x512.size (k0_off1_inb c)
abbrev ownRect2 (c : Dev nD) : Rect S4x2x512 := Rect.unit (s := S4x2x512) (k0_off6 c) S1x2x512.size (k0_off6_inb c)

theorem own1_eq (c : Dev nD) : ownRect1 c = rect1 (rOf c) := Rect.unit_congr (k0_off1_eq c) _ _
theorem own2_eq (c : Dev nD) : ownRect2 c = rect2 (zOf c) := Rect.unit_congr (k0_off6_eq c) _ _

theorem access1_set (c : Dev nD) : ((View.whole cc0_scratch0).slice (ownRect1 c)).set = set1 (rOf c) := by
  rw [View.set_slice_whole, own1_eq]
theorem access2_set (c : Dev nD) : ((View.whole cc0_scratch1).slice (ownRect2 c)).set = set2 (zOf c) := by
  rw [View.set_slice_whole, own2_eq]

theorem load1_sub (c : Dev nD) : (g1M : Memref sig .tc .vmem S8x2x512 .f32).view.setOn (ownRect1 c).toLoadRect.set ⊆ (slot1 (rOf c)).view.set := by
  intro i hi
  obtain ⟨a, ha, rfl⟩ := Finset.mem_map.mp hi
  rw [own1_eq] at ha
  rw [slot1_set]
  exact ha
theorem load2_sub (c : Dev nD) : (g2M : Memref sig .tc .vmem S4x2x512 .f32).view.setOn (ownRect2 c).toLoadRect.set ⊆ (slot2 (zOf c)).view.set := by
  intro i hi
  obtain ⟨a, ha, rfl⟩ := Finset.mem_map.mp hi
  rw [own2_eq] at ha
  rw [slot2_set]
  exact ha
theorem store1_sub (c : Dev nD) : ((g1M : Memref sig .tc .vmem S8x2x512 .f32).access (ownRect1 c)).setOn Finset.univ ⊆ (slot1 (rOf c)).view.set := by
  intro i hi
  rw [slot1_set, ← access1_set c]
  exact hi
theorem store2_sub (c : Dev nD) : ((g2M : Memref sig .tc .vmem S4x2x512 .f32).access (ownRect2 c)).setOn Finset.univ ⊆ (slot2 (zOf c)).view.set := by
  intro i hi
  rw [slot2_set, ← access2_set c]
  exact hi

open Idealize.ShloMosaic.ValueIdx

theorem write_slot1 (k : Fin 8) (off : Fin 3 → Nat) (hoff : off = ![k.val, 0, 0])
    (p : ∀ a, off a + S1x2x512.size a ≤ S8x2x512.size a)
    (f : (cc0_scratch0 : Ref sig .tc).ty.Contents (Elt F)) (w : S1x2x512.Idx → F .f32) :
    ∀ i ∈ set1 k, ((g1M : Memref sig .tc .vmem S8x2x512 .f32).access (Rect.unit (s := S8x2x512) off S1x2x512.size p)).write (Elt F) f w Finset.univ i
      = w (ix3 (n0 := 1) (n1 := 2) (n2 := 512) 0 (i 1) (i 2)) := by
  subst hoff
  intro i hi
  have h0 : (i 0).val = k.val := congrArg Fin.val (mem_set1.mp hi)
  have hy : ((g1M : Memref sig .tc .vmem S8x2x512 .f32).access (Rect.unit (s := S8x2x512) ![k.val, 0, 0] S1x2x512.size p)).emb
      (ix3 (n0 := 1) (n1 := 2) (n2 := 512) 0 (i 1) (i 2)) = i := by
    funext a; apply Fin.ext
    match a with
    | ⟨0, _⟩ => show k.val + 1 * 0 = (i 0).val; omega
    | ⟨1, _⟩ => show 0 + 1 * (i 1).val = (i 1).val; omega
    | ⟨2, _⟩ => show 0 + 1 * (i 2).val = (i 2).val; omega
  conv_lhs => rw [← hy, View.write_emb_of_mem _ _ (Finset.mem_univ _)]
  rfl

theorem write_slot2 (k : Fin 4) (off : Fin 3 → Nat) (hoff : off = ![k.val, 0, 0])
    (p : ∀ a, off a + S1x2x512.size a ≤ S4x2x512.size a)
    (f : (cc0_scratch1 : Ref sig .tc).ty.Contents (Elt F)) (w : S1x2x512.Idx → F .f32) :
    ∀ i ∈ set2 k, ((g2M : Memref sig .tc .vmem S4x2x512 .f32).access (Rect.unit (s := S4x2x512) off S1x2x512.size p)).write (Elt F) f w Finset.univ i
      = w (ix3 (n0 := 1) (n1 := 2) (n2 := 512) 0 (i 1) (i 2)) := by
  subst hoff
  intro i hi
  have h0 : (i 0).val = k.val := congrArg Fin.val (mem_set2.mp hi)
  have hy : ((g2M : Memref sig .tc .vmem S4x2x512 .f32).access (Rect.unit (s := S4x2x512) ![k.val, 0, 0] S1x2x512.size p)).emb
      (ix3 (n0 := 1) (n1 := 2) (n2 := 512) 0 (i 1) (i 2)) = i := by
    funext a; apply Fin.ext
    match a with
    | ⟨0, _⟩ => show k.val + 1 * 0 = (i 0).val; omega
    | ⟨1, _⟩ => show 0 + 1 * (i 1).val = (i 1).val; omega
    | ⟨2, _⟩ => show 0 + 1 * (i 2).val = (i 2).val; omega
  conv_lhs => rw [← hy, View.write_emb_of_mem _ _ (Finset.mem_univ _)]
  rfl

theorem store1_val (c : Dev nD) (f : Buf (Elt F) ((c : Thread nD τ).loc cc0_scratch0)) :
    ∀ i ∈ (slot1 (rOf c)).view.set,
      ((g1M : Memref sig .tc .vmem S8x2x512 .f32).access (ownRect1 c)).write (Elt F) f (k0_pay4 (xstg m ρ c)) Finset.univ i = g1At m ρ c i := by
  intro i hi
  rw [slot1_set] at hi
  have h0 : i 0 = rOf c := mem_set1.mp hi
  refine (write_slot1 (rOf c) (k0_off1 c) (k0_off1_eq c) (k0_off1_inb c) f (k0_pay4 (xstg m ρ c)) i hi).trans ?_
  show k0_pay4 (xstg m ρ c) (ix3 (n0 := 1) (n1 := 2) (n2 := 512) 0 (i 1) (i 2))
      = k0_pay4 (xstg m ρ (dv (zOf c) (i 0))) (ix3 0 (i 1) (i 2))
  rw [h0, dv_zOf_rOf]

theorem store2_val (c : Dev nD) (f : Buf (Elt F) ((c : Thread nD τ).loc cc0_scratch1)) :
    ∀ i ∈ (slot2 (zOf c)).view.set,
      ((g2M : Memref sig .tc .vmem S4x2x512 .f32).access (ownRect2 c)).write (Elt F) f (k0_pay5 (g1At m ρ c)) Finset.univ i = g2At m ρ c i := by
  intro i hi
  rw [slot2_set] at hi
  have h0 : i 0 = zOf c := mem_set2.mp hi
  refine (write_slot2 (zOf c) (k0_off6 c) (k0_off6_eq c) (k0_off6_inb c) f (k0_pay5 (g1At m ρ c)) i hi).trans ?_
  show k0_pay5 (G1 (X m ρ) c) (ix3 (n0 := 1) (n1 := 2) (n2 := 512) 0 (i 1) (i 2))
      = k0_pay5 (G1 (X m ρ) (dv (i 0) (rOf c))) (ix3 0 (i 1) (i 2))
  rw [h0, dv_zOf_rOf]

end Cert.Kernel.Proto

end
-- ==== Proof.KPrinted.lean ====
/- The slices the body takes of its semaphore arrays and of its buffers are the named semaphores and slots. -/
import proofs.«900604_g7700000000000605_dist_softmax_colshard_i_m512_n256_v7x_i32_f32_1_alg».proof.Proof.KCells

noncomputable section

namespace Cert.Kernel.Proto

open Cert.Kernel.Gen
open Idealize.ShloMosaic

theorem s1sem (j : Fin 8) (p : ∀ a, (![j.val] : Fin 1 → Nat) a + S1.size a ≤ S8.size a) :
    ((cc0_scratch2.slice (Rect.unit (s := S8) ![j.val] S1.size p)).squeeze S_ squeezes_S1_S_).sem = s1q j := by
  revert j; decide
theorem s2sem (j : Fin 4) (p : ∀ a, (![j.val] : Fin 1 → Nat) a + S1.size a ≤ S4.size a) :
    ((cc0_scratch4.slice (Rect.unit (s := S4) ![j.val] S1.size p)).squeeze S_ squeezes_S1_S_).sem = s2q j := by
  revert j; decide

theorem r1sem_own (c : Dev nD) :
    ((cc0_scratch3.slice (Rect.unit (s := S8) (k0_off2 c) S1.size (k0_off2_inb c))).squeeze S_ squeezes_S1_S_).sem = r1q (rOf c) := by
  revert c; decide +kernel
theorem r2sem_own (c : Dev nD) :
    ((cc0_scratch5.slice (Rect.unit (s := S4) (k0_off7 c) S1.size (k0_off7_inb c))).squeeze S_ squeezes_S1_S_).sem = r2q (zOf c) := by
  revert c; decide +kernel

theorem r1sem_recv (c : Dev nD) (r : Fin 7) :
    ((cc0_scratch3.slice (Rect.unit (s := S8) (k0_off4 c (BitVec.ofNat 32 (1 + r.val))) S1.size (k0_off4_inb c r))).squeeze S_ squeezes_S1_S_).sem
      = r1q (rOf c + ⟨7 - r.val, by omega⟩) := by
  revert c r; decide +kernel
theorem r2sem_recv (c : Dev nD) (r : Fin 3) :
    ((cc0_scratch5.slice (Rect.unit (s := S4) (k0_off9 c (BitVec.ofNat 32 (1 + r.val))) S1.size (k0_off9_inb c r))).squeeze S_ squeezes_S1_S_).sem
      = r2q (zOf c + ⟨3 - r.val, by omega⟩) := by
  revert c r; decide +kernel

theorem ownSlot1 (c : Dev nD) :
    (g1M.slice (Rect.unit (s := S8x2x512) (k0_off3 c) S1x2x512.size (k0_off3_inb c)) (fun _ => rfl)).squeeze S2x512 squeezes_S1x2x512_S2x512 = slot1 (rOf c) := by
  rw [own_slot1]
theorem ownSlot2 (c : Dev nD) :
    (g2M.slice (Rect.unit (s := S4x2x512) (k0_off8 c) S1x2x512.size (k0_off8_inb c)) (fun _ => rfl)).squeeze S2x512 squeezes_S1x2x512_S2x512 = slot2 (zOf c) := by
  rw [own_slot2]

theorem dst1_credit (off : Fin 3 → Nat) (p : ∀ a, off a + S1x2x512.size a ≤ S8x2x512.size a) :
    ((g1M.slice (Rect.unit (s := S8x2x512) off S1x2x512.size p) (fun _ => rfl)).squeeze S2x512 squeezes_S1x2x512_S2x512).view.dmaCredit = N1 := rfl
theorem dst2_credit (off : Fin 3 → Nat) (p : ∀ a, off a + S1x2x512.size a ≤ S4x2x512.size a) :
    ((g2M.slice (Rect.unit (s := S4x2x512) off S1x2x512.size p) (fun _ => rfl)).squeeze S2x512 squeezes_S1x2x512_S2x512).view.dmaCredit = N2 := rfl

end Cert.Kernel.Proto

end
-- ==== Proof.KBodyPre.lean ====
/- Closing a semaphore whose one round is over, and reads and writes through a whole buffer. -/
import proofs.«900604_g7700000000000605_dist_softmax_colshard_i_m512_n256_v7x_i32_f32_1_alg».proof.Proof.KSteps2
import proofs.«900604_g7700000000000605_dist_softmax_colshard_i_m512_n256_v7x_i32_f32_1_alg».proof.Proof.KRegions
import proofs.«900604_g7700000000000605_dist_softmax_colshard_i_m512_n256_v7x_i32_f32_1_alg».proof.Proof.KPrinted

noncomputable section

namespace Cert.Kernel.Proto

open Cert.Kernel.Gen

open Idealize.ShloMosaic
open Idealize.ShloMosaic.TcCoe
open Idealize.SL.RA Idealize.SL.BI
open Idealize.SL.BI.BIBase
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- A cell with no duty from round `R` on closes at `R`: its counter is the device's again, at zero. -/
theorem close_at (c : Dev nD) {i : Fin 25} {sm : SemLoc sig} (h : csem i = sm) (R : ℕ)
    (hd : ∀ r, R ≤ r → (Rd (F := F) m ρ).duties ((c : Thread nD τ), sm) r = ∅) :
    iprop(records m ρ K ∗ atPos ER ((c : Thread nD τ), sm) R ∅ 0) ⊢ (|={Set.univ}=> semVal ((c : Thread nD τ), sm) 0 : sProp 𝕄) := by
  iintro ⟨#HR, Hat⟩
  iapply (Rounds.cell_close ER (Rd m ρ) (Set.mem_univ (K (c, i))) (fun h => h) (R := R) hd)
  isplitr; · iapply (inv_of m ρ K c h); iexact HR
  iexact Hat
/-- after its one round; -/
theorem close_done (c : Dev nD) {i : Fin 25} {sm : SemLoc sig} (h : csem i = sm) :
    iprop(records m ρ K ∗ atPos ER ((c : Thread nD τ), sm) 1 ∅ 0) ⊢ (|={Set.univ}=> semVal ((c : Thread nD τ), sm) 0 : sProp 𝕄) :=
  close_at m ρ K c h 1 (duties_later m ρ _)
/-- or as it is, when nothing ever lands on it. -/
theorem close_unused (c : Dev nD) {i : Fin 25} {sm : SemLoc sig} (h : csem i = sm) (h0 : (Rd (F := F) m ρ).duties ((c : Thread nD τ), sm) 0 = ∅) :
    iprop(records m ρ K ∗ atPos ER ((c : Thread nD τ), sm) 0 ∅ 0) ⊢ (|={Set.univ}=> semVal ((c : Thread nD τ), sm) 0 : sProp 𝕄) :=
  close_at m ρ K c h 0 fun r _ => (Nat.eq_zero_or_pos r).elim (fun e => e ▸ h0) (duties_later m ρ _ r)

abbrev r0 : Rect S512x256 := Rect.unit (s := S512x256) ![0, 0] S512x256.size inb_S512x256_S512x256_0_0
abbrev rg1 : Rect S8x2x512 := Rect.unit (s := S8x2x512) ![0, 0, 0] S8x2x512.size inb_S8x2x512_S8x2x512_0_0_0
abbrev rg2 : Rect S4x2x512 := Rect.unit (s := S4x2x512) ![0, 0, 0] S4x2x512.size inb_S4x2x512_S4x2x512_0_0_0

theorem hz2 : (![0, 0] : Fin 2 → Nat) = fun _ => 0 := funext fun a => by fin_cases a <;> rfl
theorem hz3 : (![0, 0, 0] : Fin 3 → Nat) = fun _ => 0 := funext fun a => by fin_cases a <;> rfl
theorem read_x (f : (cc0_stg0_0 : Ref sig .tc).ty.Contents (Elt F)) : (xM : Memref sig .tc .vmem S512x256 .f32).view.readAt (Elt F) r0.toLoadRect f = f :=
  Memref.readAt_unit_zero (Elt F) cc0_stg0_0 hz2 _ f
theorem read_o (f : (cc0_stg1_0 : Ref sig .tc).ty.Contents (Elt F)) : (oM : Memref sig .tc .vmem S512x256 .f32).view.readAt (Elt F) r0.toLoadRect f = f :=
  Memref.readAt_unit_zero (Elt F) cc0_stg1_0 hz2 _ f
theorem write_o (f w : (cc0_stg1_0 : Ref sig .tc).ty.Contents (Elt F)) :
    ((oM : Memref sig .tc .vmem S512x256 .f32).access r0 : View sig .tc _ _ _).write (Elt F) f w Finset.univ = w :=
  Memref.write_access_unit_zero_univ (Elt F) cc0_stg1_0 hz2 _ f w
theorem read_g1 (f : (cc0_scratch0 : Ref sig .tc).ty.Contents (Elt F)) : (g1M : Memref sig .tc .vmem S8x2x512 .f32).view.readAt (Elt F) rg1.toLoadRect f = f :=
  Memref.readAt_unit_zero (Elt F) cc0_scratch0 hz3 _ f
theorem read_g2 (f : (cc0_scratch1 : Ref sig .tc).ty.Contents (Elt F)) : (g2M : Memref sig .tc .vmem S4x2x512 .f32).view.readAt (Elt F) rg2.toLoadRect f = f :=
  Memref.readAt_unit_zero (Elt F) cc0_scratch1 hz3 _ f

theorem pt1_as_load (c : Dev nD) (k : Fin 8) (q : PosShare TreeShare) (f : Buf (Elt F) ((c : Thread nD τ).loc cc0_scratch0)) :
    (pt1 c k q f : sProp 𝕄) = ((g1M : Memref sig .tc .vmem S8x2x512 .f32).view.loc (c : Thread nD τ) ↦[(slot1 k).view.set]{q} f) := rfl
theorem pt1_as_store (c : Dev nD) (k : Fin 8) (q : PosShare TreeShare) (f : Buf (Elt F) ((c : Thread nD τ).loc cc0_scratch0)) :
    (pt1 c k q f : sProp 𝕄) = (((g1M : Memref sig .tc .vmem S8x2x512 .f32).access (ownRect1 c)).loc (c : Thread nD τ) ↦[(slot1 k).view.set]{q} f) := rfl
theorem pt2_as_load (c : Dev nD) (k : Fin 4) (q : PosShare TreeShare) (f : Buf (Elt F) ((c : Thread nD τ).loc cc0_scratch1)) :
    (pt2 c k q f : sProp 𝕄) = ((g2M : Memref sig .tc .vmem S4x2x512 .f32).view.loc (c : Thread nD τ) ↦[(slot2 k).view.set]{q} f) := rfl
theorem pt2_as_store (c : Dev nD) (k : Fin 4) (q : PosShare TreeShare) (f : Buf (Elt F) ((c : Thread nD τ).loc cc0_scratch1)) :
    (pt2 c k q f : sProp 𝕄) = (((g2M : Memref sig .tc .vmem S4x2x512 .f32).access (ownRect2 c)).loc (c : Thread nD τ) ↦[(slot2 k).view.set]{q} f) := rfl

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

def bodyPre (c : Dev nD) : sProp 𝕄 :=
  iprop((ghost m ρ K c ∗ creds c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outC m ρ c))

theorem fetch_0 (t : Fin cfg0.N) : (cfg0.win (0 : Fin 2)).fetch t = true := fetch0_0 t

end Cert.Kernel.Proto

end
-- ==== Proof.KBody.lean ====
/- One device's body: ten signals, the block's reduction, the barrier wait, two exchanges each followed by a merge, the rescaling, ten send waits. -/
import proofs.«900604_g7700000000000605_dist_softmax_colshard_i_m512_n256_v7x_i32_f32_1_alg».proof.Proof.KBodyPre

noncomputable section

namespace Cert.Kernel.Proto

open Cert.Kernel.Gen

open Idealize.ShloMosaic
open Idealize.ShloMosaic.TcCoe
open Idealize.SL.RA Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

theorem owes_exit (c : Dev nD) (W' : Waits sig Unit) :
    (owes (c : Thread nD τ) (Oa c 20) W' : sProp 𝕄) ⊢ (dats m ρ 0 c).owesAt () t₀.succ := by
  unfold Dat.owesAt Pipeline.owesWithin
  rw [show (dats m ρ 0 c).owed t₀.succ = 0 from rfl]
  iintro HO
  iexists W'
  isplitr; · ipureintro; exact fun _ _ => Or.inl trivial
  iexact HO

set_option maxHeartbeats 8000000 in
set_option maxRecDepth 65536 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [k0_part14_eq_skeleton]; unfold k0_part14_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton]
  unfold k0_part1_skel k0_part2_skel k0_part3_skel k0_part4_skel k0_part5_skel k0_part6_skel k0_part7_skel k0_part8_skel
    k0_part9_skel k0_part10_skel k0_part11_skel k0_part12_skel k0_part13_skel
  simp only [semSignalWord, semWaitWord, Prog.lift, Prog.bind_op, Prog.bind_ret, Prog.pure_eq_ret, wp_deviceId]
  unfold bodyPre ghost positions perCell payToks creds scratch
  simp only [bigSep_fin10, bigSep_fin8, bigSep_fin4, bigSep_erase8, bigSep_erase4, add_zero]
  iintro ⟨⟨⟨⟨#HR, ⟨PB, ⟨PS1_0, PS1_1, PS1_2, PS1_3, PS1_4, PS1_5, PS1_6, PS1_7⟩, ⟨PR1_0, PR1_1, PR1_2, PR1_3, PR1_4, PR1_5, PR1_6, PR1_7⟩,
          ⟨PS2_0, PS2_1, PS2_2, PS2_3⟩, ⟨PR2_0, PR2_1, PR2_2, PR2_3⟩⟩,
        ⟨⟨TB0, TB1, TB2, TB3, TB4, TB5, TB6, TB7, TB8, TB9⟩,
          ⟨⟨TS1_1, TR1_1⟩, ⟨TS1_2, TR1_2⟩, ⟨TS1_3, TR1_3⟩, ⟨TS1_4, TR1_4⟩, ⟨TS1_5, TR1_5⟩, ⟨TS1_6, TR1_6⟩, ⟨TS1_7, TR1_7⟩⟩,
          ⟨⟨TS2_1, TR2_1⟩, ⟨TS2_2, TR2_2⟩, ⟨TS2_3, TR2_3⟩⟩⟩⟩,
      ⟨CB, ⟨CR1_1, CR1_2, CR1_3, CR1_4, CR1_5, CR1_6, CR1_7⟩, ⟨CR2_1, CR2_2, CR2_3⟩⟩, #Hlev, ⟨⟨%f1, Hg1⟩, ⟨%f2, Hg2⟩⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = Oa c 0 from rfl]
  ihave ⟨A0, A1, A2, A3, A4, A5, A6, A7⟩ := (slots1 c fullShare f1).1 $$ Hg1
  ihave ⟨B0, B1, B2, B3⟩ := (slots2 c fullShare f2).1 $$ Hg2
  iapply (sig_row m ρ K c 1 0 (by decide) rfl (dev_eq (k0_dev1_eq c)) (Oa c 0) (Oa c 1) rfl W f1) $$ [$HR $HO TB0 $A1]
  · iexact TB0
  iintro HO
  iapply (sig_row m ρ K c 2 1 (by decide) rfl (dev_eq (k0_dev2_eq c)) (Oa c 1) (Oa c 2) rfl W f1) $$ [$HR $HO TB1 $A2]
  · iexact TB1
  iintro HO
  iapply (sig_row m ρ K c 3 2 (by decide) rfl (dev_eq (k0_dev3_eq c)) (Oa c 2) (Oa c 3) rfl W f1) $$ [$HR $HO TB2 $A3]
  · iexact TB2
  iintro HO
  iapply (sig_row m ρ K c 4 3 (by decide) rfl (dev_eq (k0_dev4_eq c)) (Oa c 3) (Oa c 4) rfl W f1) $$ [$HR $HO TB3 $A4]
  · iexact TB3
  iintro HO
  iapply (sig_row m ρ K c 5 4 (by decide) rfl (dev_eq (k0_dev5_eq c)) (Oa c 4) (Oa c 5) rfl W f1) $$ [$HR $HO TB4 $A5]
  · iexact TB4
  iintro HO
  iapply (sig_row m ρ K c 6 5 (by decide) rfl (dev_eq (k0_dev6_eq c)) (Oa c 5) (Oa c 6) rfl W f1) $$ [$HR $HO TB5 $A6]
  · iexact TB5
  iintro HO
  iapply (sig_row m ρ K c 7 6 (by decide) rfl (dev_eq (k0_dev7_eq c)) (Oa c 6) (Oa c 7) rfl W f1) $$ [$HR $HO TB6 $A7]
  · iexact TB6
  iintro HO
  iapply (sig_col m ρ K c 1 7 (by decide) rfl (dev_eq (k0_dev8_eq c)) (Oa c 7) (Oa c 8) rfl W f2) $$ [$HR $HO TB7 $B1]
  · iexact TB7
  iintro HO
  iapply (sig_col m ρ K c 2 8 (by decide) rfl (dev_eq (k0_dev9_eq c)) (Oa c 8) (Oa c 9) rfl W f2) $$ [$HR $HO TB8 $B2]
  · iexact TB8
  iintro HO
  iapply (sig_col m ρ K c 3 9 (by decide) rfl (dev_eq (k0_dev10_eq c)) (Oa c 9) (Oa c 10) rfl W f2) $$ [$HR $HO TB9 $B3]
  · iexact TB9
  iintro HO
  iapply (wp_load 𝒱₀ (c : Thread nD τ) none Set.univ (m := xM) (Finset.subset_univ _)) $$ Hx; iintro Hx
  rw [read_x]
  ihave A0 := (Entails.of_eq (pt1_as_load c (rOf c) fullShare f1)) $$ A0
  iapply (wp_load 𝒱₀ (c : Thread nD τ) none Set.univ (m := g1M) (load1_sub c)) $$ A0; iintro A0
  ihave A0 := (Entails.of_eq ((pt1_as_load c (rOf c) fullShare f1).symm.trans (pt1_as_store c (rOf c) fullShare f1))) $$ A0
  iapply (wp_store 𝒱₀ (c : Thread nD τ) none Set.univ (m := g1M) (r := ownRect1 c) (Mk := Finset.univ) (store1_sub c)) $$ A0; iintro A0
  ihave A0 := (Entails.of_eq (pointsTo_congr (store1_val m ρ c f1))) $$ A0
  ihave A0' := (Entails.of_eq (pt1_as_store c (rOf c) fullShare (g1At m ρ c)).symm) $$ A0
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_o]
  iapply (wait_bar m ρ K c W) $$ [$HR $Hlev $CB $HO $PB]
  iintro ⟨HO, PB, ⟨⟨%e7, D7⟩, -⟩, ⟨⟨%e6, D6⟩, -⟩, ⟨⟨%e5, D5⟩, -⟩, ⟨⟨%e4, D4⟩, -⟩, ⟨⟨%e3, D3⟩, -⟩, ⟨⟨%e2, D2⟩, -⟩, ⟨⟨%e1, D1⟩, -⟩, ⟨⟨%h3, E3⟩, -⟩, ⟨⟨%h2, E2⟩, -⟩, ⟨⟨%h1, E1⟩, -⟩⟩
  ihave ⟨A0L, A0K⟩ := (halves1 c (rOf c) (g1At m ρ c)).1 $$ A0'
  ihave ⟨Q1, Q2, Q3, Q4, Q5, Q6, Q7⟩ := (shares1 c (rOf c) (g1At m ρ c)).1 $$ A0L
  iapply (send1 m ρ K c 1 (by decide) (dev_eq (k0_dev11_eq c)) (s1sem 1 _) (r1sem_own c) (ownSlot1 c) (ownSlot1 c) e1 (Oa c 10) (Oa c 11) rfl _) $$ [$HR $Q1 $D1 $HO $TS1_1 $TR1_1]; iintro ⟨CS1_1, HO⟩
  iapply (send1 m ρ K c 2 (by decide) (dev_eq (k0_dev12_eq c)) (s1sem 2 _) (r1sem_own c) (ownSlot1 c) (ownSlot1 c) e2 (Oa c 11) (Oa c 12) rfl _) $$ [$HR $Q2 $D2 $HO $TS1_2 $TR1_2]; iintro ⟨CS1_2, HO⟩
  iapply (send1 m ρ K c 3 (by decide) (dev_eq (k0_dev13_eq c)) (s1sem 3 _) (r1sem_own c) (ownSlot1 c) (ownSlot1 c) e3 (Oa c 12) (Oa c 13) rfl _) $$ [$HR $Q3 $D3 $HO $TS1_3 $TR1_3]; iintro ⟨CS1_3, HO⟩
  iapply (send1 m ρ K c 4 (by decide) (dev_eq (k0_dev14_eq c)) (s1sem 4 _) (r1sem_own c) (ownSlot1 c) (ownSlot1 c) e4 (Oa c 13) (Oa c 14) rfl _) $$ [$HR $Q4 $D4 $HO $TS1_4 $TR1_4]; iintro ⟨CS1_4, HO⟩
  iapply (send1 m ρ K c 5 (by decide) (dev_eq (k0_dev15_eq c)) (s1sem 5 _) (r1sem_own c) (ownSlot1 c) (ownSlot1 c) e5 (Oa c 14) (Oa c 15) rfl _) $$ [$HR $Q5 $D5 $HO $TS1_5 $TR1_5]; iintro ⟨CS1_5, HO⟩
  iapply (send1 m ρ K c 6 (by decide) (dev_eq (k0_dev16_eq c)) (s1sem 6 _) (r1sem_own c) (ownSlot1 c) (ownSlot1 c) e6 (Oa c 15) (Oa c 16) rfl _) $$ [$HR $Q6 $D6 $HO $TS1_6 $TR1_6]; iintro ⟨CS1_6, HO⟩
  iapply (send1 m ρ K c 7 (by decide) (dev_eq (k0_dev17_eq c)) (s1sem 7 _) (r1sem_own c) (ownSlot1 c) (ownSlot1 c) e7 (Oa c 16) (Oa c 17) rfl _) $$ [$HR $Q7 $D7 $HO $TS1_7 $TR1_7]; iintro ⟨CS1_7, HO⟩
  iapply (wait_dma m ρ K (r1Wait m ρ c 7 (by decide)) (r1sem_recv c 0) (dst1_credit _ _) _) $$ [$HR $Hlev $CR1_7 $HO $PR1_7]; iintro ⟨HO, PR1_7, V7⟩
  iapply (wait_dma m ρ K (r1Wait m ρ c 6 (by decide)) (r1sem_recv c 1) (dst1_credit _ _) _) $$ [$HR $Hlev $CR1_6 $HO $PR1_6]; iintro ⟨HO, PR1_6, V6⟩
  iapply (wait_dma m ρ K (r1Wait m ρ c 5 (by decide)) (r1sem_recv c 2) (dst1_credit _ _) _) $$ [$HR $Hlev $CR1_5 $HO $PR1_5]; iintro ⟨HO, PR1_5, V5⟩
  iapply (wait_dma m ρ K (r1Wait m ρ c 4 (by decide)) (r1sem_recv c 3) (dst1_credit _ _) _) $$ [$HR $Hlev $CR1_4 $HO $PR1_4]; iintro ⟨HO, PR1_4, V4⟩
  iapply (wait_dma m ρ K (r1Wait m ρ c 3 (by decide)) (r1sem_recv c 4) (dst1_credit _ _) _) $$ [$HR $Hlev $CR1_3 $HO $PR1_3]; iintro ⟨HO, PR1_3, V3⟩
  iapply (wait_dma m ρ K (r1Wait m ρ c 2 (by decide)) (r1sem_recv c 5) (dst1_credit _ _) _) $$ [$HR $Hlev $CR1_2 $HO $PR1_2]; iintro ⟨HO, PR1_2, V2⟩
  iapply (wait_dma m ρ K (r1Wait m ρ c 1 (by decide)) (r1sem_recv c 6) (dst1_credit _ _) _) $$ [$HR $Hlev $CR1_1 $HO $PR1_1]; iintro ⟨HO, PR1_1, V1⟩
  ihave ⟨V1L, V1K⟩ := (halves1 c (rOf c + 1) (g1At m ρ c)).1 $$ V1
  ihave ⟨V2L, V2K⟩ := (halves1 c (rOf c + 2) (g1At m ρ c)).1 $$ V2
  ihave ⟨V3L, V3K⟩ := (halves1 c (rOf c + 3) (g1At m ρ c)).1 $$ V3
  ihave ⟨V4L, V4K⟩ := (halves1 c (rOf c + 4) (g1At m ρ c)).1 $$ V4
  ihave ⟨V5L, V5K⟩ := (halves1 c (rOf c + 5) (g1At m ρ c)).1 $$ V5
  ihave ⟨V6L, V6K⟩ := (halves1 c (rOf c + 6) (g1At m ρ c)).1 $$ V6
  ihave ⟨V7L, V7K⟩ := (halves1 c (rOf c + 7) (g1At m ρ c)).1 $$ V7
  ihave Hw := (slots1 c keepQ (g1At m ρ c)).2 $$ [$A0K $V1K $V2K $V3K $V4K $V5K $V6K $V7K]
  iapply (wp_load 𝒱₀ (c : Thread nD τ) none Set.univ (m := g1M) (Finset.subset_univ _)) $$ Hw; iintro Hw
  rw [read_g1]
  ihave B0 := (Entails.of_eq (pt2_as_load c (zOf c) fullShare f2)) $$ B0
  iapply (wp_load 𝒱₀ (c : Thread nD τ) none Set.univ (m := g2M) (load2_sub c)) $$ B0; iintro B0
  ihave B0 := (Entails.of_eq ((pt2_as_load c (zOf c) fullShare f2).symm.trans (pt2_as_store c (zOf c) fullShare f2))) $$ B0
  iapply (wp_store 𝒱₀ (c : Thread nD τ) none Set.univ (m := g2M) (r := ownRect2 c) (Mk := Finset.univ) (store2_sub c)) $$ B0; iintro B0
  ihave B0 := (Entails.of_eq (pointsTo_congr (store2_val m ρ c f2))) $$ B0
  ihave B0' := (Entails.of_eq (pt2_as_store c (zOf c) fullShare (g2At m ρ c)).symm) $$ B0
  ihave ⟨B0L, B0K⟩ := (halves2 c (zOf c) (g2At m ρ c)).1 $$ B0'
  ihave ⟨P1, P2, P3⟩ := (shares2 c (zOf c) (g2At m ρ c)).1 $$ B0L
  iapply (send2 m ρ K c 1 (by decide) (dev_eq (k0_dev18_eq c)) (s2sem 1 _) (r2sem_own c) (ownSlot2 c) (ownSlot2 c) h1 (Oa c 17) (Oa c 18) rfl _) $$ [$HR $P1 $E1 $HO $TS2_1 $TR2_1]; iintro ⟨CS2_1, HO⟩
  iapply (send2 m ρ K c 2 (by decide) (dev_eq (k0_dev19_eq c)) (s2sem 2 _) (r2sem_own c) (ownSlot2 c) (ownSlot2 c) h2 (Oa c 18) (Oa c 19) rfl _) $$ [$HR $P2 $E2 $HO $TS2_2 $TR2_2]; iintro ⟨CS2_2, HO⟩
  iapply (send2 m ρ K c 3 (by decide) (dev_eq (k0_dev20_eq c)) (s2sem 3 _) (r2sem_own c) (ownSlot2 c) (ownSlot2 c) h3 (Oa c 19) (Oa c 20) rfl _) $$ [$HR $P3 $E3 $HO $TS2_3 $TR2_3]; iintro ⟨CS2_3, HO⟩
  iapply (wait_dma m ρ K (r2Wait m ρ c 3 (by decide)) (r2sem_recv c 0) (dst2_credit _ _) _) $$ [$HR $Hlev $CR2_3 $HO $PR2_3]; iintro ⟨HO, PR2_3, W3⟩
  iapply (wait_dma m ρ K (r2Wait m ρ c 2 (by decide)) (r2sem_recv c 1) (dst2_credit _ _) _) $$ [$HR $Hlev $CR2_2 $HO $PR2_2]; iintro ⟨HO, PR2_2, W2⟩
  iapply (wait_dma m ρ K (r2Wait m ρ c 1 (by decide)) (r2sem_recv c 2) (dst2_credit _ _) _) $$ [$HR $Hlev $CR2_1 $HO $PR2_1]; iintro ⟨HO, PR2_1, W1⟩
  ihave ⟨W1L, W1K⟩ := (halves2 c (zOf c + 1) (g2At m ρ c)).1 $$ W1
  ihave ⟨W2L, W2K⟩ := (halves2 c (zOf c + 2) (g2At m ρ c)).1 $$ W2
  ihave ⟨W3L, W3K⟩ := (halves2 c (zOf c + 3) (g2At m ρ c)).1 $$ W3
  ihave Hw2 := (slots2 c keepQ (g2At m ρ c)).2 $$ [$B0K $W1K $W2K $W3K]
  iapply (wp_load 𝒱₀ (c : Thread nD τ) none Set.univ (m := g2M) (Finset.subset_univ _)) $$ Hw2; iintro Hw2
  rw [read_g2]
  iapply (wp_load 𝒱₀ (c : Thread nD τ) none Set.univ (m := oM) (Finset.subset_univ _)) $$ Hout; iintro Hout
  rw [read_o]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_o]
  iapply (wait_dma m ρ K (s1Wait m ρ c 1 (by decide)) (s1sem 1 _) (dst1_credit _ _) _) $$ [$HR $Hlev $CS1_1 $HO $PS1_1]; iintro ⟨HO, PS1_1, Q1⟩
  iapply (wait_dma m ρ K (s1Wait m ρ c 2 (by decide)) (s1sem 2 _) (dst1_credit _ _) _) $$ [$HR $Hlev $CS1_2 $HO $PS1_2]; iintro ⟨HO, PS1_2, Q2⟩
  iapply (wait_dma m ρ K (s1Wait m ρ c 3 (by decide)) (s1sem 3 _) (dst1_credit _ _) _) $$ [$HR $Hlev $CS1_3 $HO $PS1_3]; iintro ⟨HO, PS1_3, Q3⟩
  iapply (wait_dma m ρ K (s1Wait m ρ c 4 (by decide)) (s1sem 4 _) (dst1_credit _ _) _) $$ [$HR $Hlev $CS1_4 $HO $PS1_4]; iintro ⟨HO, PS1_4, Q4⟩
  iapply (wait_dma m ρ K (s1Wait m ρ c 5 (by decide)) (s1sem 5 _) (dst1_credit _ _) _) $$ [$HR $Hlev $CS1_5 $HO $PS1_5]; iintro ⟨HO, PS1_5, Q5⟩
  iapply (wait_dma m ρ K (s1Wait m ρ c 6 (by decide)) (s1sem 6 _) (dst1_credit _ _) _) $$ [$HR $Hlev $CS1_6 $HO $PS1_6]; iintro ⟨HO, PS1_6, Q6⟩
  iapply (wait_dma m ρ K (s1Wait m ρ c 7 (by decide)) (s1sem 7 _) (dst1_credit _ _) _) $$ [$HR $Hlev $CS1_7 $HO $PS1_7]; iintro ⟨HO, PS1_7, Q7⟩
  iapply (wait_dma m ρ K (s2Wait m ρ c 1 (by decide)) (s2sem 1 _) (dst2_credit _ _) _) $$ [$HR $Hlev $CS2_1 $HO $PS2_1]; iintro ⟨HO, PS2_1, P1⟩
  iapply (wait_dma m ρ K (s2Wait m ρ c 2 (by decide)) (s2sem 2 _) (dst2_credit _ _) _) $$ [$HR $Hlev $CS2_2 $HO $PS2_2]; iintro ⟨HO, PS2_2, P2⟩
  iapply (wait_dma m ρ K (s2Wait m ρ c 3 (by decide)) (s2sem 3 _) (dst2_credit _ _) _) $$ [$HR $Hlev $CS2_3 $HO $PS2_3]; iintro ⟨HO, PS2_3, P3⟩
  ihave A0L := (shares1 c (rOf c) (g1At m ρ c)).2 $$ [$Q1 $Q2 $Q3 $Q4 $Q5 $Q6 $Q7]
  ihave HwL := (slots1 c fullShare.left (g1At m ρ c)).2 $$ [$A0L $V1L $V2L $V3L $V4L $V5L $V6L $V7L]
  ihave Hg1 := (pointsTo_share (PosShare.mem_left_op_right fullShare)).2 $$ [$HwL Hw]
  · iexact Hw
  ihave B0L := (shares2 c (zOf c) (g2At m ρ c)).2 $$ [$P1 $P2 $P3]
  ihave HwL2 := (slots2 c fullShare.left (g2At m ρ c)).2 $$ [$B0L $W1L $W2L $W3L]
  ihave Hg2 := (pointsTo_share (PosShare.mem_left_op_right fullShare)).2 $$ [$HwL2 Hw2]
  · iexact Hw2
  imod (close_unused m ρ K c (csem_s1 0) (duties_s1_zero m ρ c)) $$ [$HR $PS1_0] with ZS1_0
  imod (close_done m ρ K c (csem_s1 1)) $$ [$HR $PS1_1] with ZS1_1
  imod (close_done m ρ K c (csem_s1 2)) $$ [$HR $PS1_2] with ZS1_2
  imod (close_done m ρ K c (csem_s1 3)) $$ [$HR $PS1_3] with ZS1_3
  imod (close_done m ρ K c (csem_s1 4)) $$ [$HR $PS1_4] with ZS1_4
  imod (close_done m ρ K c (csem_s1 5)) $$ [$HR $PS1_5] with ZS1_5
  imod (close_done m ρ K c (csem_s1 6)) $$ [$HR $PS1_6] with ZS1_6
  imod (close_done m ρ K c (csem_s1 7)) $$ [$HR $PS1_7] with ZS1_7
  imod (close_unused m ρ K c (csem_r1 (rOf c)) (duties_r1_own m ρ c)) $$ [$HR $PR1_0] with ZR1_0
  imod (close_done m ρ K c (csem_r1 (rOf c + 1))) $$ [$HR $PR1_1] with ZR1_1
  imod (close_done m ρ K c (csem_r1 (rOf c + 2))) $$ [$HR $PR1_2] with ZR1_2
  imod (close_done m ρ K c (csem_r1 (rOf c + 3))) $$ [$HR $PR1_3] with ZR1_3
  imod (close_done m ρ K c (csem_r1 (rOf c + 4))) $$ [$HR $PR1_4] with ZR1_4
  imod (close_done m ρ K c (csem_r1 (rOf c + 5))) $$ [$HR $PR1_5] with ZR1_5
  imod (close_done m ρ K c (csem_r1 (rOf c + 6))) $$ [$HR $PR1_6] with ZR1_6
  imod (close_done m ρ K c (csem_r1 (rOf c + 7))) $$ [$HR $PR1_7] with ZR1_7
  imod (close_unused m ρ K c (csem_s2 0) (duties_s2_zero m ρ c)) $$ [$HR $PS2_0] with ZS2_0
  imod (close_done m ρ K c (csem_s2 1)) $$ [$HR $PS2_1] with ZS2_1
  imod (close_done m ρ K c (csem_s2 2)) $$ [$HR $PS2_2] with ZS2_2
  imod (close_done m ρ K c (csem_s2 3)) $$ [$HR $PS2_3] with ZS2_3
  imod (close_unused m ρ K c (csem_r2 (zOf c)) (duties_r2_own m ρ c)) $$ [$HR $PR2_0] with ZR2_0
  imod (close_done m ρ K c (csem_r2 (zOf c + 1))) $$ [$HR $PR2_1] with ZR2_1
  imod (close_done m ρ K c (csem_r2 (zOf c + 2))) $$ [$HR $PR2_2] with ZR2_2
  imod (close_done m ρ K c (csem_r2 (zOf c + 3))) $$ [$HR $PR2_3] with ZR2_3
  rw [wp_ret]; imodintro
  iapply Hk
  unfold bodyPost Φ₁ scratch ownZero perCell
  simp only [bigSep_fin8, bigSep_fin4, add_zero]
  ihave HO := (owes_exit m ρ c _) $$ HO
  iframe ZS1_0 ZS1_1 ZS1_2 ZS1_3 ZS1_4 ZS1_5 ZS1_6 ZS1_7 ZR1_0 ZR1_1 ZR1_2 ZR1_3 ZR1_4 ZR1_5 ZR1_6 ZR1_7 ZS2_0 ZS2_1 ZS2_2 ZS2_3 ZR2_0 ZR2_1 ZR2_2 ZR2_3 HO
  isplitl [Hg1 Hg2]
  · isplitl [Hg1]; · iexists _; iexact Hg1
    iexists _; iexact Hg2
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  iframe Hg Hcr Hlev Hscr Ho Hx Hout
  iintro H; iexact H

end Cert.Kernel.Proto

end
-- ==== Proof.KGlueBody.lean ====
/- The run, with every device's body proved. -/
import proofs.«900604_g7700000000000605_dist_softmax_colshard_i_m512_n256_v7x_i32_f32_1_alg».proof.Proof.KGlue
import proofs.«900604_g7700000000000605_dist_softmax_colshard_i_m512_n256_v7x_i32_f32_1_alg».proof.Proof.KBody

noncomputable section

namespace Cert.Kernel.Proto

open Idealize.ShloMosaic

variable {F : FTy → Type} [FloatOps F]

variable (m : (ℓ : Loc nD τ sig) → Buf (Elt F) ℓ) (ρ : Dev nD → PrngReg)

theorem krun : θ_run (defs (F := F)) (onTc (τ := τ) (main (F := F))) ⟨m, fun _ => 0, ρ⟩ (fun r => ∀ c : Dev nD,
      r.2.mem ((c.tc : Thread nD τ).loc main_v1)
          = Spec.outAt (fun c' : Dev nD => m ((c'.tc : Thread nD τ).loc main_arg0)) c
        ∧ r.2.mem ((c.tc : Thread nD τ).loc main_arg0) = m ((c.tc : Thread nD τ).loc main_arg0)) :=
  krun_of m ρ (body_obligation m ρ)

/-- info: 'Cert.Kernel.Proto.krun' depends on axioms: [propext, Classical.choice, Quot.sound] -/
#guard_msgs in #print axioms krun

end Cert.Kernel.Proto

end
-- ==== Proof.lean ====
/- The row softmax computed by 32 devices, each on a 512 × 256 block of columns, through a two-level merge of per-block (maximum, sum of exponentials) pairs,
   is the row softmax of the whole 512 × 8192 array. -/
import proofs.«900604_g7700000000000605_dist_softmax_colshard_i_m512_n256_v7x_i32_f32_1_alg».proof.Proof.Assemble
import proofs.«900604_g7700000000000605_dist_softmax_colshard_i_m512_n256_v7x_i32_f32_1_alg».proof.Proof.GlueBody
import proofs.«900604_g7700000000000605_dist_softmax_colshard_i_m512_n256_v7x_i32_f32_1_alg».proof.Proof.KGlueBody
import Idealize.ShloMosaic.Adequacy
import Idealize.ShloMosaic.Init

noncomputable section

namespace Cert.Proof

open Idealize.ShloMosaic Idealize.SL.Sem

theorem frame_k : Cert.frame_Kernel := fun m ρ _ =>
  (θ_run (Cert.Kernel.defs (F := Bits)) _ _).mono (fun _ h c => (h c).2) (Cert.Kernel.Proto.krun (F := Bits) m ρ)

theorem claim : Cert.Claim :=
  Cert.Proof.Assemble.claim_of frame_k (fun m g => Cert.KernelIdeal.Proto.krun (F := Ideal) m g)

end Cert.Proof

end
